-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8193x128 : Shape := ⟨2, ![8193, 128]⟩
abbrev S128x128 : Shape := ⟨2, ![128, 128]⟩
abbrev S1x128 : Shape := ⟨2, ![1, 128]⟩
abbrev S4096x8192 : Shape := ⟨2, ![4096, 8192]⟩
abbrev S8192x4096 : Shape := ⟨2, ![8192, 4096]⟩
abbrev S8192x8192 : Shape := ⟨2, ![8192, 8192]⟩
abbrev S1024 : Shape := ⟨1, ![1024]⟩
abbrev S_ : Shape := ⟨0, ![]⟩

class Facts : Prop where
  bcast_S_S8193x128 : S_.BroadcastsInDim S8193x128 (![] : Fin 0 → Fin S8193x128.rank)
  reducesTo_S8193x128_S_d0_1 : S8193x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_
  bcast_S_S4096x8192 : S_.BroadcastsInDim S4096x8192 (![] : Fin 0 → Fin S4096x8192.rank)
  reducesTo_S4096x8192_S_d0_1 : S4096x8192.ReducesTo [0, 1] S_
  bcast_S_S8192x4096 : S_.BroadcastsInDim S8192x4096 (![] : Fin 0 → Fin S8192x4096.rank)
  reducesTo_S8192x4096_S_d0_1 : S8192x4096.ReducesTo [0, 1] S_
  bcast_S_S8192x8192 : S_.BroadcastsInDim S8192x8192 (![] : Fin 0 → Fin S8192x8192.rank)
  reducesTo_S8192x8192_S_d0_1 : S8192x8192.ReducesTo [0, 1] S_

variable [Facts]

def fn_part3 {F : FTy → Type} [FloatOps F] (main_arg11 : FVec F S8192x8192 .f32) (main_v48 : IVec S_ 1) (main_v49 : FVec F S4096x8192 .f32) (main_v50 : FVec F S4096x8192 .f32) : IVec S_ 1 :=
  let main_v51 : IVec S4096x8192 1 := cmpf .olt main_v49 main_v50
  let main_c_19 : IVec S_ 1 := constantI S_ 1 1#1
  let main_v52 : IVec S_ 1 := (fun x v => Host.reduce IntOp.andi x v reducesTo_S4096x8192_S_d0_1 h_S_) main_v51 main_c_19
  let main_v53 : IVec S_ 1 := andi main_v48 main_v52
  let main_v54 : FVec F S8192x8192 .f32 := Host.absf main_arg11
  let main_cst_20 : FVec F S_ .f32 := constant S_ .f32 0x7F800000#32
  let main_v55 : FVec F S8192x8192 .f32 := broadcastInDim S8192x8192 ![] bcast_S_S8192x8192 main_cst_20
  let main_v56 : IVec S8192x8192 1 := cmpf .olt main_v54 main_v55
  let main_c_21 : IVec S_ 1 := constantI S_ 1 1#1
  let main_v57 : IVec S_ 1 := (fun x v => Host.reduce IntOp.andi x v reducesTo_S8192x8192_S_d0_1 h_S_) main_v56 main_c_21
  let main_v58 : IVec S_ 1 := andi main_v53 main_v57
  main_v58

def fn_part2 {F : FTy → Type} [FloatOps F] (main_arg7 : FVec F S4096x8192 .f32) (main_arg8 : FVec F S8192x4096 .f32) (main_arg9 : FVec F S8192x4096 .f32) (main_arg10 : FVec F S4096x8192 .f32) (main_arg11 : FVec F S8192x8192 .f32) (main_v33 : IVec S_ 1) : IVec S_ 1 :=
  let main_v34 : FVec F S4096x8192 .f32 := Host.absf main_arg7
  let main_cst_12 : FVec F S_ .f32 := constant S_ .f32 0x7F800000#32
  let main_v35 : FVec F S4096x8192 .f32 := broadcastInDim S4096x8192 ![] bcast_S_S4096x8192 main_cst_12
  let main_v36 : IVec S4096x8192 1 := cmpf .olt main_v34 main_v35
  let main_c_13 : IVec S_ 1 := constantI S_ 1 1#1
  let main_v37 : IVec S_ 1 := (fun x v => Host.reduce IntOp.andi x v reducesTo_S4096x8192_S_d0_1 h_S_) main_v36 main_c_13
  let main_v38 : IVec S_ 1 := andi main_v33 main_v37
  let main_v39 : FVec F S8192x4096 .f32 := Host.absf main_arg8
  let main_cst_14 : FVec F S_ .f32 := constant S_ .f32 0x7F800000#32
  let main_v40 : FVec F S8192x4096 .f32 := broadcastInDim S8192x4096 ![] bcast_S_S8192x4096 main_cst_14
  let main_v41 : IVec S8192x4096 1 := cmpf .olt main_v39 main_v40
  let main_c_15 : IVec S_ 1 := constantI S_ 1 1#1
  let main_v42 : IVec S_ 1 := (fun x v => Host.reduce IntOp.andi x v reducesTo_S8192x4096_S_d0_1 h_S_) main_v41 main_c_15
  let main_v43 : IVec S_ 1 := andi main_v38 main_v42
  let main_v44 : FVec F S8192x4096 .f32 := Host.absf main_arg9
  let main_cst_16 : FVec F S_ .f32 := constant S_ .f32 0x7F800000#32
  let main_v45 : FVec F S8192x4096 .f32 := broadcastInDim S8192x4096 ![] bcast_S_S8192x4096 main_cst_16
  let main_v46 : IVec S8192x4096 1 := cmpf .olt main_v44 main_v45
  let main_c_17 : IVec S_ 1 := constantI S_ 1 1#1
  let main_v47 : IVec S_ 1 := (fun x v => Host.reduce IntOp.andi x v reducesTo_S8192x4096_S_d0_1 h_S_) main_v46 main_c_17
  let main_v48 : IVec S_ 1 := andi main_v43 main_v47
  let main_v49 : FVec F S4096x8192 .f32 := Host.absf main_arg10
  let main_cst_18 : FVec F S_ .f32 := constant S_ .f32 0x7F800000#32
  let main_v50 : FVec F S4096x8192 .f32 := broadcastInDim S4096x8192 ![] bcast_S_S4096x8192 main_cst_18
  fn_part3 (F := F) main_arg11 main_v48 main_v49 main_v50

def fn_part1 {F : FTy → Type} [FloatOps F] (main_arg4 : FVec F S1x128 .f32) (main_arg5 : FVec F S128x128 .f32) (main_arg6 : FVec F S1x128 .f32) (main_arg7 : FVec F S4096x8192 .f32) (main_arg8 : FVec F S8192x4096 .f32) (main_arg9 : FVec F S8192x4096 .f32) (main_arg10 : FVec F S4096x8192 .f32) (main_arg11 : FVec F S8192x8192 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S1x128 .f32 := Host.absf main_arg4
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S1x128 .f32 := Host.absf main_arg6
  let main_cst_10 : FVec F S_ .f32 := constant S_ .f32 0x7F800000#32
  let main_v30 : FVec F S1x128 .f32 := broadcastInDim S1x128 ![] bcast_S_S1x128 main_cst_10
  let main_v31 : IVec S1x128 1 := cmpf .olt main_v29 main_v30
  let main_c_11 : IVec S_ 1 := constantI S_ 1 1#1
  let main_v32 : IVec S_ 1 := (fun x v => Host.reduce IntOp.andi x v reducesTo_S1x128_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S8193x128 .f32) (main_arg1 : FVec F S128x128 .f32) (main_arg2 : FVec F S1x128 .f32) (main_arg3 : FVec F S128x128 .f32) (main_arg4 : FVec F S1x128 .f32) (main_arg5 : FVec F S128x128 .f32) (main_arg6 : FVec F S1x128 .f32) (main_arg7 : FVec F S4096x8192 .f32) (main_arg8 : FVec F S8192x4096 .f32) (main_arg9 : FVec F S8192x4096 .f32) (main_arg10 : FVec F S4096x8192 .f32) (main_arg11 : FVec F S8192x8192 .f32) (main_arg12 : IVec S1024 32) : IVec S_ 1 :=
  let main_v0 : FVec F S8193x128 .f32 := Host.absf main_arg0
  let main_cst : FVec F S_ .f32 := constant S_ .f32 0x7F800000#32
  let main_v1 : FVec F S8193x128 .f32 := broadcastInDim S8193x128 ![] bcast_S_S8193x128 main_cst
  let main_v2 : IVec S8193x128 1 := cmpf .olt main_v0 main_v1
  let main_c : IVec S_ 1 := constantI S_ 1 1#1
  let main_v3 : IVec S_ 1 := (fun x v => Host.reduce IntOp.andi x v reducesTo_S8193x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S1x128 .f32 := Host.absf main_arg2
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_v13 main_v16
-- ==== Kernel.lean ====
abbrev S8193x128 : Shape := ⟨2, ![8193, 128]⟩
abbrev S128x128 : Shape := ⟨2, ![128, 128]⟩
abbrev S1x128 : Shape := ⟨2, ![1, 128]⟩
abbrev S4096x8192 : Shape := ⟨2, ![4096, 8192]⟩
abbrev S8192x4096 : Shape := ⟨2, ![8192, 4096]⟩
abbrev S8192x8192 : Shape := ⟨2, ![8192, 8192]⟩
abbrev S1024 : Shape := ⟨1, ![1024]⟩
abbrev S8192x128 : Shape := ⟨2, ![8192, 128]⟩
abbrev S1024x128 : Shape := ⟨2, ![1024, 128]⟩
abbrev S4096x128 : Shape := ⟨2, ![4096, 128]⟩
abbrev S1024x1024 : Shape := ⟨2, ![1024, 1024]⟩
abbrev S_ : Shape := ⟨0, ![]⟩
abbrev S1024x1 : Shape := ⟨2, ![1024, 1]⟩
abbrev S26624x128 : Shape := ⟨2, ![26624, 128]⟩

abbrev nBuf : Space → Nat
  | .hbm => 43
  | .vmem => 73
  | .smem => 0
  | _ => 0

abbrev bufTy : (tb : Table) → Fin (tcTables nBuf tb) → BufTy
  | .hbm, ⟨0, _⟩ => ⟨S8193x128, .f32⟩
  | .hbm, ⟨1, _⟩ => ⟨S128x128, .f32⟩
  | .hbm, ⟨2, _⟩ => ⟨S1x128, .f32⟩
  | .hbm, ⟨3, _⟩ => ⟨S128x128, .f32⟩
  | .hbm, ⟨4, _⟩ => ⟨S1x128, .f32⟩
  | .hbm, ⟨5, _⟩ => ⟨S128x128, .f32⟩
  | .hbm, ⟨6, _⟩ => ⟨S1x128, .f32⟩
  | .hbm, ⟨7, _⟩ => ⟨S4096x8192, .f32⟩
  | .hbm, ⟨8, _⟩ => ⟨S8192x4096, .f32⟩
  | .hbm, ⟨9, _⟩ => ⟨S8192x4096, .f32⟩
  | .hbm, ⟨10, _⟩ => ⟨S4096x8192, .f32⟩
  | .hbm, ⟨11, _⟩ => ⟨S8192x8192, .f32⟩
  | .hbm, ⟨12, _⟩ => ⟨S1024, .i32⟩
  | .hbm, ⟨13, _⟩ => ⟨S8192x128, .f32⟩
  | .hbm, ⟨14, _⟩ => ⟨S8192x128, .f32⟩
  | .hbm, ⟨15, _⟩ => ⟨S8192x128, .f32⟩
  | .hbm, ⟨16, _⟩ => ⟨S8192x128, .f32⟩
  | .hbm, ⟨17, _⟩ => ⟨S4096x128, .f32⟩
  | .hbm, ⟨18, _⟩ => ⟨S8192x128, .f32⟩
  | .hbm, ⟨19, _⟩ => ⟨S8192x128, .f32⟩
  | .hbm, ⟨20, _⟩ => ⟨S4096x128, .f32⟩
  | .hbm, ⟨21, _⟩ => ⟨S8192x128, .f32⟩
  | .hbm, ⟨22, _⟩ => ⟨S4096x128, .f32⟩
  | .hbm, ⟨23, _⟩ => ⟨S4096x128, .f32⟩
  | .hbm, ⟨24, _⟩ => ⟨S_, .i32⟩
  | .hbm, ⟨25, _⟩ => ⟨S1024, .i32⟩
  | .hbm, ⟨26, _⟩ => ⟨S1024, .i1⟩
  | .hbm, ⟨27, _⟩ => ⟨S_, .i32⟩
  | .hbm, ⟨28, _⟩ => ⟨S1024, .i32⟩
  | .hbm, ⟨29, _⟩ => ⟨S1024, .i32⟩
  | .hbm, ⟨30, _⟩ => ⟨S1024, .i32⟩
  | .hbm, ⟨31, _⟩ => ⟨S1024x1, .i32⟩
  | .hbm, ⟨32, _⟩ => ⟨S1024x128, .f32⟩
  | .hbm, ⟨33, _⟩ => ⟨S_, .i32⟩
  | .hbm, ⟨34, _⟩ => ⟨S1024, .i32⟩
  | .hbm, ⟨35, _⟩ => ⟨S1024, .i1⟩
  | .hbm, ⟨36, _⟩ => ⟨S_, .i32⟩
  | .hbm, ⟨37, _⟩ => ⟨S1024, .i32⟩
  | .hbm, ⟨38, _⟩ => ⟨S1024, .i32⟩
  | .hbm, ⟨39, _⟩ => ⟨S1024, .i32⟩
  | .hbm, ⟨40, _⟩ => ⟨S1024x1, .i32⟩
  | .hbm, ⟨41, _⟩ => ⟨S1024x128, .f32⟩
  | .hbm, ⟨42, _⟩ => ⟨S26624x128, .f32⟩
  | .local _ .vmem, ⟨0, _⟩ => ⟨S1024x128, .f32⟩
  | .local _ .vmem, ⟨1, _⟩ => ⟨S1024x128, .f32⟩
  | .local _ .vmem, ⟨2, _⟩ => ⟨S128x128, .f32⟩
  | .local _ .vmem, ⟨3, _⟩ => ⟨S1x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S128x128, .f32⟩
  | .local _ .vmem, ⟨9, _⟩ => ⟨S1x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S128x128, .f32⟩
  | .local _ .vmem, ⟨15, _⟩ => ⟨S1x128, .f32⟩
  | .local _ .vmem, ⟨16, _⟩ => ⟨S1024x128, .f32⟩
  | .local _ .vmem, ⟨17, _⟩ => ⟨S1024x128, .f32⟩
  | .local _ .vmem, ⟨18, _⟩ => ⟨S1024x1024, .f32⟩
  | .local _ .vmem, ⟨19, _⟩ => ⟨S1024x1024, .f32⟩
  | .local _ .vmem, ⟨20, _⟩ => ⟨S1024x128, .f32⟩
  | .local _ .vmem, ⟨21, _⟩ => ⟨S1024x128, .f32⟩
  | .local _ .vmem, ⟨22, _⟩ => ⟨S1024x128, .f32⟩
  | .local _ .vmem, ⟨23, _⟩ => ⟨S1024x128, .f32⟩
  | .local _ .vmem, ⟨24, _⟩ => ⟨S1024x128, .f32⟩
  | .local _ .vmem, ⟨25, _⟩ => ⟨S1024x1024, .f32⟩
  | .local _ .vmem, ⟨26, _⟩ => ⟨S1024x1024, .f32⟩
  | .local _ .vmem, ⟨27, _⟩ => ⟨S1024x128, .f32⟩
  | .local _ .vmem, ⟨28, _⟩ => ⟨S1024x128, .f32⟩
  | .local _ .vmem, ⟨29, _⟩ => ⟨S1024x128, .f32⟩
  | .local _ .vmem, ⟨30, _⟩ => ⟨S1024x128, .f32⟩
  | .local _ .vmem, ⟨31, _⟩ => ⟨S1024x128, .f32⟩
  | .local _ .vmem, ⟨32, _⟩ => ⟨S1024x128, .f32⟩
  | .local _ .vmem, ⟨33, _⟩ => ⟨S1024x128, .f32⟩
  | .local _ .vmem, ⟨34, _⟩ => ⟨S1024x1024, .f32⟩
  | .local _ .vmem, ⟨35, _⟩ => ⟨S1024x1024, .f32⟩
  | .local _ .vmem, ⟨36, _⟩ => ⟨S1024x128, .f32⟩
  | .local _ .vmem, ⟨37, _⟩ => ⟨S1024x128, .f32⟩
  | .local _ .vmem, ⟨38, _⟩ => ⟨S1024x128, .f32⟩
  | .local _ .vmem, ⟨39, _⟩ => ⟨S1024x128, .f32⟩
  | .local _ .vmem, ⟨40, _⟩ => ⟨S1024x128, .f32⟩
  | .local _ .vmem, ⟨41, _⟩ => ⟨S1024x128, .f32⟩
  | .local _ .vmem, ⟨42, _⟩ => ⟨S1024x128, .f32⟩
  | .local _ .vmem, ⟨43, _⟩ => ⟨S1024x1024, .f32⟩
  | .local _ .vmem, ⟨44, _⟩ => ⟨S1024x1024, .f32⟩
  | .local _ .vmem, ⟨45, _⟩ => ⟨S1024x128, .f32⟩
  | .local _ .vmem, ⟨46, _⟩ => ⟨S1024x128, .f32⟩
  | .local _ .vmem, ⟨47, _⟩ => ⟨S1024x128, .f32⟩
  | .local _ .vmem, ⟨48, _⟩ => ⟨S1024x128, .f32⟩
  | .local _ .vmem, ⟨49, _⟩ => ⟨S1024x128, .f32⟩
  | .local _ .vmem, ⟨50, _⟩ => ⟨S1024x1024, .f32⟩
  | .local _ .vmem, ⟨51, _⟩ => ⟨S1024x1024, .f32⟩
  | .local _ .vmem, ⟨52, _⟩ => ⟨S1024x128, .f32⟩
  | .local _ .vmem, ⟨53, _⟩ => ⟨S1024x128, .f32⟩
  | .local _ .vmem, ⟨54, _⟩ => ⟨S1024x128, .f32⟩
  | .local _ .vmem, ⟨55, _⟩ => ⟨S1024x128, .f32⟩
  | .local _ .vmem, ⟨56, _⟩ => ⟨S1024x128, .f32⟩
  | .local _ .vmem, ⟨57, _⟩ => ⟨S1024x128, .f32⟩
  | .local _ .vmem, ⟨58, _⟩ => ⟨S1024x128, .f32⟩
  | .local _ .vmem, ⟨59, _⟩ => ⟨S1024x1024, .f32⟩
  | .local _ .vmem, ⟨60, _⟩ => ⟨S1024x1024, .f32⟩
  | .local _ .vmem, ⟨61, _⟩ => ⟨S1024x128, .f32⟩
  | .local _ .vmem, ⟨62, _⟩ => ⟨S1024x128, .f32⟩
  | .local _ .vmem, ⟨63, _⟩ => ⟨S1024x128, .f32⟩
  | .local _ .vmem, ⟨64, _⟩ => ⟨S1024x128, .f32⟩
  | .local _ .vmem, ⟨65, _⟩ => ⟨S1024x128, .f32⟩
  | .local _ .vmem, ⟨66, _⟩ => ⟨S1024x1024, .f32⟩
  | .local _ .vmem, ⟨67, _⟩ => ⟨S1024x1024, .f32⟩
  | .local _ .vmem, ⟨68, _⟩ => ⟨S1024x128, .f32⟩
  | .local _ .vmem, ⟨69, _⟩ => ⟨S1024x128, .f32⟩
  | .local _ .vmem, ⟨70, _⟩ => ⟨S1024x128, .f32⟩
  | .local _ .vmem, ⟨71, _⟩ => ⟨S1024x128, .f32⟩
  | .local _ .vmem, ⟨72, _⟩ => ⟨S1024x128, .f32⟩
  | _, _ => ⟨S8193x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_1 : Ref sig .tc := ⟨.hbm, 33, rfl⟩
abbrev main_v18 : Ref sig .tc := ⟨.hbm, 34, rfl⟩
abbrev main_v19 : Ref sig .tc := ⟨.hbm, 35, rfl⟩
abbrev main_c_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_scratch0 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg2_1 : Ref sig .tc := ⟨.vmem, 30, rfl⟩
abbrev cc4_stg3_0 : Ref sig .tc := ⟨.vmem, 31, rfl⟩
abbrev cc4_stg3_1 : Ref sig .tc := ⟨.vmem, 32, rfl⟩
abbrev cc4_scratch0 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg2_1 : Ref sig .tc := ⟨.vmem, 39, rfl⟩
abbrev cc5_stg3_0 : Ref sig .tc := ⟨.vmem, 40, rfl⟩
abbrev cc5_stg3_1 : Ref sig .tc := ⟨.vmem, 41, rfl⟩
abbrev cc5_scratch0 : Ref sig .tc := ⟨.vmem, 42, rfl⟩
abbrev cc6_stg0_0 : Ref sig .tc := ⟨.vmem, 43, rfl⟩
abbrev cc6_stg0_1 : Ref sig .tc := ⟨.vmem, 44, rfl⟩
abbrev cc6_stg1_0 : Ref sig .tc := ⟨.vmem, 45, rfl⟩
abbrev cc6_stg1_1 : Ref sig .tc := ⟨.vmem, 46, rfl⟩
abbrev cc6_stg2_0 : Ref sig .tc := ⟨.vmem, 47, rfl⟩
abbrev cc6_stg2_1 : Ref sig .tc := ⟨.vmem, 48, rfl⟩
abbrev cc6_scratch0 : Ref sig .tc := ⟨.vmem, 49, rfl⟩
abbrev cc7_stg0_0 : Ref sig .tc := ⟨.vmem, 50, rfl⟩
abbrev cc7_stg0_1 : Ref sig .tc := ⟨.vmem, 51, rfl⟩
abbrev cc7_stg1_0 : Ref sig .tc := ⟨.vmem, 52, rfl⟩
abbrev cc7_stg1_1 : Ref sig .tc := ⟨.vmem, 53, rfl⟩
abbrev cc7_stg2_0 : Ref sig .tc := ⟨.vmem, 54, rfl⟩
abbrev cc7_stg2_1 : Ref sig .tc := ⟨.vmem, 55, rfl⟩
abbrev cc7_stg3_0 : Ref sig .tc := ⟨.vmem, 56, rfl⟩
abbrev cc7_stg3_1 : Ref sig .tc := ⟨.vmem, 57, rfl⟩
abbrev cc7_scratch0 : Ref sig .tc := ⟨.vmem, 58, rfl⟩
abbrev cc8_stg0_0 : Ref sig .tc := ⟨.vmem, 59, rfl⟩
abbrev cc8_stg0_1 : Ref sig .tc := ⟨.vmem, 60, rfl⟩
abbrev cc8_stg1_0 : Ref sig .tc := ⟨.vmem, 61, rfl⟩
abbrev cc8_stg1_1 : Ref sig .tc := ⟨.vmem, 62, rfl⟩
abbrev cc8_stg2_0 : Ref sig .tc := ⟨.vmem, 63, rfl⟩
abbrev cc8_stg2_1 : Ref sig .tc := ⟨.vmem, 64, rfl⟩
abbrev cc8_scratch0 : Ref sig .tc := ⟨.vmem, 65, rfl⟩
abbrev cc9_stg0_0 : Ref sig .tc := ⟨.vmem, 66, rfl⟩
abbrev cc9_stg0_1 : Ref sig .tc := ⟨.vmem, 67, rfl⟩
abbrev cc9_stg1_0 : Ref sig .tc := ⟨.vmem, 68, rfl⟩
abbrev cc9_stg1_1 : Ref sig .tc := ⟨.vmem, 69, rfl⟩
abbrev cc9_stg2_0 : Ref sig .tc := ⟨.vmem, 70, rfl⟩
abbrev cc9_stg2_1 : Ref sig .tc := ⟨.vmem, 71, rfl⟩
abbrev cc9_scratch0 : Ref sig .tc := ⟨.vmem, 72, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc4_sem3_0 : DmaSem sig := 30
abbrev cc4_sem3_1 : DmaSem sig := 31
abbrev cc5_sem0_0 : DmaSem sig := 32
abbrev cc5_sem0_1 : DmaSem sig := 33
abbrev cc5_sem1_0 : DmaSem sig := 34
abbrev cc5_sem1_1 : DmaSem sig := 35
abbrev cc5_sem2_0 : DmaSem sig := 36
abbrev cc5_sem2_1 : DmaSem sig := 37
abbrev cc5_sem3_0 : DmaSem sig := 38
abbrev cc5_sem3_1 : DmaSem sig := 39
abbrev cc6_sem0_0 : DmaSem sig := 40
abbrev cc6_sem0_1 : DmaSem sig := 41
abbrev cc6_sem1_0 : DmaSem sig := 42
abbrev cc6_sem1_1 : DmaSem sig := 43
abbrev cc6_sem2_0 : DmaSem sig := 44
abbrev cc6_sem2_1 : DmaSem sig := 45
abbrev cc7_sem0_0 : DmaSem sig := 46
abbrev cc7_sem0_1 : DmaSem sig := 47
abbrev cc7_sem1_0 : DmaSem sig := 48
abbrev cc7_sem1_1 : DmaSem sig := 49
abbrev cc7_sem2_0 : DmaSem sig := 50
abbrev cc7_sem2_1 : DmaSem sig := 51
abbrev cc7_sem3_0 : DmaSem sig := 52
abbrev cc7_sem3_1 : DmaSem sig := 53
abbrev cc8_sem0_0 : DmaSem sig := 54
abbrev cc8_sem0_1 : DmaSem sig := 55
abbrev cc8_sem1_0 : DmaSem sig := 56
abbrev cc8_sem1_1 : DmaSem sig := 57
abbrev cc8_sem2_0 : DmaSem sig := 58
abbrev cc8_sem2_1 : DmaSem sig := 59
abbrev cc9_sem0_0 : DmaSem sig := 60
abbrev cc9_sem0_1 : DmaSem sig := 61
abbrev cc9_sem1_0 : DmaSem sig := 62
abbrev cc9_sem1_1 : DmaSem sig := 63
abbrev cc9_sem2_0 : DmaSem sig := 64
abbrev cc9_sem2_1 : DmaSem sig := 65

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![4, 8], ![false, false]⟩

def k3_cond2 (i : grid3.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_8 : BitVec 32 := 0#32
  let v14 : BitVec 1 := Scalar.cmpi .ne v13 c0_i32_8
  v14

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1024x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev grid4 : Pipeline.Grid := ⟨2, ![8, 4], ![false, false]⟩

def k4_cond2 (i : grid4.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_9 : BitVec 32 := 0#32
  let v16 : BitVec 1 := Scalar.cmpi .ne v15 c0_i32_9
  v16

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1024x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1024x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S1024x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev grid5 : Pipeline.Grid := ⟨2, ![8, 8], ![false, false]⟩

def k5_cond2 (i : grid5.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_9 : BitVec 32 := 0#32
  let v16 : BitVec 1 := Scalar.cmpi .ne v15 c0_i32_9
  v16

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S1024x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1024x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1024x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev stage5_3 : Fin 2 → Memref sig .tc .vmem S1024x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

abbrev grid6 : Pipeline.Grid := ⟨2, ![4, 8], ![false, false]⟩

def k6_cond2 (i : grid6.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_8 : BitVec 32 := 0#32
  let v14 : BitVec 1 := Scalar.cmpi .ne v13 c0_i32_8
  v14

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage6_0 : Fin 2 → Memref sig .tc .vmem S1024x1024 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S1024x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S1024x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, false]

abbrev grid7 : Pipeline.Grid := ⟨2, ![8, 4], ![false, false]⟩

def k7_cond2 (i : grid7.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_9 : BitVec 32 := 0#32
  let v16 : BitVec 1 := Scalar.cmpi .ne v15 c0_i32_9
  v16

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage7_0 : Fin 2 → Memref sig .tc .vmem S1024x1024 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 2 → Memref sig .tc .vmem S1024x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S1024x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, false]

abbrev stage7_3 : Fin 2 → Memref sig .tc .vmem S1024x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, false]

abbrev grid8 : Pipeline.Grid := ⟨2, ![4, 8], ![false, false]⟩

def k8_cond2 (i : grid8.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_8 : BitVec 32 := 0#32
  let v14 : BitVec 1 := Scalar.cmpi .ne v13 c0_i32_8
  v14

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage8_0 : Fin 2 → Memref sig .tc .vmem S1024x1024 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, true]

abbrev stage8_1 : Fin 2 → Memref sig .tc .vmem S1024x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true]

abbrev stage8_2 : Fin 2 → Memref sig .tc .vmem S1024x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, false]

abbrev grid9 : Pipeline.Grid := ⟨2, ![4, 8], ![false, false]⟩

def k9_cond2 (i : grid9.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_8 : BitVec 32 := 0#32
  let v14 : BitVec 1 := Scalar.cmpi .ne v13 c0_i32_8
  v14

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage9_0 : Fin 2 → Memref sig .tc .vmem S1024x1024 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, true]

abbrev stage9_1 : Fin 2 → Memref sig .tc .vmem S1024x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true]

abbrev stage9_2 : Fin 2 → Memref sig .tc .vmem S1024x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, false]

class Facts₀ : Prop where
  slices_S8193x128_S8192x128_0_0 : S8193x128.Slices ![0, 0] S8192x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  broadcasts_S1x128_S1024x128 : S1x128.Broadcasts S1024x128
  inb_S1024x1024_S1024x1024_0_0 : ∀ a, (![0, 0] : Fin 2 → Nat) a + S1024x1024.size a ≤ S1024x1024.size a
  h_S1024x1024 : 0 < S1024x1024.numel
  bcast_S_S1024 : S_.BroadcastsInDim S1024 (![] : Fin 0 → Fin S1024.rank)
  bcast_S1024_S1024x1_0 : S1024.BroadcastsInDim S1024x1 (![0] : Fin 1 → Fin S1024x1.rank)
  concatenates_S8192x128_S8192x128_S8192x128_S1024x128_S1024x128_S26624x128_d0 : Shape.Concatenates [S8192x128, S8192x128, S8192x128, S1024x128, S1024x128] S26624x128 0
  dot_S1024x128_S128x128_S1024x128_1_0_0_1_n_n_wf : DotDims.WF S1024x128 S128x128 S1024x128 [1] [0] [0] [1] [] []
  dot_S1024x1024_S1024x128_S1024x128_1_0_0_1_n_n_wf : DotDims.WF S1024x1024 S1024x128 S1024x128 [1] [0] [0] [1] [] []
  gather_S4096x128_S1024x1_S1024x128_1_0_n_n_0_1_1128_wf : GatherDims.WF S4096x128 S1024x1 S1024x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S8192x128.size a
  hwx0_3 : ∀ i : grid0.Coords, EltTy.bits .f32 = 32 ∨ (Rect.block (s := S8192x128) S1024x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S8192x128.size a
  hwx1_0 : ∀ i : grid1.Coords, EltTy.bits .f32 = 32 ∨ (Rect.block (s := S8192x128) S1024x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S8192x128.size a
  hwx1_3 : ∀ i : grid1.Coords, EltTy.bits .f32 = 32 ∨ (Rect.block (s := S8192x128) S1024x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S8192x128.size a
  hwx2_0 : ∀ i : grid2.Coords, EltTy.bits .f32 = 32 ∨ (Rect.block (s := S8192x128) S1024x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x128.size a ≤ S8192x128.size a
  hwx2_3 : ∀ i : grid2.Coords, EltTy.bits .f32 = 32 ∨ (Rect.block (s := S8192x128) S1024x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S4096x8192.size a
  hwx3_0 : ∀ i : grid3.Coords, EltTy.bits .f32 = 32 ∨ (Rect.block (s := S4096x8192) S1024x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x128.size a ≤ S8192x128.size a
  hwx3_1 : ∀ i : grid3.Coords, EltTy.bits .f32 = 32 ∨ (Rect.block (s := S8192x128) S1024x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x128.size a ≤ S4096x128.size a
  hwx3_2 : ∀ i : grid3.Coords, EltTy.bits .f32 = 32 ∨ (Rect.block (s := S4096x128) S1024x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x1024.size a ≤ S8192x4096.size a
  hwx4_0 : ∀ i : grid4.Coords, EltTy.bits .f32 = 32 ∨ (Rect.block (s := S8192x4096) S1024x1024.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x128.size a ≤ S4096x128.size a
  hwx4_1 : ∀ i : grid4.Coords, EltTy.bits .f32 = 32 ∨ (Rect.block (s := S4096x128) S1024x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x128.size a ≤ S8192x128.size a
  hwx4_2 : ∀ i : grid4.Coords, EltTy.bits .f32 = 32 ∨ (Rect.block (s := S8192x128) S1024x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x128.size a ≤ S8192x128.size a
  hwx4_3 : ∀ i : grid4.Coords, EltTy.bits .f32 = 32 ∨ (Rect.block (s := S8192x128) S1024x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x1024.size a ≤ S8192x8192.size a
  hwx5_0 : ∀ i : grid5.Coords, EltTy.bits .f32 = 32 ∨ (Rect.block (s := S8192x8192) S1024x1024.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1024x128.size a ≤ S8192x128.size a
  hwx5_1 : ∀ i : grid5.Coords, EltTy.bits .f32 = 32 ∨ (Rect.block (s := S8192x128) S1024x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1024x128.size a ≤ S8192x128.size a
  hwx5_2 : ∀ i : grid5.Coords, EltTy.bits .f32 = 32 ∨ (Rect.block (s := S8192x128) S1024x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1024x128.size a ≤ S8192x128.size a
  hwx5_3 : ∀ i : grid5.Coords, EltTy.bits .f32 = 32 ∨ (Rect.block (s := S8192x128) S1024x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1024x1024.size a ≤ S4096x8192.size a
  hwx6_0 : ∀ i : grid6.Coords, EltTy.bits .f32 = 32 ∨ (Rect.block (s := S4096x8192) S1024x1024.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1024x128.size a ≤ S8192x128.size a
  hwx6_1 : ∀ i : grid6.Coords, EltTy.bits .f32 = 32 ∨ (Rect.block (s := S8192x128) S1024x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1024x128.size a ≤ S4096x128.size a
  hwx6_2 : ∀ i : grid6.Coords, EltTy.bits .f32 = 32 ∨ (Rect.block (s := S4096x128) S1024x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1024x1024.size a ≤ S8192x4096.size a
  hwx7_0 : ∀ i : grid7.Coords, EltTy.bits .f32 = 32 ∨ (Rect.block (s := S8192x4096) S1024x1024.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1024x128.size a ≤ S4096x128.size a
  hwx7_1 : ∀ i : grid7.Coords, EltTy.bits .f32 = 32 ∨ (Rect.block (s := S4096x128) S1024x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S1024x128.size a ≤ S8192x128.size a
  hwx7_2 : ∀ i : grid7.Coords, EltTy.bits .f32 = 32 ∨ (Rect.block (s := S8192x128) S1024x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S1024x128.size a ≤ S8192x128.size a
  hwx7_3 : ∀ i : grid7.Coords, EltTy.bits .f32 = 32 ∨ (Rect.block (s := S8192x128) S1024x128.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1024x1024.size a ≤ S4096x8192.size a
  hwx8_0 : ∀ i : grid8.Coords, EltTy.bits .f32 = 32 ∨ (Rect.block (s := S4096x8192) S1024x1024.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S1024x128.size a ≤ S8192x128.size a
  hwx8_1 : ∀ i : grid8.Coords, EltTy.bits .f32 = 32 ∨ (Rect.block (s := S8192x128) S1024x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S1024x128.size a ≤ S4096x128.size a
  hwx8_2 : ∀ i : grid8.Coords, EltTy.bits .f32 = 32 ∨ (Rect.block (s := S4096x128) S1024x128.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S1024x1024.size a ≤ S4096x8192.size a
  hwx9_0 : ∀ i : grid9.Coords, EltTy.bits .f32 = 32 ∨ (Rect.block (s := S4096x8192) S1024x1024.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S1024x128.size a ≤ S8192x128.size a
  hwx9_1 : ∀ i : grid9.Coords, EltTy.bits .f32 = 32 ∨ (Rect.block (s := S8192x128) S1024x128.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S1024x128.size a ≤ S4096x128.size a
  hwx9_2 : ∀ i : grid9.Coords, EltTy.bits .f32 = 32 ∨ (Rect.block (s := S4096x128) S1024x128.size (cc9_transform_2 i) (hinb9_2 i)).WholeWords (EltTy.packing .f32)

variable [Facts₀]

def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def gather_S4096x128_S1024x1_S1024x128_1_0_n_n_0_1_1128 : GatherDims S4096x128 S1024x1 S1024x128 where
  offsetDims := [1]
  collapsedSliceDims := [0]
  operandBatchingDims := []
  startIndicesBatchingDims := []
  startIndexMap := [0]
  indexVectorDim := 1
  sliceSizes := ![1, 128]
  wf := gather_S4096x128_S1024x1_S1024x128_1_0_n_n_0_1_1128_wf

abbrev win0_0 : Pipeline.Window sig grid0 :=
  Pipeline.Window.ofSpec (Memref.whole main_v0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v0) S1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v3) S1024x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg7) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v3) S1024x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v4) S1024x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_arg8) S1024x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v4) S1024x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v3) S1024x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v5) S1024x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_arg11) S1024x1024.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v1) S1024x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v1) S1024x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v6) S1024x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun _ => false | 3 => fun i => !(k5_cond2 i == 1#1) | ⟨_ + 4, h⟩ => absurd h (Nat.not_lt.2 (Nat.le_add_left _ _))

abbrev win6_0 : Pipeline.Window sig grid6 :=
  Pipeline.Window.ofSpec (Memref.whole main_arg10) S1024x1024.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v2) S1024x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v7) S1024x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev idle6 : Fin 3 → grid6.Coords → Bool := fun | 0 => fun _ => false | 1 => fun _ => false | 2 => fun i => !(k6_cond2 i == 1#1) | ⟨_ + 3, h⟩ => absurd h (Nat.not_lt.2 (Nat.le_add_left _ _))

abbrev win7_0 : Pipeline.Window sig grid7 :=
  Pipeline.Window.ofSpec (Memref.whole main_arg9) S1024x1024.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v7) S1024x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v2) S1024x128.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v8) S1024x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev idle7 : Fin 4 → grid7.Coords → Bool := fun | 0 => fun _ => false | 1 => fun _ => false | 2 => fun _ => false | 3 => fun i => !(k7_cond2 i == 1#1) | ⟨_ + 4, h⟩ => absurd h (Nat.not_lt.2 (Nat.le_add_left _ _))

abbrev win8_0 : Pipeline.Window sig grid8 :=
  Pipeline.Window.ofSpec (Memref.whole main_arg7) S1024x1024.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v5) S1024x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v9) S1024x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev idle8 : Fin 3 → grid8.Coords → Bool := fun | 0 => fun _ => false | 1 => fun _ => false | 2 => fun i => !(k8_cond2 i == 1#1) | ⟨_ + 3, h⟩ => absurd h (Nat.not_lt.2 (Nat.le_add_left _ _))

abbrev win9_0 : Pipeline.Window sig grid9 :=
  Pipeline.Window.ofSpec (Memref.whole main_arg7) S1024x1024.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v6) S1024x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v10) S1024x128.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev idle9 : Fin 3 → grid9.Coords → Bool := fun | 0 => fun _ => false | 1 => fun _ => false | 2 => fun i => !(k9_cond2 i == 1#1) | ⟨_ + 3, h⟩ => absurd h (Nat.not_lt.2 (Nat.le_add_left _ _))

class Facts : Prop extends Facts₀ where

variable [Facts]
-- ==== ReferenceIdeal.lean ====
abbrev S8193x128 : Shape := ⟨2, ![8193, 128]⟩
abbrev S128x128 : Shape := ⟨2, ![128, 128]⟩
abbrev S1x128 : Shape := ⟨2, ![1, 128]⟩
abbrev S4096x8192 : Shape := ⟨2, ![4096, 8192]⟩
abbrev S8192x4096 : Shape := ⟨2, ![8192, 4096]⟩
abbrev S8192x8192 : Shape := ⟨2, ![8192, 8192]⟩
abbrev S1024 : Shape := ⟨1, ![1024]⟩
abbrev S8192x128 : Shape := ⟨2, ![8192, 128]⟩
abbrev S_ : Shape := ⟨0, ![]⟩
abbrev S4096x128 : Shape := ⟨2, ![4096, 128]⟩
abbrev S1024x1 : Shape := ⟨2, ![1024, 1]⟩
abbrev S1024x128 : Shape := ⟨2, ![1024, 128]⟩
abbrev S26624x128 : Shape := ⟨2, ![26624, 128]⟩

abbrev nBuf : Space → Nat
  | .hbm => 97
  | .vmem => 0
  | .smem => 0
  | _ => 0

abbrev bufTy : (tb : Table) → Fin (tcTables nBuf tb) → BufTy
  | .hbm, ⟨0, _⟩ => ⟨S8193x128, .f32⟩
  | .hbm, ⟨1, _⟩ => ⟨S128x128, .f32⟩
  | .hbm, ⟨2, _⟩ => ⟨S1x128, .f32⟩
  | .hbm, ⟨3, _⟩ => ⟨S128x128, .f32⟩
  | .hbm, ⟨4, _⟩ => ⟨S1x128, .f32⟩
  | .hbm, ⟨5, _⟩ => ⟨S128x128, .f32⟩
  | .hbm, ⟨6, _⟩ => ⟨S1x128, .f32⟩
  | .hbm, ⟨7, _⟩ => ⟨S4096x8192, .f32⟩
  | .hbm, ⟨8, _⟩ => ⟨S8192x4096, .f32⟩
  | .hbm, ⟨9, _⟩ => ⟨S8192x4096, .f32⟩
  | .hbm, ⟨10, _⟩ => ⟨S4096x8192, .f32⟩
  | .hbm, ⟨11, _⟩ => ⟨S8192x8192, .f32⟩
  | .hbm, ⟨12, _⟩ => ⟨S1024, .i32⟩
  | .hbm, ⟨13, _⟩ => ⟨S8192x128, .f32⟩
  | .hbm, ⟨14, _⟩ => ⟨S8192x128, .f32⟩
  | .hbm, ⟨15, _⟩ => ⟨S8192x128, .f32⟩
  | .hbm, ⟨16, _⟩ => ⟨S8192x128, .f32⟩
  | .hbm, ⟨17, _⟩ => ⟨S8192x128, .f32⟩
  | .hbm, ⟨18, _⟩ => ⟨S8192x128, .f32⟩
  | .hbm, ⟨19, _⟩ => ⟨S_, .f32⟩
  | .hbm, ⟨20, _⟩ => ⟨S8192x128, .f32⟩
  | .hbm, ⟨21, _⟩ => ⟨S8192x128, .f32⟩
  | .hbm, ⟨22, _⟩ => ⟨S_, .f32⟩
  | .hbm, ⟨23, _⟩ => ⟨S8192x128, .f32⟩
  | .hbm, ⟨24, _⟩ => ⟨S8192x128, .f32⟩
  | .hbm, ⟨25, _⟩ => ⟨S8192x128, .f32⟩
  | .hbm, ⟨26, _⟩ => ⟨S8192x128, .f32⟩
  | .hbm, ⟨27, _⟩ => ⟨S8192x128, .f32⟩
  | .hbm, ⟨28, _⟩ => ⟨S8192x128, .f32⟩
  | .hbm, ⟨29, _⟩ => ⟨S8192x128, .f32⟩
  | .hbm, ⟨30, _⟩ => ⟨S8192x128, .f32⟩
  | .hbm, ⟨31, _⟩ => ⟨S_, .f32⟩
  | .hbm, ⟨32, _⟩ => ⟨S8192x128, .f32⟩
  | .hbm, ⟨33, _⟩ => ⟨S8192x128, .f32⟩
  | .hbm, ⟨34, _⟩ => ⟨S_, .f32⟩
  | .hbm, ⟨35, _⟩ => ⟨S8192x128, .f32⟩
  | .hbm, ⟨36, _⟩ => ⟨S8192x128, .f32⟩
  | .hbm, ⟨37, _⟩ => ⟨S8192x128, .f32⟩
  | .hbm, ⟨38, _⟩ => ⟨S8192x128, .f32⟩
  | .hbm, ⟨39, _⟩ => ⟨S8192x128, .f32⟩
  | .hbm, ⟨40, _⟩ => ⟨S8192x128, .f32⟩
  | .hbm, ⟨41, _⟩ => ⟨S8192x128, .f32⟩
  | .hbm, ⟨42, _⟩ => ⟨S8192x128, .f32⟩
  | .hbm, ⟨43, _⟩ => ⟨S_, .f32⟩
  | .hbm, ⟨44, _⟩ => ⟨S8192x128, .f32⟩
  | .hbm, ⟨45, _⟩ => ⟨S8192x128, .f32⟩
  | .hbm, ⟨46, _⟩ => ⟨S_, .f32⟩
  | .hbm, ⟨47, _⟩ => ⟨S8192x128, .f32⟩
  | .hbm, ⟨48, _⟩ => ⟨S8192x128, .f32⟩
  | .hbm, ⟨49, _⟩ => ⟨S8192x128, .f32⟩
  | .hbm, ⟨50, _⟩ => ⟨S4096x128, .f32⟩
  | .hbm, ⟨51, _⟩ => ⟨S8192x128, .f32⟩
  | .hbm, ⟨52, _⟩ => ⟨S8192x128, .f32⟩
  | .hbm, ⟨53, _⟩ => ⟨S8192x128, .f32⟩
  | .hbm, ⟨54, _⟩ => ⟨S_, .f32⟩
  | .hbm, ⟨55, _⟩ => ⟨S8192x128, .f32⟩
  | .hbm, ⟨56, _⟩ => ⟨S8192x128, .f32⟩
  | .hbm, ⟨57, _⟩ => ⟨S8192x128, .f32⟩
  | .hbm, ⟨58, _⟩ => ⟨S8192x128, .f32⟩
  | .hbm, ⟨59, _⟩ => ⟨S_, .f32⟩
  | .hbm, ⟨60, _⟩ => ⟨S8192x128, .f32⟩
  | .hbm, ⟨61, _⟩ => ⟨S8192x128, .f32⟩
  | .hbm, ⟨62, _⟩ => ⟨S8192x128, .f32⟩
  | .hbm, ⟨63, _⟩ => ⟨S8192x128, .f32⟩
  | .hbm, ⟨64, _⟩ => ⟨S_, .f32⟩
  | .hbm, ⟨65, _⟩ => ⟨S8192x128, .f32⟩
  | .hbm, ⟨66, _⟩ => ⟨S8192x128, .f32⟩
  | .hbm, ⟨67, _⟩ => ⟨S8192x128, .f32⟩
  | .hbm, ⟨68, _⟩ => ⟨S4096x128, .f32⟩
  | .hbm, ⟨69, _⟩ => ⟨S8192x128, .f32⟩
  | .hbm, ⟨70, _⟩ => ⟨S8192x128, .f32⟩
  | .hbm, ⟨71, _⟩ => ⟨S8192x128, .f32⟩
  | .hbm, ⟨72, _⟩ => ⟨S_, .f32⟩
  | .hbm, ⟨73, _⟩ => ⟨S8192x128, .f32⟩
  | .hbm, ⟨74, _⟩ => ⟨S8192x128, .f32⟩
  | .hbm, ⟨75, _⟩ => ⟨S8192x128, .f32⟩
  | .hbm, ⟨76, _⟩ => ⟨S4096x128, .f32⟩
  | .hbm, ⟨77, _⟩ => ⟨S_, .i32⟩
  | .hbm, ⟨78, _⟩ => ⟨S1024, .i32⟩
  | .hbm, ⟨79, _⟩ => ⟨S1024, .i1⟩
  | .hbm, ⟨80, _⟩ => ⟨S_, .i32⟩
  | .hbm, ⟨81, _⟩ => ⟨S1024, .i32⟩
  | .hbm, ⟨82, _⟩ => ⟨S1024, .i32⟩
  | .hbm, ⟨83, _⟩ => ⟨S1024, .i32⟩
  | .hbm, ⟨84, _⟩ => ⟨S1024x1, .i32⟩
  | .hbm, ⟨85, _⟩ => ⟨S1024x128, .f32⟩
  | .hbm, ⟨86, _⟩ => ⟨S4096x128, .f32⟩
  | .hbm, ⟨87, _⟩ => ⟨S_, .i32⟩
  | .hbm, ⟨88, _⟩ => ⟨S1024, .i32⟩
  | .hbm, ⟨89, _⟩ => ⟨S1024, .i1⟩
  | .hbm, ⟨90, _⟩ => ⟨S_, .i32⟩
  | .hbm, ⟨91, _⟩ => ⟨S1024, .i32⟩
  | .hbm, ⟨92, _⟩ => ⟨S1024, .i32⟩
  | .hbm, ⟨93, _⟩ => ⟨S1024, .i32⟩
  | .hbm, ⟨94, _⟩ => ⟨S1024x1, .i32⟩
  | .hbm, ⟨95, _⟩ => ⟨S1024x128, .f32⟩
  | .hbm, ⟨96, _⟩ => ⟨S26624x128, .f32⟩
  | _, _ => ⟨S8193x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_1 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_7 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_8 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c : Ref sig .tc := ⟨.hbm, 77, rfl⟩
abbrev main_v54 : Ref sig .tc := ⟨.hbm, 78, rfl⟩
abbrev main_v55 : Ref sig .tc := ⟨.hbm, 79, rfl⟩
abbrev main_c_9 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c_10 : Ref sig .tc := ⟨.hbm, 87, rfl⟩
abbrev main_v62 : Ref sig .tc := ⟨.hbm, 88, rfl⟩
abbrev main_v63 : Ref sig .tc := ⟨.hbm, 89, rfl⟩
abbrev main_c_11 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩

abbrev nD : Nat := 1
abbrev τ : Topo := Topo.v7x

variable {F : FTy → Type} [FloatOps F]

class Facts₀ : Prop where
  slices_S8193x128_S8192x128_0_0 : S8193x128.Slices ![0, 0] S8192x128
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  bcast_S_S1024 : S_.BroadcastsInDim S1024 (![] : Fin 0 → Fin S1024.rank)
  bcast_S1024_S1024x1_0 : S1024.BroadcastsInDim S1024x1 (![0] : Fin 1 → Fin S1024x1.rank)
  concatenates_S8192x128_S8192x128_S8192x128_S1024x128_S1024x128_S26624x128_d0 : Shape.Concatenates [S8192x128, S8192x128, S8192x128, S1024x128, S1024x128] S26624x128 0
  dot_S8192x128_S128x128_S8192x128_1_0_0_1_n_n_wf : DotDims.WF S8192x128 S128x128 S8192x128 [1] [0] [0] [1] [] []
  dot_S4096x8192_S8192x128_S4096x128_1_0_0_1_n_n_wf : DotDims.WF S4096x8192 S8192x128 S4096x128 [1] [0] [0] [1] [] []
  dot_S8192x4096_S4096x128_S8192x128_1_0_0_1_n_n_wf : DotDims.WF S8192x4096 S4096x128 S8192x128 [1] [0] [0] [1] [] []
  dot_S8192x8192_S8192x128_S8192x128_1_0_0_1_n_n_wf : DotDims.WF S8192x8192 S8192x128 S8192x128 [1] [0] [0] [1] [] []
  gather_S4096x128_S1024x1_S1024x128_1_0_n_n_0_1_1128_wf : GatherDims.WF S4096x128 S1024x1 S1024x128 [1] [0] [] [0] [] 1 ![1, 128]

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S4096x8192_S8192x128_S4096x128_1_0_0_1_n_n : DotDims S4096x8192 S8192x128 S4096x128 where
  lhsContracting := [1]
  rhsContracting := [0]
  lhsNonContracting := [0]
  rhsNonContracting := [1]
  lhsBatch := []
  rhsBatch := []
  wf := dot_S4096x8192_S8192x128_S4096x128_1_0_0_1_n_n_wf
def dot_S8192x4096_S4096x128_S8192x128_1_0_0_1_n_n : DotDims S8192x4096 S4096x128 S8192x128 where
  lhsContracting := [1]
  rhsContracting := [0]
  lhsNonContracting := [0]
  rhsNonContracting := [1]
  lhsBatch := []
  rhsBatch := []
  wf := dot_S8192x4096_S4096x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def gather_S4096x128_S1024x1_S1024x128_1_0_n_n_0_1_1128 : GatherDims S4096x128 S1024x1 S1024x128 where
  offsetDims := [1]
  collapsedSliceDims := [0]
  operandBatchingDims := []
  startIndicesBatchingDims := []
  startIndexMap := [0]
  indexVectorDim := 1
  sliceSizes := ![1, 128]
  wf := gather_S4096x128_S1024x1_S1024x128_1_0_n_n_0_1_1128_wf

class Facts : Prop extends Facts₀ where

variable [Facts]
-- ==== Proof.KbGateBody.lean ====
import proofs.«120173_j18854906429546_1_alg».proof.Proof.Gen.Kernel.Skeleton
import Idealize.ShloMosaic.Lib.Pipeline.Value
import Idealize.ShloMosaic.Lib.Ring
import Idealize.ShloMosaic.Lib.Tactic
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]

/-- The four whole buffers a gate kernel runs on: a row block of x, W, b, and the output block. -/
structure GateBufs where
  x : Memref sig .tc .vmem S1024x128 .f32
  hx : x.IsWhole
  w : Memref sig .tc .vmem S128x128 .f32
  hw : w.IsWhole
  b : Memref sig .tc .vmem S1x128 .f32
  hb : b.IsWhole
  o : Memref sig .tc .vmem S1024x128 .f32
  ho : o.IsWhole

/-- The gate kernel's body on those buffers at a grid point; the three gate regions all run it. -/
def gateBody (m : GateBufs) (i : grid0.Coords) := cc0__gate_kernel (F := F) i m.x m.hx m.w m.hw m.b m.hb m.o m.ho

theorem gateBody_eq0 {i x hx w hw b hb o ho} : cc0__gate_kernel (F := F) i x hx w hw b hb o ho = gateBody ⟨x, hx, w, hw, b, hb, o, ho⟩ i := rfl
theorem gateBody_eq1 {i x hx w hw b hb o ho} : cc1__gate_kernel (F := F) i x hx w hw b hb o ho = gateBody ⟨x, hx, w, hw, b, hb, o, ho⟩ i := rfl
theorem gateBody_eq2 {i x hx w hw b hb o ho} : cc2__gate_kernel (F := F) i x hx w hw b hb o ho = gateBody ⟨x, hx, w, hw, b, hb, o, ho⟩ i := rfl

/-- The block the body stores: x · σ(x·W + b) on a row block of x. -/
def gateOut (x : Vec F S1024x128 .f32) (w : Vec F S128x128 .f32) (b : Vec F S1x128 .f32) : Vec F S1024x128 .f32 := k0_pay1 x w b

theorem origin2 : (![0, 0] : Fin 2 → Nat) = fun _ => 0 := funext fun a => by fin_cases a <;> rfl

/-- A store through a whole buffer leaves its payload, and a load through one reads the contents. -/
theorem gateOut_eq (x : Vec F S1024x128 .f32) (w : Vec F S128x128 .f32) (b : Vec F S1x128 .f32) :
    View.canon [(⟨Rect.unit ![0, 0] S1024x128.size inb_S1024x128_S1024x128_0_0,
      k0_pay1 (View.ld x (Rect.unit ![0, 0] S1024x128.size inb_S1024x128_S1024x128_0_0)) (View.ld w (Rect.unit ![0, 0] S128x128.size inb_S128x128_S128x128_0_0))
        (View.ld b (Rect.unit ![0, 0] S1x128.size inb_S1x128_S1x128_0_0))⟩ : View.Piece (Elt F) S1024x128 .f32)] = gateOut x w b := by
  rw [View.canon_unit_zero origin2, View.ld_unit_zero (S := S1024x128) origin2, View.ld_unit_zero (S := S128x128) origin2,
    View.ld_unit_zero (S := S1x128) origin2]; rfl

/-- The body's triple: the three inputs come back as found, the output holds their gate, and anything else held passes through. -/
theorem gateBody_obl (c : Dev nD) {m : GateBufs} {i : grid0.Coords} {p : Prog (TpuEff nD τ sig (Elt F) Λ₀ .tc) PUnit}
    (hp : p = gateBody m i) {R R' : sProp (MT nD τ sig Unit (Elt F) ℕ (UR sig nD τ) ℕ)} {D0 D1 D2 D3 : Type}
    {g0 : D0 → Vec F S1024x128 .f32} {g1 : D1 → Vec F S128x128 .f32} {g2 : D2 → Vec F S1x128 .f32} {g3 : D3 → Vec F S1024x128 .f32}
    {x0 : Vec F S1024x128 .f32} {x1 : Vec F S128x128 .f32} {x2 : Vec F S1x128 .f32}
    (h0 : ∀ d, g0 d = x0) (h1 : ∀ d, g1 d = x1) (h2 : ∀ d, g2 d = x2) :
    iprop(R ∗ R' ∗ (∃ d, owns (c : Thread nD τ) m.x fullShare (g0 d)) ∗ (∃ d, owns (c : Thread nD τ) m.w fullShare (g1 d))
        ∗ (∃ d, owns (c : Thread nD τ) m.b fullShare (g2 d)) ∗ (∃ d, owns (c : Thread nD τ) m.o fullShare (g3 d)))
      ⊢ wp frame (wpE (defs₀ (F := F)) Variants.none c none) Set.univ p fun _ =>
          iprop(R ∗ R' ∗ owns (c : Thread nD τ) m.x fullShare x0 ∗ owns (c : Thread nD τ) m.w fullShare x1
            ∗ owns (c : Thread nD τ) m.b fullShare x2 ∗ owns (c : Thread nD τ) m.o fullShare (gateOut x0 x1 x2)) := by
  subst hp
  simp only [h0, h1, h2]
  unfold gateBody; simp only [cc0__gate_kernel_eq_skeleton]; unfold cc0__gate_kernel_skel
  unfold owns
  iintro ⟨HR, HR', ⟨%d0, %f0, %hf0, H0⟩, ⟨%d1, %f1, %hf1, H1⟩, ⟨%d2, %f2, %hf2, H2⟩, ⟨%d3, %f3, -, H3⟩⟩
  subst hf0; subst hf1; subst hf2
  sl_exec
  sl_step
  isplitl [HR]; · iexact HR
  isplitl [HR']; · iexact HR'
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact (View.read_writes_eq_canon _ _ _ (View.cover_of_tiled _ S1024x128.size (by rfl))).trans (gateOut_eq _ _ _)

end Cert.Kernel.Hand
-- ==== Proof.KbGate0.lean ====
import proofs.«120173_j18854906429546_1_alg».proof.Proof.Gen.Kernel.Launch
import proofs.«120173_j18854906429546_1_alg».proof.Proof.Gen.Kernel.Points
import proofs.«120173_j18854906429546_1_alg».proof.Proof.KbGateBody
noncomputable section
namespace Cert.Kernel.Hand
open Cert.Kernel Cert.Kernel.Gen
open Idealize.ShloMosaic Idealize.ShloMosaic.TcCoe
open Idealize.SL Idealize.SL.RA Idealize.SL.BI Idealize.SL.BI.BIBase Idealize.SL.Sem
open Idealize.ShloMosaic.Rounds
open Idealize.ShloMosaic.Pipeline (Dat BodyObligation)
variable {F : FTy → Type} [FloatOps F]
variable (V : (c : Dev nD) → (b : Ref sig .tc) → Buf (Elt F) ((c : Thread nD τ).loc b))

/-- Window `w`'s block of its array at point `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => gateOut (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := rfl

/-- The body's triple applies at every point as it stands. -/
theorem body_obligation0 (c : Dev nD) : BodyObligation (dat0 (F := F) V c) (defs₀ (F := F)) Variants.none () Set.univ := fun t => by
  rw [bigSep_W0, bigSep_W0]
  refine gateBody_obl (p := bodyAt0 t) c gateBody_eq0 (fun d => ?_) (fun d => ?_) (fun d => ?_) <;>
    exact (dat0 V c).before_in_eq_fetched _ rfl (fun _ => rfl) (fun _ _ _ => rfl) (fun _ => rfl) t d

theorem hin0 (c : Dev nD) : Pipeline.ΦA spec0 c ⊢ (dat0 V c).Φ 0 := BIBase.Entails.rfl

theorem hout0 (c : Dev nD) : (dat0 V c).Φ (Fin.last cfg0.N) ⊢ Pipeline.ΦA spec0 c := BIBase.Entails.rfl

end Cert.Kernel.Hand
-- ==== Proof.KbGate1.lean ====
import proofs.«120173_j18854906429546_1_alg».proof.Proof.Gen.Kernel.Launch
import proofs.«120173_j18854906429546_1_alg».proof.Proof.Gen.Kernel.Points
import proofs.«120173_j18854906429546_1_alg».proof.Proof.KbGateBody
noncomputable section
namespace Cert.Kernel.Hand
open Cert.Kernel Cert.Kernel.Gen
open Idealize.ShloMosaic Idealize.ShloMosaic.TcCoe
open Idealize.SL Idealize.SL.RA Idealize.SL.BI Idealize.SL.BI.BIBase Idealize.SL.Sem
open Idealize.ShloMosaic.Rounds
open Idealize.ShloMosaic.Pipeline (Dat BodyObligation)
variable {F : FTy → Type} [FloatOps F]
variable (V : (c : Dev nD) → (b : Ref sig .tc) → Buf (Elt F) ((c : Thread nD τ).loc b))

/-- Window `w`'s block of its array at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => gateOut (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := rfl

/-- The body's triple applies at every point as it stands. -/
theorem body_obligation1 (c : Dev nD) : BodyObligation (dat1 (F := F) V c) (defs₀ (F := F)) Variants.none () Set.univ := fun t => by
  rw [bigSep_W1, bigSep_W1]
  refine gateBody_obl (p := bodyAt1 t) c gateBody_eq1 (fun d => ?_) (fun d => ?_) (fun d => ?_) <;>
    exact (dat1 V c).before_in_eq_fetched _ rfl (fun _ => rfl) (fun _ _ _ => rfl) (fun _ => rfl) t d

theorem hin1 (c : Dev nD) : Pipeline.ΦA spec1 c ⊢ (dat1 V c).Φ 0 := BIBase.Entails.rfl

theorem hout1 (c : Dev nD) : (dat1 V c).Φ (Fin.last cfg1.N) ⊢ Pipeline.ΦA spec1 c := BIBase.Entails.rfl

end Cert.Kernel.Hand
-- ==== Proof.KbGate2.lean ====
import proofs.«120173_j18854906429546_1_alg».proof.Proof.Gen.Kernel.Launch
import proofs.«120173_j18854906429546_1_alg».proof.Proof.Gen.Kernel.Points
import proofs.«120173_j18854906429546_1_alg».proof.Proof.KbGateBody
noncomputable section
namespace Cert.Kernel.Hand
open Cert.Kernel Cert.Kernel.Gen
open Idealize.ShloMosaic Idealize.ShloMosaic.TcCoe
open Idealize.SL Idealize.SL.RA Idealize.SL.BI Idealize.SL.BI.BIBase Idealize.SL.Sem
open Idealize.ShloMosaic.Rounds
open Idealize.ShloMosaic.Pipeline (Dat BodyObligation)
variable {F : FTy → Type} [FloatOps F]
variable (V : (c : Dev nD) → (b : Ref sig .tc) → Buf (Elt F) ((c : Thread nD τ).loc b))

/-- Window `w`'s block of its array at point `t`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => gateOut (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := rfl

/-- The body's triple applies at every point as it stands. -/
theorem body_obligation2 (c : Dev nD) : BodyObligation (dat2 (F := F) V c) (defs₀ (F := F)) Variants.none () Set.univ := fun t => by
  rw [bigSep_W2, bigSep_W2]
  refine gateBody_obl (p := bodyAt2 t) c gateBody_eq2 (fun d => ?_) (fun d => ?_) (fun d => ?_) <;>
    exact (dat2 V c).before_in_eq_fetched _ rfl (fun _ => rfl) (fun _ _ _ => rfl) (fun _ => rfl) t d

theorem hin2 (c : Dev nD) : Pipeline.ΦA spec2 c ⊢ (dat2 V c).Φ 0 := BIBase.Entails.rfl

theorem hout2 (c : Dev nD) : (dat2 V c).Φ (Fin.last cfg2.N) ⊢ Pipeline.ΦA spec2 c := BIBase.Entails.rfl

end Cert.Kernel.Hand
-- ==== Proof.KbMmBody.lean ====
import proofs.«120173_j18854906429546_1_alg».proof.Proof.Gen.Kernel.Launch
import proofs.«120173_j18854906429546_1_alg».proof.Proof.Gen.Kernel.Skeleton
import proofs.«120173_j18854906429546_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-- The product kernel's body; the four product regions all run it. -/
def mmBody (i : grid3.Coords) {mA : Memref sig .tc .vmem S1024x1024 .f32} (hmA : mA.IsWhole) {mB mO mS : Memref sig .tc .vmem S1024x128 .f32}
    (hmB : mB.IsWhole) (hmO : mO.IsWhole) (hmS : mS.IsWhole) := cc3__matmul_kernel (F := F) i mA hmA mB hmB mO hmO mS hmS

theorem mmBody_eq3 (i mA hmA mB hmB mO hmO mS hmS) : cc3__matmul_kernel (F := F) i mA hmA mB hmB mO hmO mS hmS = mmBody i hmA hmB hmO hmS := rfl
theorem mmBody_eq6 (i mA hmA mB hmB mO hmO mS hmS) : cc6__matmul_kernel (F := F) i mA hmA mB hmB mO hmO mS hmS = mmBody i hmA hmB hmO hmS := rfl
theorem mmBody_eq8 (i mA hmA mB hmB mO hmO mS hmS) : cc8__matmul_kernel (F := F) i mA hmA mB hmB mO hmO mS hmS = mmBody i hmA hmB hmO hmS := rfl
theorem mmBody_eq9 (i mA hmA mB hmB mO hmO mS hmS) : cc9__matmul_kernel (F := F) i mA hmA mB hmB mO hmO mS hmS = mmBody i hmA hmB hmO hmS := rfl

/-- Point `t` is row block `t / 8`, block `t % 8` of the contracted axis. -/
abbrev mmFirst (i : grid3.Coords) : Prop :=
  (Scalar.cmpi .ne (Scalar.extui (Scalar.cmpi .eq (BitVec.ofNat 32 (i 1).val) 0#32)) 0#32) = 1#1
theorem mmFirst_iff : ∀ t : Fin grid3.N, mmFirst (grid3.coords t) ↔ t.val % 8 = 0 := by decide +kernel
abbrev mmLast (i : grid3.Coords) : Prop := k3_cond2 i = 1#1
theorem mmLast_iff : ∀ t : Fin grid3.N, mmLast (grid3.coords t) ↔ t.val % 8 = 7 := by decide +kernel

/-- What the body leaves in the partial sums: the two blocks' product added to zero at the first block of the contraction, to what they held elsewhere. -/
def mmStep (i : grid3.Coords) (xA : Vec F S1024x1024 .f32) (xB xS : Vec F S1024x128 .f32) : Vec F S1024x128 .f32 :=
  k3_pay2 (if mmFirst i then k3_pay1 else xS) xA xB

private theorem origin0 : (![0, 0] : Fin 2 → Nat) = fun _ => 0 := funext fun a => by fin_cases a <;> rfl

/-- After a store of a whole block a buffer reads that block, whatever it held and whatever was stored before. -/
private theorem read_store_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) : v.read (Elt F) (v.writes (Elt F) f (⟨Rect.unit off S.size inb, w⟩ :: L)) = w :=
  (View.read_writes_eq_canon v f _ fun y => ⟨_, List.mem_cons_self, View.mem_set_unit_zero h inb y⟩).trans
    (View.canon_cons_unit_zero h inb w L)

set_option maxHeartbeats 1000000 in
/-- The body on any four whole buffers: the factors' blocks as found, the partial sums one step on, the product's block at them at the last block of the contraction. -/
theorem mmBody_run (c : Dev nD) (i : grid3.Coords) {mA : Memref sig .tc .vmem S1024x1024 .f32} (hmA : mA.IsWhole)
    {mB mO mS : Memref sig .tc .vmem S1024x128 .f32} (hmB : mB.IsWhole) (hmO : mO.IsWhole) (hmS : mS.IsWhole)
    (xA : Vec F S1024x1024 .f32) (xB xO xS : Vec F S1024x128 .f32) (E : Set ℕ) (K : PUnit → sProp 𝕄) :
    iprop(owns (c : Thread nD τ) mA fullShare xA ∗ owns (c : Thread nD τ) mB fullShare xB ∗ owns (c : Thread nD τ) mO fullShare xO ∗ owns (c : Thread nD τ) mS fullShare xS
        ∗ (iprop(owns (c : Thread nD τ) mA fullShare xA ∗ owns (c : Thread nD τ) mB fullShare xB
            ∗ owns (c : Thread nD τ) mO fullShare (if mmLast i then mmStep i xA xB xS else xO)
            ∗ owns (c : Thread nD τ) mS fullShare (mmStep i xA xB xS)) -∗ K ⟨⟩))
      ⊢ wp frame (wpE (defs₀ (F := F)) Variants.none c none) E (mmBody i hmA hmB hmO hmS) K := by
  unfold mmBody; simp only [cc3__matmul_kernel_eq_skeleton]; unfold cc3__matmul_kernel_skel
  unfold owns mmStep
  iintro ⟨⟨%fA, %hfA, HA⟩, ⟨%fB, %hfB, HB⟩, ⟨%fO, %hfO, HO⟩, ⟨%fS, %hfS, HS⟩, Hk⟩
  obtain rfl := hmA.eq_unread hfA; obtain rfl := hmB.eq_unread hfB; obtain rfl := hmO.eq_unread hfO; obtain rfl := hmS.eq_unread hfS
  by_cases h0 : mmFirst i <;> by_cases h1 : mmLast i <;>
  · first | rw [if_pos h0] | rw [if_neg h0]
    first | rw [if_pos h1] | rw [if_neg h1]
    sl_exec (disch := first | exact h0 | exact h1)
    sl_step
    iapply Hk
    isplitl [HA]
    · iexists _; isplitr; swap; · iexact HA
      ipureintro; exact hmA.read_unread _
    isplitl [HB]
    · iexists _; isplitr; swap; · iexact HB
      ipureintro; exact hmB.read_unread _
    isplitl [HO]
    · iexists _; isplitr; swap; · iexact HO
      ipureintro
      first
      | (sl_unfold_words
         rw [read_store_whole (S := S1024x128) _ _ origin0]
         simp only [View.readAt_eq_ld, hmA.read_unread, hmB.read_unread, hmS.read_unread, View.readCov_unit_zero (S := S1024x128) _ origin0, View.readCov_cons_toLoadRect, View.ld_unit_zero (S := S1024x128) origin0, View.ld_unit_zero (S := S1024x1024) origin0])
      | exact hmO.read_unread _
    · iexists _; isplitr; swap; · iexact HS
      ipureintro
      sl_unfold_words
      rw [read_store_whole (S := S1024x128) _ _ origin0]
      simp only [View.readAt_eq_ld, hmA.read_unread, hmB.read_unread, hmS.read_unread, View.readCov_unit_zero (S := S1024x128) _ origin0, View.readCov_cons_toLoadRect, View.ld_unit_zero (S := S1024x128) origin0, View.ld_unit_zero (S := S1024x1024) origin0]

/-- THE ACCUMULATION over the points: the partial sums after point `n`, from the two factors' blocks at each point. -/
def mmAcc (A : (n : ℕ) → n < grid3.N → Vec F S1024x1024 .f32) (B : (n : ℕ) → n < grid3.N → Vec F S1024x128 .f32) :
    (n : ℕ) → n < grid3.N → Vec F S1024x128 .f32
  | 0, hn => mmStep (grid3.coords ⟨0, hn⟩) (A 0 hn) (B 0 hn) (B 0 hn)
  | n + 1, hn => mmStep (grid3.coords ⟨n + 1, hn⟩) (A (n + 1) hn) (B (n + 1) hn) (mmAcc A B n (Nat.lt_of_succ_lt hn))

/-- One body step carries it on; at the first point what the partial sums enter at is not read. -/
theorem mmAcc_step (A B) (t : Fin grid3.N) (x : Vec F S1024x128 .f32)
    (hx : ∀ h : 0 < t.val, x = mmAcc A B (t.val - 1) (Nat.lt_of_le_of_lt (Nat.sub_le _ _) t.isLt)) :
    mmStep (grid3.coords t) (A t.val t.isLt) (B t.val t.isLt) x = mmAcc (F := F) A B t.val t.isLt := by
  obtain ⟨n, hn⟩ := t
  cases n with
  | zero =>
    have h := (mmFirst_iff ⟨0, hn⟩).mpr rfl
    unfold mmAcc mmStep; rw [if_pos h, if_pos h]
  | succ n => rw [hx (Nat.succ_pos n)]; rfl

end Cert.Kernel.Hand
end
-- ==== Proof.KbMm3.lean ====
import proofs.«120173_j18854906429546_1_alg».proof.Proof.KbMmBody
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-- Window `w`'s block of its array at point `t`. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem lhsBefore3_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem rhsBefore3_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem lhsLive3 : ∀ t : Fin cfg3.N, cfg3.idle 0 (grid3.coords t) = false := by decide +kernel
theorem rhsLive3 : ∀ t : Fin cfg3.N, cfg3.idle 1 (grid3.coords t) = false := by decide +kernel
theorem outRests3 : ∀ t : Fin cfg3.N, ¬mmLast (grid3.coords t) → cfg3.idle 2 (grid3.coords t) = true := by decide +kernel
theorem outKept3 : ∀ t : Fin cfg3.N, ¬mmLast (grid3.coords t) → (cfg3.win 2).flush t = false := by decide +kernel
theorem outLive3 : ∀ t : Fin cfg3.N, mmLast (grid3.coords t) → cfg3.idle 2 (grid3.coords t) = false := by decide +kernel

abbrev accM3 : Memref sig .tc .vmem S1024x128 .f32 := Memref.whole cc3_scratch0
abbrev stA3 (t : Fin cfg3.N) : Memref sig .tc .vmem S1024x1024 .f32 := win3_0.stage (cfg3.slots t 0)
abbrev stB3 (t : Fin cfg3.N) : Memref sig .tc .vmem S1024x128 .f32 := win3_1.stage (cfg3.slots t 1)
abbrev stO3 (t : Fin cfg3.N) : Memref sig .tc .vmem S1024x128 .f32 := win3_2.stage (cfg3.slots t 2)

abbrev others3 (c : Dev nD) : sProp 𝕄 :=
  Pipeline.scopedRestBut (Ix := Unit) (Name := ℕ) (U := UR sig nD τ) (Lvl := ℕ) (Val := Elt F) spec3 c [cc3_scratch0]

theorem entry3_eq (c : Dev nD) :
    (Pipeline.ΦA spec3 c : sProp 𝕄)
      = iprop(iprop(iprop((∃ d, owns (c : Thread nD τ) accM3 fullShare d)) ∗ others3 c) ∗ (∃ r, prngReg c r)) := by
  unfold Pipeline.ΦA; rw [scopedRest3_split]; simp only [accM3, owns_whole]; try rfl

/-- The two factors' blocks at each point. -/
abbrev lhsAt3 (c : Dev nD) (n : ℕ) (hn : n < grid3.N) : Vec F S1024x1024 .f32 := iblk3 V c 0 ⟨n, hn⟩
abbrev rhsAt3 (c : Dev nD) (n : ℕ) (hn : n < grid3.N) : Vec F S1024x128 .f32 := iblk3 V c 1 ⟨n, hn⟩

/-- The invariant between points: the partial sums hold some `x`, which past the first point is the accumulation so far. -/
def carried3 (c : Dev nD) (n : ℕ) (h : n ≤ cfg3.N) : sProp 𝕄 :=
  iprop(iprop((∃ x, ⌜∀ hn : 0 < n, x = mmAcc (lhsAt3 V c) (rhsAt3 V c) (n - 1) (Nat.lt_of_lt_of_le (Nat.sub_lt hn Nat.one_pos) h)⌝ ∗ owns (c : Thread nD τ) accM3 fullShare x) ∗ others3 c) ∗ (∃ r, prngReg c r))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => mmAcc (lhsAt3 V c) (rhsAt3 V c) t.val t.isLt
  Φ t := carried3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = mmAcc (lhsAt3 V c) (rhsAt3 V c) t.val t.isLt := by dsimp only [dat3]

theorem lhsBefore3 (c : Dev nD) (t : Fin cfg3.N) (d) : (dat3 V c).before 0 t d = iblk3 V c 0 t :=
  lhsBefore3_of V (dat3 V c) (A_eq3 V c 0) (after3_0 V c) t d
theorem rhsBefore3 (c : Dev nD) (t : Fin cfg3.N) (d) : (dat3 V c).before 1 t d = iblk3 V c 1 t :=
  rhsBefore3_of V (dat3 V c) (A_eq3 V c 1) (after3_1 V c) t d

/-- At the last block of the contraction the product's block ends at the partial sums. -/
theorem leaves3_2 (c : Dev nD) (t : Fin cfg3.N) (d) :
    owns (c : Thread nD τ) (stO3 t) fullShare (if mmLast (grid3.coords t) then mmAcc (lhsAt3 V c) (rhsAt3 V c) t.val t.isLt else (dat3 V c).before 2 t d)
      ⊢ (dat3 V c).leavesExact 2 t := by
  by_cases h1 : mmLast (grid3.coords t)
  · rw [if_pos h1, show (dat3 V c).leavesExact 2 t = owns (c : Thread nD τ) (stO3 t) fullShare ((dat3 V c).after 2 t) from by
      unfold Dat.leavesExact; rw [outLive3 t h1], after3_2] <;> exact Idealize.SL.BI.Entails.refl _
  · rw [if_neg h1, Dat.leavesExact_idle (dat3 V c) 2 t (outRests3 t h1) (outKept3 t h1)]
    iintro H; iexists d; iexact H

/-- Every point is one step of the accumulation. -/
theorem sound_body3 (c : Dev nD) (t : Fin cfg3.N) :
    iprop((dat3 V c).Φ t.castSucc ∗ (dat3 V c).owesAt () t.castSucc
      ∗ (∃ d, owns (c : Thread nD τ) (stA3 t) fullShare ((dat3 V c).before 0 t d))
      ∗ (∃ d, owns (c : Thread nD τ) (stB3 t) fullShare ((dat3 V c).before 1 t d))
      ∗ (∃ d, owns (c : Thread nD τ) (stO3 t) fullShare ((dat3 V c).before 2 t d)))
    ⊢ wp frame (wpE (defs₀ (F := F)) Variants.none c none) Set.univ (bodyAt3 t) (fun _ =>
      iprop((dat3 V c).Φ t.succ ∗ (dat3 V c).owesAt () t.succ
        ∗ (dat3 V c).leavesExact 0 t ∗ (dat3 V c).leavesExact 1 t ∗ (dat3 V c).leavesExact 2 t)) := by
  simp only [lhsBefore3, rhsBefore3]
  rw [show (dat3 V c).owesAt () t.succ = (dat3 V c).owesAt () t.castSucc from rfl,
    show (dat3 V c).Φ t.succ = carried3 V c (t.val + 1) t.isLt from rfl,
    show (dat3 V c).Φ t.castSucc = carried3 V c t.val (Nat.le_of_lt t.isLt) from rfl,
    show (dat3 V c).leavesExact 0 t = owns (c : Thread nD τ) (stA3 t) fullShare (iblk3 V c 0 t) from by
      unfold Dat.leavesExact; rw [lhsLive3 t, after3_0],
    show (dat3 V c).leavesExact 1 t = owns (c : Thread nD τ) (stB3 t) fullShare (iblk3 V c 1 t) from by
      unfold Dat.leavesExact; rw [rhsLive3 t, after3_1]]
  unfold carried3 bodyAt3
  rw [mmBody_eq3]
  iintro ⟨⟨⟨⟨%x, %hx, HS⟩, Hr⟩, Hg⟩, Ho, ⟨%d0, HA⟩, ⟨%d1, HB⟩, ⟨%d2, HO⟩⟩
  iapply (mmBody_run c (grid3.coords t) _ _ _ _ _ _ _ x Set.univ _)
  isplitl [HA]; · iexact HA
  isplitl [HB]; · iexact HB
  isplitl [HO]; · iexact HO
  isplitl [HS]; · iexact HS
  iintro ⟨HA, HB, HO, HS⟩
  rw [show mmStep (grid3.coords t) (iblk3 V c 0 t) (iblk3 V c 1 t) x = mmAcc (lhsAt3 V c) (rhsAt3 V c) t.val t.isLt from
    mmAcc_step _ _ t x hx]
  isplitl [HS Hr Hg]
  · isplitl [HS Hr]
    · isplitl [HS]
      · iexists _; isplitr; swap; · iexact HS
        ipureintro; exact fun _ => rfl
      iexact Hr
    iexact Hg
  isplitl [Ho]; · iexact Ho
  isplitl [HA]; · iexact HA
  isplitl [HB]; · iexact HB
  iapply (leaves3_2 V c t d2); iexact HO

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = carried3 V c 0 (Nat.zero_le _) from rfl, entry3_eq]; unfold carried3
  iintro ⟨⟨⟨%d, HS⟩, Hr⟩, Hg⟩
  isplitl [HS Hr]
  · isplitl [HS]
    · iexists d; isplitr; · ipureintro; exact fun h => absurd h (Nat.lt_irrefl 0)
      iexact HS
    iexact Hr
  iexact Hg

theorem hout3 (c : Dev nD) : (dat3 V c).Φ (Fin.last cfg3.N) ⊢ Pipeline.ΦA spec3 c := by
  rw [show (dat3 V c).Φ (Fin.last cfg3.N) = carried3 V c (Fin.last cfg3.N).val (Nat.le_of_lt_succ (Fin.last cfg3.N).isLt) from rfl, entry3_eq]
  unfold carried3
  iintro ⟨⟨⟨%x, -, HS⟩, Hr⟩, Hg⟩
  isplitl [HS Hr]
  · isplitl [HS]
    · iexists x; iexact HS
    iexact Hr
  iexact Hg

end Cert.Kernel.Hand
end
-- ==== Proof.KbResBody.lean ====
import proofs.«120173_j18854906429546_1_alg».proof.Proof.Gen.Kernel.Launch
import proofs.«120173_j18854906429546_1_alg».proof.Proof.Gen.Kernel.Skeleton
import proofs.«120173_j18854906429546_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-- The residual product kernel's body on five whole buffers at a grid point; regions 4 and 7 both run it. -/
def resBody (i : grid4.Coords) {mA : Memref sig .tc .vmem S1024x1024 .f32} (hmA : mA.IsWhole) {mB mR mO mAcc : Memref sig .tc .vmem S1024x128 .f32}
    (hmB : mB.IsWhole) (hmR : mR.IsWhole) (hmO : mO.IsWhole) (hmAcc : mAcc.IsWhole) :=
  cc4__residual_matmul_kernel (F := F) i mA hmA mB hmB mR hmR mO hmO mAcc hmAcc

theorem resBody_eq4 (i mA hmA mB hmB mR hmR mO hmO mAcc hmAcc) :
    cc4__residual_matmul_kernel (F := F) i mA hmA mB hmB mR hmR mO hmO mAcc hmAcc = resBody i hmA hmB hmR hmO hmAcc := rfl
theorem resBody_eq7 (i mA hmA mB hmB mR hmR mO hmO mAcc hmAcc) :
    cc7__residual_matmul_kernel (F := F) i mA hmA mB hmB mR hmR mO hmO mAcc hmAcc = resBody i hmA hmB hmR hmO hmAcc := rfl

/-- Point `t` is row block `t / 4`, step `t % 4`. -/
abbrev resFirst (i : grid4.Coords) : Prop :=
  Scalar.cmpi .ne (Scalar.extui (Scalar.cmpi .eq (BitVec.ofNat 32 (i 1).val) 0#32)) 0#32 = 1#1
theorem resFirst_iff : ∀ t : Fin grid4.N, resFirst (grid4.coords t) ↔ t.val % 4 = 0 := by decide +kernel
abbrev resLast (i : grid4.Coords) : Prop := k4_cond2 i = 1#1
theorem resLast_iff : ∀ t : Fin grid4.N, resLast (grid4.coords t) ↔ t.val % 4 = 3 := by decide +kernel

/-- What the body leaves in the accumulator: the blocks' product added to the residual block at step 0, to what it held elsewhere. -/
def resAcc (i : grid4.Coords) (xA : Vec F S1024x1024 .f32) (xB xR xS : Vec F S1024x128 .f32) : Vec F S1024x128 .f32 :=
  k4_pay2 (if resFirst i then k4_pay1 xR else xS) xA xB

theorem origin0 : (![0, 0] : Fin 2 → Nat) = fun _ => 0 := funext fun a => by fin_cases a <;> rfl

/-- After a store of a whole block a buffer reads that block, whatever it held and whatever was stored before. -/
theorem read_store_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) : v.read (Elt F) (v.writes (Elt F) f (⟨Rect.unit off S.size inb, w⟩ :: L)) = w :=
  (View.read_writes_eq_canon v f _ fun y => ⟨_, List.mem_cons_self, View.mem_set_unit_zero h inb y⟩).trans
    (View.canon_cons_unit_zero h inb w L)

set_option maxHeartbeats 1000000 in
/-- The body on any five whole buffers: inputs as found, the accumulator one step on, the result's block at it at step 3. -/
theorem resBody_run (c : Dev nD) (i : grid4.Coords) {mA : Memref sig .tc .vmem S1024x1024 .f32} (hmA : mA.IsWhole)
    {mB mR mO mAcc : Memref sig .tc .vmem S1024x128 .f32} (hmB : mB.IsWhole) (hmR : mR.IsWhole) (hmO : mO.IsWhole) (hmAcc : mAcc.IsWhole)
    (xA : Vec F S1024x1024 .f32) (xB xR xO xS : Vec F S1024x128 .f32) (E : Set ℕ) (K : PUnit → sProp 𝕄) :
    iprop(owns (c : Thread nD τ) mA fullShare xA ∗ owns (c : Thread nD τ) mB fullShare xB ∗ owns (c : Thread nD τ) mR fullShare xR
        ∗ owns (c : Thread nD τ) mO fullShare xO ∗ owns (c : Thread nD τ) mAcc fullShare xS
        ∗ (iprop(owns (c : Thread nD τ) mA fullShare xA ∗ owns (c : Thread nD τ) mB fullShare xB ∗ owns (c : Thread nD τ) mR fullShare xR
            ∗ owns (c : Thread nD τ) mO fullShare (if resLast i then resAcc i xA xB xR xS else xO)
            ∗ owns (c : Thread nD τ) mAcc fullShare (resAcc i xA xB xR xS)) -∗ K ⟨⟩))
      ⊢ wp frame (wpE (defs₀ (F := F)) Variants.none c none) E (resBody i hmA hmB hmR hmO hmAcc) K := by
  unfold resBody; simp only [cc4__residual_matmul_kernel_eq_skeleton]; unfold cc4__residual_matmul_kernel_skel
  unfold owns resAcc
  iintro ⟨⟨%fA, %hfA, HA⟩, ⟨%fB, %hfB, HB⟩, ⟨%fR, %hfR, HR⟩, ⟨%fO, %hfO, HO⟩, ⟨%fS, %hfS, HS⟩, Hk⟩
  obtain rfl := hmA.eq_unread hfA; obtain rfl := hmB.eq_unread hfB; obtain rfl := hmR.eq_unread hfR
  obtain rfl := hmO.eq_unread hfO; obtain rfl := hmAcc.eq_unread hfS
  by_cases h0 : resFirst i <;> by_cases h1 : resLast i <;>
  · first | rw [if_pos h0] | rw [if_neg h0]
    first | rw [if_pos h1] | rw [if_neg h1]
    sl_exec (disch := first | exact h0 | exact h1)
    sl_step
    iapply Hk
    isplitl [HA]
    · iexists _; isplitr; swap; · iexact HA
      ipureintro; exact hmA.read_unread _
    isplitl [HB]
    · iexists _; isplitr; swap; · iexact HB
      ipureintro; exact hmB.read_unread _
    isplitl [HR]
    · iexists _; isplitr; swap; · iexact HR
      ipureintro; exact hmR.read_unread _
    isplitl [HO]
    · iexists _; isplitr; swap; · iexact HO
      ipureintro
      first
      | (sl_unfold_words
         rw [read_store_whole (S := S1024x128) _ _ origin0]
         simp only [View.readAt_eq_ld, hmA.read_unread, hmB.read_unread, hmR.read_unread, hmAcc.read_unread, View.readCov_cons_toLoadRect, View.ld_unit_zero (S := S1024x128) origin0, View.ld_unit_zero (S := S1024x1024) origin0])
      | exact hmO.read_unread _
    · iexists _; isplitr; swap; · iexact HS
      ipureintro
      sl_unfold_words
      rw [read_store_whole (S := S1024x128) _ _ origin0]
      simp only [View.readAt_eq_ld, hmA.read_unread, hmB.read_unread, hmR.read_unread, hmAcc.read_unread, View.readCov_cons_toLoadRect, View.ld_unit_zero (S := S1024x128) origin0, View.ld_unit_zero (S := S1024x1024) origin0]

/-- THE ACCUMULATION over the points: the accumulator after point `n`, from the three inputs' blocks at each point. -/
def resAccAt (A : (n : ℕ) → n < grid4.N → Vec F S1024x1024 .f32) (B R : (n : ℕ) → n < grid4.N → Vec F S1024x128 .f32) :
    (n : ℕ) → n < grid4.N → Vec F S1024x128 .f32
  | 0, hn => resAcc (grid4.coords ⟨0, hn⟩) (A 0 hn) (B 0 hn) (R 0 hn) (R 0 hn)
  | n + 1, hn => resAcc (grid4.coords ⟨n + 1, hn⟩) (A (n + 1) hn) (B (n + 1) hn) (R (n + 1) hn) (resAccAt A B R n (Nat.lt_of_succ_lt hn))

/-- One body step carries it on; at the first point what the accumulator enters at is not read. -/
theorem resAccAt_step (A B R) (t : Fin grid4.N) (x : Vec F S1024x128 .f32)
    (hx : ∀ h : 0 < t.val, x = resAccAt A B R (t.val - 1) (Nat.lt_of_le_of_lt (Nat.sub_le _ _) t.isLt)) :
    resAcc (grid4.coords t) (A t.val t.isLt) (B t.val t.isLt) (R t.val t.isLt) x = resAccAt A B R t.val t.isLt := by
  obtain ⟨n, hn⟩ := t
  cases n with
  | zero =>
    have h := (resFirst_iff ⟨0, hn⟩).mpr rfl
    unfold resAccAt resAcc; rw [if_pos h, if_pos h]
  | succ n => rw [hx (Nat.succ_pos n)]; rfl

end Cert.Kernel.Hand
end
-- ==== Proof.KbRes4.lean ====
import proofs.«120173_j18854906429546_1_alg».proof.Proof.KbResBody
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-- Window `w`'s block of its array at point `t`. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem live4_0 : ∀ t : Fin cfg4.N, cfg4.idle 0 (grid4.coords t) = false := by decide +kernel
theorem live4_1 : ∀ t : Fin cfg4.N, cfg4.idle 1 (grid4.coords t) = false := by decide +kernel
theorem live4_2 : ∀ t : Fin cfg4.N, cfg4.idle 2 (grid4.coords t) = false := by decide +kernel
theorem idle4_3 : ∀ t : Fin cfg4.N, ¬resLast (grid4.coords t) → cfg4.idle 3 (grid4.coords t) = true := by decide +kernel
theorem noFlush4_3 : ∀ t : Fin cfg4.N, ¬resLast (grid4.coords t) → (cfg4.win 3).flush t = false := by decide +kernel
theorem live4_3 : ∀ t : Fin cfg4.N, resLast (grid4.coords t) → cfg4.idle 3 (grid4.coords t) = false := by decide +kernel

abbrev scM4 : Memref sig .tc .vmem S1024x128 .f32 := Memref.whole cc4_scratch0
abbrev restBut4 (c : Dev nD) : sProp 𝕄 :=
  Pipeline.scopedRestBut (Ix := Unit) (Name := ℕ) (U := UR sig nD τ) (Lvl := ℕ) (Val := Elt F) spec4 c [cc4_scratch0]

theorem PhiA4_eq (c : Dev nD) :
    (Pipeline.ΦA spec4 c : sProp 𝕄)
      = iprop(iprop((∃ d, owns (c : Thread nD τ) scM4 fullShare d) ∗ restBut4 c) ∗ (∃ r, prngReg c r)) := by
  unfold Pipeline.ΦA; rw [scopedRest4_split]; simp only [scM4, owns_whole]; try rfl

/-- The accumulator after point `n`: the accumulation of the region's three block families. -/
def acc4 (c : Dev nD) : (n : ℕ) → n < cfg4.N → Vec F S1024x128 .f32 :=
  resAccAt (fun n hn => iblk4 V c 0 ⟨n, hn⟩) (fun n hn => iblk4 V c 1 ⟨n, hn⟩) (fun n hn => iblk4 V c 2 ⟨n, hn⟩)

/-- The invariant between points: the accumulator holds some `x`, which past the first point is the accumulation so far. -/
def PhiS4 (c : Dev nD) (n : ℕ) (h : n ≤ cfg4.N) : sProp 𝕄 :=
  iprop(iprop((∃ x, ⌜∀ hn : 0 < n, x = acc4 V c (n - 1) (by omega)⌝ ∗ owns (c : Thread nD τ) scM4 fullShare x) ∗ restBut4 c) ∗ (∃ r, prngReg c r))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => acc4 V c t.val t.isLt
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = acc4 V c t.val t.isLt := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; rfl) t d).trans rfl
theorem before4_2 (c : Dev nD) (t : Fin cfg4.N) (d) : (dat4 V c).before 2 t d = iblk4 V c 2 t :=
  ((dat4 V c).before_in_eq_fetched 2 rfl (fun _ => rfl) (fun _ _ _ => rfl) (fun t => by rw [after4_2]; rfl) t d).trans rfl

/-- At step 3 the result's block ends at the accumulator. -/
theorem leaves4_3 (c : Dev nD) (t : Fin cfg4.N) (d) :
    owns (c : Thread nD τ) (st4_3 t) fullShare (if resLast (grid4.coords t) then acc4 V c t.val t.isLt else (dat4 V c).before 3 t d)
      ⊢ (dat4 V c).leavesExact 3 t := by
  by_cases h1 : resLast (grid4.coords t)
  · rw [if_pos h1, show (dat4 V c).leavesExact 3 t = owns (c : Thread nD τ) (st4_3 t) fullShare ((dat4 V c).after 3 t) from by
      unfold Dat.leavesExact; rw [live4_3 t h1], after4_3]
  · rw [if_neg h1, Dat.leavesExact_idle (dat4 V c) 3 t (idle4_3 t h1) (noFlush4_3 t h1)]
    iintro H; iexists d; iexact H

/-- Every point is one step of the accumulation. -/
theorem sound_body4 (c : Dev nD) (t : Fin cfg4.N) :
    iprop((dat4 V c).Φ t.castSucc ∗ (dat4 V c).owesAt () t.castSucc
      ∗ (∃ d, owns (c : Thread nD τ) (st4_0 t) fullShare ((dat4 V c).before 0 t d))
      ∗ (∃ d, owns (c : Thread nD τ) (st4_1 t) fullShare ((dat4 V c).before 1 t d))
      ∗ (∃ d, owns (c : Thread nD τ) (st4_2 t) fullShare ((dat4 V c).before 2 t d))
      ∗ (∃ d, owns (c : Thread nD τ) (st4_3 t) fullShare ((dat4 V c).before 3 t d)))
    ⊢ wp frame (wpE (defs₀ (F := F)) Variants.none c none) Set.univ (bodyAt4 t) (fun _ =>
      iprop((dat4 V c).Φ t.succ ∗ (dat4 V c).owesAt () t.succ
        ∗ (dat4 V c).leavesExact 0 t ∗ (dat4 V c).leavesExact 1 t ∗ (dat4 V c).leavesExact 2 t ∗ (dat4 V c).leavesExact 3 t)) := by
  simp only [before4_0, before4_1, before4_2]
  rw [show (dat4 V c).owesAt () t.succ = (dat4 V c).owesAt () t.castSucc from rfl,
    show (dat4 V c).Φ t.succ = PhiS4 V c (t.val + 1) t.isLt from rfl,
    show (dat4 V c).Φ t.castSucc = PhiS4 V c t.val (Nat.le_of_lt t.isLt) from rfl,
    show (dat4 V c).leavesExact 0 t = owns (c : Thread nD τ) (st4_0 t) fullShare (iblk4 V c 0 t) from by
      unfold Dat.leavesExact; rw [live4_0 t, after4_0],
    show (dat4 V c).leavesExact 1 t = owns (c : Thread nD τ) (st4_1 t) fullShare (iblk4 V c 1 t) from by
      unfold Dat.leavesExact; rw [live4_1 t, after4_1],
    show (dat4 V c).leavesExact 2 t = owns (c : Thread nD τ) (st4_2 t) fullShare (iblk4 V c 2 t) from by
      unfold Dat.leavesExact; rw [live4_2 t, after4_2]]
  unfold PhiS4 bodyAt4; rw [resBody_eq4]
  iintro ⟨⟨⟨⟨%x, %hx, HS⟩, Hr⟩, Hg⟩, Ho, ⟨%d0, HA⟩, ⟨%d1, HB⟩, ⟨%d2, HR⟩, ⟨%d3, HO⟩⟩
  iapply (resBody_run c (grid4.coords t) _ _ _ _ _ _ _ _ _ x Set.univ _)
  isplitl [HA]; · iexact HA
  isplitl [HB]; · iexact HB
  isplitl [HR]; · iexact HR
  isplitl [HO]; · iexact HO
  isplitl [HS]; · iexact HS
  iintro ⟨HA, HB, HR, HO, HS⟩
  rw [show resAcc (grid4.coords t) (iblk4 V c 0 t) (iblk4 V c 1 t) (iblk4 V c 2 t) x = acc4 V c t.val t.isLt from
    resAccAt_step _ _ _ t x hx]
  isplitl [HS Hr Hg]
  · isplitl [HS Hr]
    · isplitl [HS]
      · iexists _; isplitr; swap; · iexact HS
        ipureintro; exact fun _ => rfl
      iexact Hr
    iexact Hg
  isplitl [Ho]; · iexact Ho
  isplitl [HA]; · iexact HA
  isplitl [HB]; · iexact HB
  isplitl [HR]; · iexact HR
  iapply (leaves4_3 V c t d3); iexact HO

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = PhiS4 V c 0 (Nat.zero_le _) from rfl, PhiA4_eq]; unfold PhiS4
  iintro ⟨⟨⟨%d, HS⟩, Hr⟩, Hg⟩
  isplitl [HS Hr]
  · isplitl [HS]
    · iexists d; isplitr; · ipureintro; exact fun h => absurd h (Nat.lt_irrefl 0)
      iexact HS
    iexact Hr
  iexact Hg

theorem hout4 (c : Dev nD) : (dat4 V c).Φ (Fin.last cfg4.N) ⊢ Pipeline.ΦA spec4 c := by
  rw [show (dat4 V c).Φ (Fin.last cfg4.N) = PhiS4 V c (Fin.last cfg4.N).val (Nat.le_of_lt_succ (Fin.last cfg4.N).isLt) from rfl, PhiA4_eq]
  unfold PhiS4
  iintro ⟨⟨⟨%x, -, HS⟩, Hr⟩, Hg⟩
  isplitl [HS Hr]
  · isplitl [HS]
    · iexists x; iexact HS
    iexact Hr
  iexact Hg

end Cert.Kernel.Hand
end
-- ==== Proof.KbRes5Body.lean ====
import proofs.«120173_j18854906429546_1_alg».proof.Proof.KbResBody
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-- Point `t` is row block `t / 8`, step `t % 8`. -/
abbrev resFirst5 (i : grid5.Coords) : Prop :=
  Scalar.cmpi .ne (Scalar.extui (Scalar.cmpi .eq (BitVec.ofNat 32 (i 1).val) 0#32)) 0#32 = 1#1
theorem resFirst5_iff : ∀ t : Fin grid5.N, resFirst5 (grid5.coords t) ↔ t.val % 8 = 0 := by decide +kernel
abbrev resLast5 (i : grid5.Coords) : Prop := k5_cond2 i = 1#1
theorem resLast5_iff : ∀ t : Fin grid5.N, resLast5 (grid5.coords t) ↔ t.val % 8 = 7 := by decide +kernel

/-- What the body leaves in the accumulator: the blocks' product added to the residual block at step 0, to what it held elsewhere. -/
def resAcc5 (i : grid5.Coords) (xA : Vec F S1024x1024 .f32) (xB xR xS : Vec F S1024x128 .f32) : Vec F S1024x128 .f32 :=
  k5_pay2 (if resFirst5 i then k5_pay1 xR else xS) xA xB

set_option maxHeartbeats 1000000 in
/-- The body on any five whole buffers: inputs as found, the accumulator one step on, the result's block at it at step 7. -/
theorem resRun5 (c : Dev nD) (i : grid5.Coords) {mA : Memref sig .tc .vmem S1024x1024 .f32} (hmA : mA.IsWhole)
    {mB mR mO mAcc : Memref sig .tc .vmem S1024x128 .f32} (hmB : mB.IsWhole) (hmR : mR.IsWhole) (hmO : mO.IsWhole) (hmAcc : mAcc.IsWhole)
    (xA : Vec F S1024x1024 .f32) (xB xR xO xS : Vec F S1024x128 .f32) (E : Set ℕ) (K : PUnit → sProp 𝕄) :
    iprop(owns (c : Thread nD τ) mA fullShare xA ∗ owns (c : Thread nD τ) mB fullShare xB ∗ owns (c : Thread nD τ) mR fullShare xR
        ∗ owns (c : Thread nD τ) mO fullShare xO ∗ owns (c : Thread nD τ) mAcc fullShare xS
        ∗ (iprop(owns (c : Thread nD τ) mA fullShare xA ∗ owns (c : Thread nD τ) mB fullShare xB ∗ owns (c : Thread nD τ) mR fullShare xR
            ∗ owns (c : Thread nD τ) mO fullShare (if resLast5 i then resAcc5 i xA xB xR xS else xO)
            ∗ owns (c : Thread nD τ) mAcc fullShare (resAcc5 i xA xB xR xS)) -∗ K ⟨⟩))
      ⊢ wp frame (wpE (defs₀ (F := F)) Variants.none c none) E (cc5__residual_matmul_kernel i mA hmA mB hmB mR hmR mO hmO mAcc hmAcc) K := by
  simp only [cc5__residual_matmul_kernel_eq_skeleton]; unfold cc5__residual_matmul_kernel_skel
  unfold owns resAcc5
  iintro ⟨⟨%fA, %hfA, HA⟩, ⟨%fB, %hfB, HB⟩, ⟨%fR, %hfR, HR⟩, ⟨%fO, %hfO, HO⟩, ⟨%fS, %hfS, HS⟩, Hk⟩
  obtain rfl := hmA.eq_unread hfA; obtain rfl := hmB.eq_unread hfB; obtain rfl := hmR.eq_unread hfR
  obtain rfl := hmO.eq_unread hfO; obtain rfl := hmAcc.eq_unread hfS
  by_cases h0 : resFirst5 i <;> by_cases h1 : resLast5 i <;>
  · first | rw [if_pos h0] | rw [if_neg h0]
    first | rw [if_pos h1] | rw [if_neg h1]
    sl_exec (disch := first | exact h0 | exact h1)
    sl_step
    iapply Hk
    isplitl [HA]
    · iexists _; isplitr; swap; · iexact HA
      ipureintro; exact hmA.read_unread _
    isplitl [HB]
    · iexists _; isplitr; swap; · iexact HB
      ipureintro; exact hmB.read_unread _
    isplitl [HR]
    · iexists _; isplitr; swap; · iexact HR
      ipureintro; exact hmR.read_unread _
    isplitl [HO]
    · iexists _; isplitr; swap; · iexact HO
      ipureintro
      first
      | (sl_unfold_words
         rw [read_store_whole (S := S1024x128) _ _ origin0]
         simp only [View.readAt_eq_ld, hmA.read_unread, hmB.read_unread, hmR.read_unread, hmAcc.read_unread, View.readCov_cons_toLoadRect, View.ld_unit_zero (S := S1024x128) origin0, View.ld_unit_zero (S := S1024x1024) origin0])
      | exact hmO.read_unread _
    · iexists _; isplitr; swap; · iexact HS
      ipureintro
      sl_unfold_words
      rw [read_store_whole (S := S1024x128) _ _ origin0]
      simp only [View.readAt_eq_ld, hmA.read_unread, hmB.read_unread, hmR.read_unread, hmAcc.read_unread, View.readCov_cons_toLoadRect, View.ld_unit_zero (S := S1024x128) origin0, View.ld_unit_zero (S := S1024x1024) origin0]

/-- THE ACCUMULATION over the points: the accumulator after point `n`, from the three inputs' blocks at each point. -/
def resAccAt5 (A : (n : ℕ) → n < grid5.N → Vec F S1024x1024 .f32) (B R : (n : ℕ) → n < grid5.N → Vec F S1024x128 .f32) :
    (n : ℕ) → n < grid5.N → Vec F S1024x128 .f32
  | 0, hn => resAcc5 (grid5.coords ⟨0, hn⟩) (A 0 hn) (B 0 hn) (R 0 hn) (R 0 hn)
  | n + 1, hn => resAcc5 (grid5.coords ⟨n + 1, hn⟩) (A (n + 1) hn) (B (n + 1) hn) (R (n + 1) hn) (resAccAt5 A B R n (Nat.lt_of_succ_lt hn))

/-- One body step carries it on; at the first point what the accumulator enters at is not read. -/
theorem resAccAt5_step (A B R) (t : Fin grid5.N) (x : Vec F S1024x128 .f32)
    (hx : ∀ h : 0 < t.val, x = resAccAt5 A B R (t.val - 1) (Nat.lt_of_le_of_lt (Nat.sub_le _ _) t.isLt)) :
    resAcc5 (grid5.coords t) (A t.val t.isLt) (B t.val t.isLt) (R t.val t.isLt) x = resAccAt5 A B R t.val t.isLt := by
  obtain ⟨n, hn⟩ := t
  cases n with
  | zero =>
    have h := (resFirst5_iff ⟨0, hn⟩).mpr rfl
    unfold resAccAt5 resAcc5; rw [if_pos h, if_pos h]
  | succ n => rw [hx (Nat.succ_pos n)]; rfl

end Cert.Kernel.Hand
end
-- ==== Proof.KbRes5.lean ====
import proofs.«120173_j18854906429546_1_alg».proof.Proof.KbRes5Body
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-- Window `w`'s block of its array at point `t`. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem live5_0 : ∀ t : Fin cfg5.N, cfg5.idle 0 (grid5.coords t) = false := by decide +kernel
theorem live5_1 : ∀ t : Fin cfg5.N, cfg5.idle 1 (grid5.coords t) = false := by decide +kernel
theorem live5_2 : ∀ t : Fin cfg5.N, cfg5.idle 2 (grid5.coords t) = false := by decide +kernel
theorem idle5_3 : ∀ t : Fin cfg5.N, ¬resLast5 (grid5.coords t) → cfg5.idle 3 (grid5.coords t) = true := by decide +kernel
theorem noFlush5_3 : ∀ t : Fin cfg5.N, ¬resLast5 (grid5.coords t) → (cfg5.win 3).flush t = false := by decide +kernel
theorem live5_3 : ∀ t : Fin cfg5.N, resLast5 (grid5.coords t) → cfg5.idle 3 (grid5.coords t) = false := by decide +kernel

abbrev scM5 : Memref sig .tc .vmem S1024x128 .f32 := Memref.whole cc5_scratch0
abbrev restBut5 (c : Dev nD) : sProp 𝕄 :=
  Pipeline.scopedRestBut (Ix := Unit) (Name := ℕ) (U := UR sig nD τ) (Lvl := ℕ) (Val := Elt F) spec5 c [cc5_scratch0]

theorem PhiA5_eq (c : Dev nD) :
    (Pipeline.ΦA spec5 c : sProp 𝕄)
      = iprop(iprop((∃ d, owns (c : Thread nD τ) scM5 fullShare d) ∗ restBut5 c) ∗ (∃ r, prngReg c r)) := by
  unfold Pipeline.ΦA; rw [scopedRest5_split]; simp only [scM5, owns_whole]; try rfl

/-- The accumulator after point `n`: the accumulation of the region's three block families. -/
def acc5 (c : Dev nD) : (n : ℕ) → n < cfg5.N → Vec F S1024x128 .f32 :=
  resAccAt5 (fun n hn => iblk5 V c 0 ⟨n, hn⟩) (fun n hn => iblk5 V c 1 ⟨n, hn⟩) (fun n hn => iblk5 V c 2 ⟨n, hn⟩)

/-- The invariant between points: the accumulator holds some `x`, which past the first point is the accumulation so far. -/
def PhiS5 (c : Dev nD) (n : ℕ) (h : n ≤ cfg5.N) : sProp 𝕄 :=
  iprop(iprop((∃ x, ⌜∀ hn : 0 < n, x = acc5 V c (n - 1) (by omega)⌝ ∗ owns (c : Thread nD τ) scM5 fullShare x) ∗ restBut5 c) ∗ (∃ r, prngReg c r))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => acc5 V c t.val t.isLt
  Φ t := PhiS5 V c t.val (Nat.le_of_lt_succ t.isLt)
  q := fun | 1 => fullShare.left | 2 => fullShare.right | _ => fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = acc5 V c t.val t.isLt := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun t => by rw [after5_0]; rfl) t d).trans rfl
theorem before5_1 (c : Dev nD) (t : Fin cfg5.N) (d) : (dat5 V c).before 1 t d = iblk5 V c 1 t :=
  ((dat5 V c).before_in_eq_fetched 1 rfl (fun _ => rfl) (fun _ _ _ => rfl) (fun t => by rw [after5_1]; rfl) t d).trans rfl
theorem before5_2 (c : Dev nD) (t : Fin cfg5.N) (d) : (dat5 V c).before 2 t d = iblk5 V c 2 t :=
  ((dat5 V c).before_in_eq_fetched 2 rfl (fun _ => rfl) (fun _ _ _ => rfl) (fun t => by rw [after5_2]; rfl) t d).trans rfl

/-- At step 7 the result's block ends at the accumulator. -/
theorem leaves5_3 (c : Dev nD) (t : Fin cfg5.N) (d) :
    owns (c : Thread nD τ) (st5_3 t) fullShare (if resLast5 (grid5.coords t) then acc5 V c t.val t.isLt else (dat5 V c).before 3 t d)
      ⊢ (dat5 V c).leavesExact 3 t := by
  by_cases h1 : resLast5 (grid5.coords t)
  · rw [if_pos h1, show (dat5 V c).leavesExact 3 t = owns (c : Thread nD τ) (st5_3 t) fullShare ((dat5 V c).after 3 t) from by
      unfold Dat.leavesExact; rw [live5_3 t h1], after5_3]
  · rw [if_neg h1, Dat.leavesExact_idle (dat5 V c) 3 t (idle5_3 t h1) (noFlush5_3 t h1)]
    iintro H; iexists d; iexact H

/-- Every point is one step of the accumulation. -/
theorem sound_body5 (c : Dev nD) (t : Fin cfg5.N) :
    iprop((dat5 V c).Φ t.castSucc ∗ (dat5 V c).owesAt () t.castSucc
      ∗ (∃ d, owns (c : Thread nD τ) (st5_0 t) fullShare ((dat5 V c).before 0 t d))
      ∗ (∃ d, owns (c : Thread nD τ) (st5_1 t) fullShare ((dat5 V c).before 1 t d))
      ∗ (∃ d, owns (c : Thread nD τ) (st5_2 t) fullShare ((dat5 V c).before 2 t d))
      ∗ (∃ d, owns (c : Thread nD τ) (st5_3 t) fullShare ((dat5 V c).before 3 t d)))
    ⊢ wp frame (wpE (defs₀ (F := F)) Variants.none c none) Set.univ (bodyAt5 t) (fun _ =>
      iprop((dat5 V c).Φ t.succ ∗ (dat5 V c).owesAt () t.succ
        ∗ (dat5 V c).leavesExact 0 t ∗ (dat5 V c).leavesExact 1 t ∗ (dat5 V c).leavesExact 2 t ∗ (dat5 V c).leavesExact 3 t)) := by
  simp only [before5_0, before5_1, before5_2]
  rw [show (dat5 V c).owesAt () t.succ = (dat5 V c).owesAt () t.castSucc from rfl,
    show (dat5 V c).Φ t.succ = PhiS5 V c (t.val + 1) t.isLt from rfl,
    show (dat5 V c).Φ t.castSucc = PhiS5 V c t.val (Nat.le_of_lt t.isLt) from rfl,
    show (dat5 V c).leavesExact 0 t = owns (c : Thread nD τ) (st5_0 t) fullShare (iblk5 V c 0 t) from by
      unfold Dat.leavesExact; rw [live5_0 t, after5_0],
    show (dat5 V c).leavesExact 1 t = owns (c : Thread nD τ) (st5_1 t) fullShare (iblk5 V c 1 t) from by
      unfold Dat.leavesExact; rw [live5_1 t, after5_1],
    show (dat5 V c).leavesExact 2 t = owns (c : Thread nD τ) (st5_2 t) fullShare (iblk5 V c 2 t) from by
      unfold Dat.leavesExact; rw [live5_2 t, after5_2]]
  unfold PhiS5 bodyAt5
  iintro ⟨⟨⟨⟨%x, %hx, HS⟩, Hr⟩, Hg⟩, Ho, ⟨%d0, HA⟩, ⟨%d1, HB⟩, ⟨%d2, HR⟩, ⟨%d3, HO⟩⟩
  iapply (resRun5 c (grid5.coords t) _ _ _ _ _ _ _ _ _ x Set.univ _)
  isplitl [HA]; · iexact HA
  isplitl [HB]; · iexact HB
  isplitl [HR]; · iexact HR
  isplitl [HO]; · iexact HO
  isplitl [HS]; · iexact HS
  iintro ⟨HA, HB, HR, HO, HS⟩
  rw [show resAcc5 (grid5.coords t) (iblk5 V c 0 t) (iblk5 V c 1 t) (iblk5 V c 2 t) x = acc5 V c t.val t.isLt from
    resAccAt5_step _ _ _ t x hx]
  isplitl [HS Hr Hg]
  · isplitl [HS Hr]
    · isplitl [HS]
      · iexists _; isplitr; swap; · iexact HS
        ipureintro; exact fun _ => rfl
      iexact Hr
    iexact Hg
  isplitl [Ho]; · iexact Ho
  isplitl [HA]; · iexact HA
  isplitl [HB]; · iexact HB
  isplitl [HR]; · iexact HR
  iapply (leaves5_3 V c t d3); iexact HO

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := by
  rw [show (dat5 V c).Φ 0 = PhiS5 V c 0 (Nat.zero_le _) from rfl, PhiA5_eq]; unfold PhiS5
  iintro ⟨⟨⟨%d, HS⟩, Hr⟩, Hg⟩
  isplitl [HS Hr]
  · isplitl [HS]
    · iexists d; isplitr; · ipureintro; exact fun h => absurd h (Nat.lt_irrefl 0)
      iexact HS
    iexact Hr
  iexact Hg

theorem hout5 (c : Dev nD) : (dat5 V c).Φ (Fin.last cfg5.N) ⊢ Pipeline.ΦA spec5 c := by
  rw [show (dat5 V c).Φ (Fin.last cfg5.N) = PhiS5 V c (Fin.last cfg5.N).val (Nat.le_of_lt_succ (Fin.last cfg5.N).isLt) from rfl, PhiA5_eq]
  unfold PhiS5
  iintro ⟨⟨⟨%x, -, HS⟩, Hr⟩, Hg⟩
  isplitl [HS Hr]
  · isplitl [HS]
    · iexists x; iexact HS
    iexact Hr
  iexact Hg

end Cert.Kernel.Hand
end
-- ==== Proof.KbMm6.lean ====
import proofs.«120173_j18854906429546_1_alg».proof.Proof.KbMmBody
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-- Window `w`'s block of its array at point `t`. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem lhsBefore6_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem rhsBefore6_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem lhsLive6 : ∀ t : Fin cfg6.N, cfg6.idle 0 (grid6.coords t) = false := by decide +kernel
theorem rhsLive6 : ∀ t : Fin cfg6.N, cfg6.idle 1 (grid6.coords t) = false := by decide +kernel
theorem outRests6 : ∀ t : Fin cfg6.N, ¬mmLast (grid6.coords t) → cfg6.idle 2 (grid6.coords t) = true := by decide +kernel
theorem outKept6 : ∀ t : Fin cfg6.N, ¬mmLast (grid6.coords t) → (cfg6.win 2).flush t = false := by decide +kernel
theorem outLive6 : ∀ t : Fin cfg6.N, mmLast (grid6.coords t) → cfg6.idle 2 (grid6.coords t) = false := by decide +kernel

abbrev accM6 : Memref sig .tc .vmem S1024x128 .f32 := Memref.whole cc6_scratch0
abbrev stA6 (t : Fin cfg6.N) : Memref sig .tc .vmem S1024x1024 .f32 := win6_0.stage (cfg6.slots t 0)
abbrev stB6 (t : Fin cfg6.N) : Memref sig .tc .vmem S1024x128 .f32 := win6_1.stage (cfg6.slots t 1)
abbrev stO6 (t : Fin cfg6.N) : Memref sig .tc .vmem S1024x128 .f32 := win6_2.stage (cfg6.slots t 2)

abbrev others6 (c : Dev nD) : sProp 𝕄 :=
  Pipeline.scopedRestBut (Ix := Unit) (Name := ℕ) (U := UR sig nD τ) (Lvl := ℕ) (Val := Elt F) spec6 c [cc6_scratch0]

theorem entry6_eq (c : Dev nD) :
    (Pipeline.ΦA spec6 c : sProp 𝕄)
      = iprop(iprop(iprop((∃ d, owns (c : Thread nD τ) accM6 fullShare d)) ∗ others6 c) ∗ (∃ r, prngReg c r)) := by
  unfold Pipeline.ΦA; rw [scopedRest6_split]; simp only [accM6, owns_whole]; try rfl

/-- The two factors' blocks at each point. -/
abbrev lhsAt6 (c : Dev nD) (n : ℕ) (hn : n < grid6.N) : Vec F S1024x1024 .f32 := iblk6 V c 0 ⟨n, hn⟩
abbrev rhsAt6 (c : Dev nD) (n : ℕ) (hn : n < grid6.N) : Vec F S1024x128 .f32 := iblk6 V c 1 ⟨n, hn⟩

/-- The invariant between points: the partial sums hold some `x`, which past the first point is the accumulation so far. -/
def carried6 (c : Dev nD) (n : ℕ) (h : n ≤ cfg6.N) : sProp 𝕄 :=
  iprop(iprop((∃ x, ⌜∀ hn : 0 < n, x = mmAcc (lhsAt6 V c) (rhsAt6 V c) (n - 1) (Nat.lt_of_lt_of_le (Nat.sub_lt hn Nat.one_pos) h)⌝ ∗ owns (c : Thread nD τ) accM6 fullShare x) ∗ others6 c) ∗ (∃ r, prngReg c r))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => mmAcc (lhsAt6 V c) (rhsAt6 V c) t.val t.isLt
  Φ t := carried6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = mmAcc (lhsAt6 V c) (rhsAt6 V c) t.val t.isLt := by dsimp only [dat6]

theorem lhsBefore6 (c : Dev nD) (t : Fin cfg6.N) (d) : (dat6 V c).before 0 t d = iblk6 V c 0 t :=
  lhsBefore6_of V (dat6 V c) (A_eq6 V c 0) (after6_0 V c) t d
theorem rhsBefore6 (c : Dev nD) (t : Fin cfg6.N) (d) : (dat6 V c).before 1 t d = iblk6 V c 1 t :=
  rhsBefore6_of V (dat6 V c) (A_eq6 V c 1) (after6_1 V c) t d

/-- At the last block of the contraction the product's block ends at the partial sums. -/
theorem leaves6_2 (c : Dev nD) (t : Fin cfg6.N) (d) :
    owns (c : Thread nD τ) (stO6 t) fullShare (if mmLast (grid6.coords t) then mmAcc (lhsAt6 V c) (rhsAt6 V c) t.val t.isLt else (dat6 V c).before 2 t d)
      ⊢ (dat6 V c).leavesExact 2 t := by
  by_cases h1 : mmLast (grid6.coords t)
  · rw [if_pos h1, show (dat6 V c).leavesExact 2 t = owns (c : Thread nD τ) (stO6 t) fullShare ((dat6 V c).after 2 t) from by
      unfold Dat.leavesExact; rw [outLive6 t h1], after6_2] <;> exact Idealize.SL.BI.Entails.refl _
  · rw [if_neg h1, Dat.leavesExact_idle (dat6 V c) 2 t (outRests6 t h1) (outKept6 t h1)]
    iintro H; iexists d; iexact H

/-- Every point is one step of the accumulation. -/
theorem sound_body6 (c : Dev nD) (t : Fin cfg6.N) :
    iprop((dat6 V c).Φ t.castSucc ∗ (dat6 V c).owesAt () t.castSucc
      ∗ (∃ d, owns (c : Thread nD τ) (stA6 t) fullShare ((dat6 V c).before 0 t d))
      ∗ (∃ d, owns (c : Thread nD τ) (stB6 t) fullShare ((dat6 V c).before 1 t d))
      ∗ (∃ d, owns (c : Thread nD τ) (stO6 t) fullShare ((dat6 V c).before 2 t d)))
    ⊢ wp frame (wpE (defs₀ (F := F)) Variants.none c none) Set.univ (bodyAt6 t) (fun _ =>
      iprop((dat6 V c).Φ t.succ ∗ (dat6 V c).owesAt () t.succ
        ∗ (dat6 V c).leavesExact 0 t ∗ (dat6 V c).leavesExact 1 t ∗ (dat6 V c).leavesExact 2 t)) := by
  simp only [lhsBefore6, rhsBefore6]
  rw [show (dat6 V c).owesAt () t.succ = (dat6 V c).owesAt () t.castSucc from rfl,
    show (dat6 V c).Φ t.succ = carried6 V c (t.val + 1) t.isLt from rfl,
    show (dat6 V c).Φ t.castSucc = carried6 V c t.val (Nat.le_of_lt t.isLt) from rfl,
    show (dat6 V c).leavesExact 0 t = owns (c : Thread nD τ) (stA6 t) fullShare (iblk6 V c 0 t) from by
      unfold Dat.leavesExact; rw [lhsLive6 t, after6_0],
    show (dat6 V c).leavesExact 1 t = owns (c : Thread nD τ) (stB6 t) fullShare (iblk6 V c 1 t) from by
      unfold Dat.leavesExact; rw [rhsLive6 t, after6_1]]
  unfold carried6 bodyAt6
  rw [mmBody_eq6]
  iintro ⟨⟨⟨⟨%x, %hx, HS⟩, Hr⟩, Hg⟩, Ho, ⟨%d0, HA⟩, ⟨%d1, HB⟩, ⟨%d2, HO⟩⟩
  iapply (mmBody_run c (grid6.coords t) _ _ _ _ _ _ _ x Set.univ _)
  isplitl [HA]; · iexact HA
  isplitl [HB]; · iexact HB
  isplitl [HO]; · iexact HO
  isplitl [HS]; · iexact HS
  iintro ⟨HA, HB, HO, HS⟩
  rw [show mmStep (grid6.coords t) (iblk6 V c 0 t) (iblk6 V c 1 t) x = mmAcc (lhsAt6 V c) (rhsAt6 V c) t.val t.isLt from
    mmAcc_step _ _ t x hx]
  isplitl [HS Hr Hg]
  · isplitl [HS Hr]
    · isplitl [HS]
      · iexists _; isplitr; swap; · iexact HS
        ipureintro; exact fun _ => rfl
      iexact Hr
    iexact Hg
  isplitl [Ho]; · iexact Ho
  isplitl [HA]; · iexact HA
  isplitl [HB]; · iexact HB
  iapply (leaves6_2 V c t d2); iexact HO

theorem body_obligation6 (c : Dev nD) : BodyObligation (dat6 (F := F) V c) (defs₀ (F := F)) Variants.none () Set.univ := fun t => by
  rw [bigSep_W6, bigSep_W6]
  exact sound_body6 V c t

theorem hin6 (c : Dev nD) : Pipeline.ΦA spec6 c ⊢ (dat6 V c).Φ 0 := by
  rw [show (dat6 V c).Φ 0 = carried6 V c 0 (Nat.zero_le _) from rfl, entry6_eq]; unfold carried6
  iintro ⟨⟨⟨%d, HS⟩, Hr⟩, Hg⟩
  isplitl [HS Hr]
  · isplitl [HS]
    · iexists d; isplitr; · ipureintro; exact fun h => absurd h (Nat.lt_irrefl 0)
      iexact HS
    iexact Hr
  iexact Hg

theorem hout6 (c : Dev nD) : (dat6 V c).Φ (Fin.last cfg6.N) ⊢ Pipeline.ΦA spec6 c := by
  rw [show (dat6 V c).Φ (Fin.last cfg6.N) = carried6 V c (Fin.last cfg6.N).val (Nat.le_of_lt_succ (Fin.last cfg6.N).isLt) from rfl, entry6_eq]
  unfold carried6
  iintro ⟨⟨⟨%x, -, HS⟩, Hr⟩, Hg⟩
  isplitl [HS Hr]
  · isplitl [HS]
    · iexists x; iexact HS
    iexact Hr
  iexact Hg

end Cert.Kernel.Hand
end
-- ==== Proof.KbRes7.lean ====
import proofs.«120173_j18854906429546_1_alg».proof.Proof.KbResBody
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-- Window `w`'s block of its array at point `t`. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem live7_0 : ∀ t : Fin cfg7.N, cfg7.idle 0 (grid7.coords t) = false := by decide +kernel
theorem live7_1 : ∀ t : Fin cfg7.N, cfg7.idle 1 (grid7.coords t) = false := by decide +kernel
theorem live7_2 : ∀ t : Fin cfg7.N, cfg7.idle 2 (grid7.coords t) = false := by decide +kernel
theorem idle7_3 : ∀ t : Fin cfg7.N, ¬resLast (grid7.coords t) → cfg7.idle 3 (grid7.coords t) = true := by decide +kernel
theorem noFlush7_3 : ∀ t : Fin cfg7.N, ¬resLast (grid7.coords t) → (cfg7.win 3).flush t = false := by decide +kernel
theorem live7_3 : ∀ t : Fin cfg7.N, resLast (grid7.coords t) → cfg7.idle 3 (grid7.coords t) = false := by decide +kernel

abbrev scM7 : Memref sig .tc .vmem S1024x128 .f32 := Memref.whole cc7_scratch0
abbrev restBut7 (c : Dev nD) : sProp 𝕄 :=
  Pipeline.scopedRestBut (Ix := Unit) (Name := ℕ) (U := UR sig nD τ) (Lvl := ℕ) (Val := Elt F) spec7 c [cc7_scratch0]

theorem PhiA7_eq (c : Dev nD) :
    (Pipeline.ΦA spec7 c : sProp 𝕄)
      = iprop(iprop((∃ d, owns (c : Thread nD τ) scM7 fullShare d) ∗ restBut7 c) ∗ (∃ r, prngReg c r)) := by
  unfold Pipeline.ΦA; rw [scopedRest7_split]; simp only [scM7, owns_whole]; try rfl

/-- The accumulator after point `n`: the accumulation of the region's three block families. -/
def acc7 (c : Dev nD) : (n : ℕ) → n < cfg7.N → Vec F S1024x128 .f32 :=
  resAccAt (fun n hn => iblk7 V c 0 ⟨n, hn⟩) (fun n hn => iblk7 V c 1 ⟨n, hn⟩) (fun n hn => iblk7 V c 2 ⟨n, hn⟩)

/-- The invariant between points: the accumulator holds some `x`, which past the first point is the accumulation so far. -/
def PhiS7 (c : Dev nD) (n : ℕ) (h : n ≤ cfg7.N) : sProp 𝕄 :=
  iprop(iprop((∃ x, ⌜∀ hn : 0 < n, x = acc7 V c (n - 1) (by omega)⌝ ∗ owns (c : Thread nD τ) scM7 fullShare x) ∗ restBut7 c) ∗ (∃ r, prngReg c r))

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => acc7 V c t.val t.isLt
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = acc7 V c t.val t.isLt := by dsimp only [dat7]

theorem before7_0 (c : Dev nD) (t : Fin cfg7.N) (d) : (dat7 V c).before 0 t d = iblk7 V c 0 t :=
  ((dat7 V c).before_in_eq_fetched 0 rfl (fun _ => rfl) (fun _ _ _ => rfl) (fun t => by rw [after7_0]; rfl) t d).trans rfl
theorem before7_1 (c : Dev nD) (t : Fin cfg7.N) (d) : (dat7 V c).before 1 t d = iblk7 V c 1 t :=
  ((dat7 V c).before_in_eq_fetched 1 rfl (fun _ => rfl) (fun _ _ _ => rfl) (fun t => by rw [after7_1]; rfl) t d).trans rfl
theorem before7_2 (c : Dev nD) (t : Fin cfg7.N) (d) : (dat7 V c).before 2 t d = iblk7 V c 2 t :=
  ((dat7 V c).before_in_eq_fetched 2 rfl (fun _ => rfl) (fun _ _ _ => rfl) (fun t => by rw [after7_2]; rfl) t d).trans rfl

/-- At step 3 the result's block ends at the accumulator. -/
theorem leaves7_3 (c : Dev nD) (t : Fin cfg7.N) (d) :
    owns (c : Thread nD τ) (st7_3 t) fullShare (if resLast (grid7.coords t) then acc7 V c t.val t.isLt else (dat7 V c).before 3 t d)
      ⊢ (dat7 V c).leavesExact 3 t := by
  by_cases h1 : resLast (grid7.coords t)
  · rw [if_pos h1, show (dat7 V c).leavesExact 3 t = owns (c : Thread nD τ) (st7_3 t) fullShare ((dat7 V c).after 3 t) from by
      unfold Dat.leavesExact; rw [live7_3 t h1], after7_3]
  · rw [if_neg h1, Dat.leavesExact_idle (dat7 V c) 3 t (idle7_3 t h1) (noFlush7_3 t h1)]
    iintro H; iexists d; iexact H

/-- Every point is one step of the accumulation. -/
theorem sound_body7 (c : Dev nD) (t : Fin cfg7.N) :
    iprop((dat7 V c).Φ t.castSucc ∗ (dat7 V c).owesAt () t.castSucc
      ∗ (∃ d, owns (c : Thread nD τ) (st7_0 t) fullShare ((dat7 V c).before 0 t d))
      ∗ (∃ d, owns (c : Thread nD τ) (st7_1 t) fullShare ((dat7 V c).before 1 t d))
      ∗ (∃ d, owns (c : Thread nD τ) (st7_2 t) fullShare ((dat7 V c).before 2 t d))
      ∗ (∃ d, owns (c : Thread nD τ) (st7_3 t) fullShare ((dat7 V c).before 3 t d)))
    ⊢ wp frame (wpE (defs₀ (F := F)) Variants.none c none) Set.univ (bodyAt7 t) (fun _ =>
      iprop((dat7 V c).Φ t.succ ∗ (dat7 V c).owesAt () t.succ
        ∗ (dat7 V c).leavesExact 0 t ∗ (dat7 V c).leavesExact 1 t ∗ (dat7 V c).leavesExact 2 t ∗ (dat7 V c).leavesExact 3 t)) := by
  simp only [before7_0, before7_1, before7_2]
  rw [show (dat7 V c).owesAt () t.succ = (dat7 V c).owesAt () t.castSucc from rfl,
    show (dat7 V c).Φ t.succ = PhiS7 V c (t.val + 1) t.isLt from rfl,
    show (dat7 V c).Φ t.castSucc = PhiS7 V c t.val (Nat.le_of_lt t.isLt) from rfl,
    show (dat7 V c).leavesExact 0 t = owns (c : Thread nD τ) (st7_0 t) fullShare (iblk7 V c 0 t) from by
      unfold Dat.leavesExact; rw [live7_0 t, after7_0],
    show (dat7 V c).leavesExact 1 t = owns (c : Thread nD τ) (st7_1 t) fullShare (iblk7 V c 1 t) from by
      unfold Dat.leavesExact; rw [live7_1 t, after7_1],
    show (dat7 V c).leavesExact 2 t = owns (c : Thread nD τ) (st7_2 t) fullShare (iblk7 V c 2 t) from by
      unfold Dat.leavesExact; rw [live7_2 t, after7_2]]
  unfold PhiS7 bodyAt7; rw [resBody_eq7]
  iintro ⟨⟨⟨⟨%x, %hx, HS⟩, Hr⟩, Hg⟩, Ho, ⟨%d0, HA⟩, ⟨%d1, HB⟩, ⟨%d2, HR⟩, ⟨%d3, HO⟩⟩
  iapply (resBody_run c (grid7.coords t) _ _ _ _ _ _ _ _ _ x Set.univ _)
  isplitl [HA]; · iexact HA
  isplitl [HB]; · iexact HB
  isplitl [HR]; · iexact HR
  isplitl [HO]; · iexact HO
  isplitl [HS]; · iexact HS
  iintro ⟨HA, HB, HR, HO, HS⟩
  rw [show resAcc (grid7.coords t) (iblk7 V c 0 t) (iblk7 V c 1 t) (iblk7 V c 2 t) x = acc7 V c t.val t.isLt from
    resAccAt_step _ _ _ t x hx]
  isplitl [HS Hr Hg]
  · isplitl [HS Hr]
    · isplitl [HS]
      · iexists _; isplitr; swap; · iexact HS
        ipureintro; exact fun _ => rfl
      iexact Hr
    iexact Hg
  isplitl [Ho]; · iexact Ho
  isplitl [HA]; · iexact HA
  isplitl [HB]; · iexact HB
  isplitl [HR]; · iexact HR
  iapply (leaves7_3 V c t d3); iexact HO

theorem body_obligation7 (c : Dev nD) : BodyObligation (dat7 (F := F) V c) (defs₀ (F := F)) Variants.none () Set.univ := fun t => by
  rw [bigSep_W7, bigSep_W7]
  exact sound_body7 V c t

theorem hin7 (c : Dev nD) : Pipeline.ΦA spec7 c ⊢ (dat7 V c).Φ 0 := by
  rw [show (dat7 V c).Φ 0 = PhiS7 V c 0 (Nat.zero_le _) from rfl, PhiA7_eq]; unfold PhiS7
  iintro ⟨⟨⟨%d, HS⟩, Hr⟩, Hg⟩
  isplitl [HS Hr]
  · isplitl [HS]
    · iexists d; isplitr; · ipureintro; exact fun h => absurd h (Nat.lt_irrefl 0)
      iexact HS
    iexact Hr
  iexact Hg

theorem hout7 (c : Dev nD) : (dat7 V c).Φ (Fin.last cfg7.N) ⊢ Pipeline.ΦA spec7 c := by
  rw [show (dat7 V c).Φ (Fin.last cfg7.N) = PhiS7 V c (Fin.last cfg7.N).val (Nat.le_of_lt_succ (Fin.last cfg7.N).isLt) from rfl, PhiA7_eq]
  unfold PhiS7
  iintro ⟨⟨⟨%x, -, HS⟩, Hr⟩, Hg⟩
  isplitl [HS Hr]
  · isplitl [HS]
    · iexists x; iexact HS
    iexact Hr
  iexact Hg

end Cert.Kernel.Hand
end
-- ==== Proof.KbMm8.lean ====
import proofs.«120173_j18854906429546_1_alg».proof.Proof.KbMmBody
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-- Window `w`'s block of its array at point `t`. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

theorem lhsBefore8_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem rhsBefore8_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

theorem lhsLive8 : ∀ t : Fin cfg8.N, cfg8.idle 0 (grid8.coords t) = false := by decide +kernel
theorem rhsLive8 : ∀ t : Fin cfg8.N, cfg8.idle 1 (grid8.coords t) = false := by decide +kernel
theorem outRests8 : ∀ t : Fin cfg8.N, ¬mmLast (grid8.coords t) → cfg8.idle 2 (grid8.coords t) = true := by decide +kernel
theorem outKept8 : ∀ t : Fin cfg8.N, ¬mmLast (grid8.coords t) → (cfg8.win 2).flush t = false := by decide +kernel
theorem outLive8 : ∀ t : Fin cfg8.N, mmLast (grid8.coords t) → cfg8.idle 2 (grid8.coords t) = false := by decide +kernel

abbrev accM8 : Memref sig .tc .vmem S1024x128 .f32 := Memref.whole cc8_scratch0
abbrev stA8 (t : Fin cfg8.N) : Memref sig .tc .vmem S1024x1024 .f32 := win8_0.stage (cfg8.slots t 0)
abbrev stB8 (t : Fin cfg8.N) : Memref sig .tc .vmem S1024x128 .f32 := win8_1.stage (cfg8.slots t 1)
abbrev stO8 (t : Fin cfg8.N) : Memref sig .tc .vmem S1024x128 .f32 := win8_2.stage (cfg8.slots t 2)

abbrev others8 (c : Dev nD) : sProp 𝕄 :=
  Pipeline.scopedRestBut (Ix := Unit) (Name := ℕ) (U := UR sig nD τ) (Lvl := ℕ) (Val := Elt F) spec8 c [cc8_scratch0]

theorem entry8_eq (c : Dev nD) :
    (Pipeline.ΦA spec8 c : sProp 𝕄)
      = iprop(iprop(iprop((∃ d, owns (c : Thread nD τ) accM8 fullShare d)) ∗ others8 c) ∗ (∃ r, prngReg c r)) := by
  unfold Pipeline.ΦA; rw [scopedRest8_split]; simp only [accM8, owns_whole]; try rfl

/-- The two factors' blocks at each point. -/
abbrev lhsAt8 (c : Dev nD) (n : ℕ) (hn : n < grid8.N) : Vec F S1024x1024 .f32 := iblk8 V c 0 ⟨n, hn⟩
abbrev rhsAt8 (c : Dev nD) (n : ℕ) (hn : n < grid8.N) : Vec F S1024x128 .f32 := iblk8 V c 1 ⟨n, hn⟩

/-- The invariant between points: the partial sums hold some `x`, which past the first point is the accumulation so far. -/
def carried8 (c : Dev nD) (n : ℕ) (h : n ≤ cfg8.N) : sProp 𝕄 :=
  iprop(iprop((∃ x, ⌜∀ hn : 0 < n, x = mmAcc (lhsAt8 V c) (rhsAt8 V c) (n - 1) (Nat.lt_of_lt_of_le (Nat.sub_lt hn Nat.one_pos) h)⌝ ∗ owns (c : Thread nD τ) accM8 fullShare x) ∗ others8 c) ∗ (∃ r, prngReg c r))

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => mmAcc (lhsAt8 V c) (rhsAt8 V c) t.val t.isLt
  Φ t := carried8 V c t.val (Nat.le_of_lt_succ t.isLt)
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = mmAcc (lhsAt8 V c) (rhsAt8 V c) t.val t.isLt := by dsimp only [dat8]

theorem lhsBefore8 (c : Dev nD) (t : Fin cfg8.N) (d) : (dat8 V c).before 0 t d = iblk8 V c 0 t :=
  lhsBefore8_of V (dat8 V c) (A_eq8 V c 0) (after8_0 V c) t d
theorem rhsBefore8 (c : Dev nD) (t : Fin cfg8.N) (d) : (dat8 V c).before 1 t d = iblk8 V c 1 t :=
  rhsBefore8_of V (dat8 V c) (A_eq8 V c 1) (after8_1 V c) t d

/-- At the last block of the contraction the product's block ends at the partial sums. -/
theorem leaves8_2 (c : Dev nD) (t : Fin cfg8.N) (d) :
    owns (c : Thread nD τ) (stO8 t) fullShare (if mmLast (grid8.coords t) then mmAcc (lhsAt8 V c) (rhsAt8 V c) t.val t.isLt else (dat8 V c).before 2 t d)
      ⊢ (dat8 V c).leavesExact 2 t := by
  by_cases h1 : mmLast (grid8.coords t)
  · rw [if_pos h1, show (dat8 V c).leavesExact 2 t = owns (c : Thread nD τ) (stO8 t) fullShare ((dat8 V c).after 2 t) from by
      unfold Dat.leavesExact; rw [outLive8 t h1], after8_2] <;> exact Idealize.SL.BI.Entails.refl _
  · rw [if_neg h1, Dat.leavesExact_idle (dat8 V c) 2 t (outRests8 t h1) (outKept8 t h1)]
    iintro H; iexists d; iexact H

/-- Every point is one step of the accumulation. -/
theorem sound_body8 (c : Dev nD) (t : Fin cfg8.N) :
    iprop((dat8 V c).Φ t.castSucc ∗ (dat8 V c).owesAt () t.castSucc
      ∗ (∃ d, owns (c : Thread nD τ) (stA8 t) fullShare ((dat8 V c).before 0 t d))
      ∗ (∃ d, owns (c : Thread nD τ) (stB8 t) fullShare ((dat8 V c).before 1 t d))
      ∗ (∃ d, owns (c : Thread nD τ) (stO8 t) fullShare ((dat8 V c).before 2 t d)))
    ⊢ wp frame (wpE (defs₀ (F := F)) Variants.none c none) Set.univ (bodyAt8 t) (fun _ =>
      iprop((dat8 V c).Φ t.succ ∗ (dat8 V c).owesAt () t.succ
        ∗ (dat8 V c).leavesExact 0 t ∗ (dat8 V c).leavesExact 1 t ∗ (dat8 V c).leavesExact 2 t)) := by
  simp only [lhsBefore8, rhsBefore8]
  rw [show (dat8 V c).owesAt () t.succ = (dat8 V c).owesAt () t.castSucc from rfl,
    show (dat8 V c).Φ t.succ = carried8 V c (t.val + 1) t.isLt from rfl,
    show (dat8 V c).Φ t.castSucc = carried8 V c t.val (Nat.le_of_lt t.isLt) from rfl,
    show (dat8 V c).leavesExact 0 t = owns (c : Thread nD τ) (stA8 t) fullShare (iblk8 V c 0 t) from by
      unfold Dat.leavesExact; rw [lhsLive8 t, after8_0],
    show (dat8 V c).leavesExact 1 t = owns (c : Thread nD τ) (stB8 t) fullShare (iblk8 V c 1 t) from by
      unfold Dat.leavesExact; rw [rhsLive8 t, after8_1]]
  unfold carried8 bodyAt8
  rw [mmBody_eq8]
  iintro ⟨⟨⟨⟨%x, %hx, HS⟩, Hr⟩, Hg⟩, Ho, ⟨%d0, HA⟩, ⟨%d1, HB⟩, ⟨%d2, HO⟩⟩
  iapply (mmBody_run c (grid8.coords t) _ _ _ _ _ _ _ x Set.univ _)
  isplitl [HA]; · iexact HA
  isplitl [HB]; · iexact HB
  isplitl [HO]; · iexact HO
  isplitl [HS]; · iexact HS
  iintro ⟨HA, HB, HO, HS⟩
  rw [show mmStep (grid8.coords t) (iblk8 V c 0 t) (iblk8 V c 1 t) x = mmAcc (lhsAt8 V c) (rhsAt8 V c) t.val t.isLt from
    mmAcc_step _ _ t x hx]
  isplitl [HS Hr Hg]
  · isplitl [HS Hr]
    · isplitl [HS]
      · iexists _; isplitr; swap; · iexact HS
        ipureintro; exact fun _ => rfl
      iexact Hr
    iexact Hg
  isplitl [Ho]; · iexact Ho
  isplitl [HA]; · iexact HA
  isplitl [HB]; · iexact HB
  iapply (leaves8_2 V c t d2); iexact HO

theorem body_obligation8 (c : Dev nD) : BodyObligation (dat8 (F := F) V c) (defs₀ (F := F)) Variants.none () Set.univ := fun t => by
  rw [bigSep_W8, bigSep_W8]
  exact sound_body8 V c t

theorem hin8 (c : Dev nD) : Pipeline.ΦA spec8 c ⊢ (dat8 V c).Φ 0 := by
  rw [show (dat8 V c).Φ 0 = carried8 V c 0 (Nat.zero_le _) from rfl, entry8_eq]; unfold carried8
  iintro ⟨⟨⟨%d, HS⟩, Hr⟩, Hg⟩
  isplitl [HS Hr]
  · isplitl [HS]
    · iexists d; isplitr; · ipureintro; exact fun h => absurd h (Nat.lt_irrefl 0)
      iexact HS
    iexact Hr
  iexact Hg

theorem hout8 (c : Dev nD) : (dat8 V c).Φ (Fin.last cfg8.N) ⊢ Pipeline.ΦA spec8 c := by
  rw [show (dat8 V c).Φ (Fin.last cfg8.N) = carried8 V c (Fin.last cfg8.N).val (Nat.le_of_lt_succ (Fin.last cfg8.N).isLt) from rfl, entry8_eq]
  unfold carried8
  iintro ⟨⟨⟨%x, -, HS⟩, Hr⟩, Hg⟩
  isplitl [HS Hr]
  · isplitl [HS]
    · iexists x; iexact HS
    iexact Hr
  iexact Hg

end Cert.Kernel.Hand
end
-- ==== Proof.KbMm9.lean ====
import proofs.«120173_j18854906429546_1_alg».proof.Proof.KbMmBody
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-- Window `w`'s block of its array at point `t`. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

theorem lhsBefore9_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
theorem rhsBefore9_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

theorem lhsLive9 : ∀ t : Fin cfg9.N, cfg9.idle 0 (grid9.coords t) = false := by decide +kernel
theorem rhsLive9 : ∀ t : Fin cfg9.N, cfg9.idle 1 (grid9.coords t) = false := by decide +kernel
theorem outRests9 : ∀ t : Fin cfg9.N, ¬mmLast (grid9.coords t) → cfg9.idle 2 (grid9.coords t) = true := by decide +kernel
theorem outKept9 : ∀ t : Fin cfg9.N, ¬mmLast (grid9.coords t) → (cfg9.win 2).flush t = false := by decide +kernel
theorem outLive9 : ∀ t : Fin cfg9.N, mmLast (grid9.coords t) → cfg9.idle 2 (grid9.coords t) = false := by decide +kernel

abbrev accM9 : Memref sig .tc .vmem S1024x128 .f32 := Memref.whole cc9_scratch0
abbrev stA9 (t : Fin cfg9.N) : Memref sig .tc .vmem S1024x1024 .f32 := win9_0.stage (cfg9.slots t 0)
abbrev stB9 (t : Fin cfg9.N) : Memref sig .tc .vmem S1024x128 .f32 := win9_1.stage (cfg9.slots t 1)
abbrev stO9 (t : Fin cfg9.N) : Memref sig .tc .vmem S1024x128 .f32 := win9_2.stage (cfg9.slots t 2)

abbrev others9 (c : Dev nD) : sProp 𝕄 :=
  Pipeline.scopedRestBut (Ix := Unit) (Name := ℕ) (U := UR sig nD τ) (Lvl := ℕ) (Val := Elt F) spec9 c [cc9_scratch0]

theorem entry9_eq (c : Dev nD) :
    (Pipeline.ΦA spec9 c : sProp 𝕄)
      = iprop(iprop(iprop((∃ d, owns (c : Thread nD τ) accM9 fullShare d)) ∗ others9 c) ∗ (∃ r, prngReg c r)) := by
  unfold Pipeline.ΦA; rw [scopedRest9_split]; simp only [accM9, owns_whole]; try rfl

/-- The two factors' blocks at each point. -/
abbrev lhsAt9 (c : Dev nD) (n : ℕ) (hn : n < grid9.N) : Vec F S1024x1024 .f32 := iblk9 V c 0 ⟨n, hn⟩
abbrev rhsAt9 (c : Dev nD) (n : ℕ) (hn : n < grid9.N) : Vec F S1024x128 .f32 := iblk9 V c 1 ⟨n, hn⟩

/-- The invariant between points: the partial sums hold some `x`, which past the first point is the accumulation so far. -/
def carried9 (c : Dev nD) (n : ℕ) (h : n ≤ cfg9.N) : sProp 𝕄 :=
  iprop(iprop((∃ x, ⌜∀ hn : 0 < n, x = mmAcc (lhsAt9 V c) (rhsAt9 V c) (n - 1) (Nat.lt_of_lt_of_le (Nat.sub_lt hn Nat.one_pos) h)⌝ ∗ owns (c : Thread nD τ) accM9 fullShare x) ∗ others9 c) ∗ (∃ r, prngReg c r))

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => mmAcc (lhsAt9 V c) (rhsAt9 V c) t.val t.isLt
  Φ t := carried9 V c t.val (Nat.le_of_lt_succ t.isLt)
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = mmAcc (lhsAt9 V c) (rhsAt9 V c) t.val t.isLt := by dsimp only [dat9]

theorem lhsBefore9 (c : Dev nD) (t : Fin cfg9.N) (d) : (dat9 V c).before 0 t d = iblk9 V c 0 t :=
  lhsBefore9_of V (dat9 V c) (A_eq9 V c 0) (after9_0 V c) t d
theorem rhsBefore9 (c : Dev nD) (t : Fin cfg9.N) (d) : (dat9 V c).before 1 t d = iblk9 V c 1 t :=
  rhsBefore9_of V (dat9 V c) (A_eq9 V c 1) (after9_1 V c) t d

/-- At the last block of the contraction the product's block ends at the partial sums. -/
theorem leaves9_2 (c : Dev nD) (t : Fin cfg9.N) (d) :
    owns (c : Thread nD τ) (stO9 t) fullShare (if mmLast (grid9.coords t) then mmAcc (lhsAt9 V c) (rhsAt9 V c) t.val t.isLt else (dat9 V c).before 2 t d)
      ⊢ (dat9 V c).leavesExact 2 t := by
  by_cases h1 : mmLast (grid9.coords t)
  · rw [if_pos h1, show (dat9 V c).leavesExact 2 t = owns (c : Thread nD τ) (stO9 t) fullShare ((dat9 V c).after 2 t) from by
      unfold Dat.leavesExact; rw [outLive9 t h1], after9_2] <;> exact Idealize.SL.BI.Entails.refl _
  · rw [if_neg h1, Dat.leavesExact_idle (dat9 V c) 2 t (outRests9 t h1) (outKept9 t h1)]
    iintro H; iexists d; iexact H

/-- Every point is one step of the accumulation. -/
theorem sound_body9 (c : Dev nD) (t : Fin cfg9.N) :
    iprop((dat9 V c).Φ t.castSucc ∗ (dat9 V c).owesAt () t.castSucc
      ∗ (∃ d, owns (c : Thread nD τ) (stA9 t) fullShare ((dat9 V c).before 0 t d))
      ∗ (∃ d, owns (c : Thread nD τ) (stB9 t) fullShare ((dat9 V c).before 1 t d))
      ∗ (∃ d, owns (c : Thread nD τ) (stO9 t) fullShare ((dat9 V c).before 2 t d)))
    ⊢ wp frame (wpE (defs₀ (F := F)) Variants.none c none) Set.univ (bodyAt9 t) (fun _ =>
      iprop((dat9 V c).Φ t.succ ∗ (dat9 V c).owesAt () t.succ
        ∗ (dat9 V c).leavesExact 0 t ∗ (dat9 V c).leavesExact 1 t ∗ (dat9 V c).leavesExact 2 t)) := by
  simp only [lhsBefore9, rhsBefore9]
  rw [show (dat9 V c).owesAt () t.succ = (dat9 V c).owesAt () t.castSucc from rfl,
    show (dat9 V c).Φ t.succ = carried9 V c (t.val + 1) t.isLt from rfl,
    show (dat9 V c).Φ t.castSucc = carried9 V c t.val (Nat.le_of_lt t.isLt) from rfl,
    show (dat9 V c).leavesExact 0 t = owns (c : Thread nD τ) (stA9 t) fullShare (iblk9 V c 0 t) from by
      unfold Dat.leavesExact; rw [lhsLive9 t, after9_0],
    show (dat9 V c).leavesExact 1 t = owns (c : Thread nD τ) (stB9 t) fullShare (iblk9 V c 1 t) from by
      unfold Dat.leavesExact; rw [rhsLive9 t, after9_1]]
  unfold carried9 bodyAt9
  rw [mmBody_eq9]
  iintro ⟨⟨⟨⟨%x, %hx, HS⟩, Hr⟩, Hg⟩, Ho, ⟨%d0, HA⟩, ⟨%d1, HB⟩, ⟨%d2, HO⟩⟩
  iapply (mmBody_run c (grid9.coords t) _ _ _ _ _ _ _ x Set.univ _)
  isplitl [HA]; · iexact HA
  isplitl [HB]; · iexact HB
  isplitl [HO]; · iexact HO
  isplitl [HS]; · iexact HS
  iintro ⟨HA, HB, HO, HS⟩
  rw [show mmStep (grid9.coords t) (iblk9 V c 0 t) (iblk9 V c 1 t) x = mmAcc (lhsAt9 V c) (rhsAt9 V c) t.val t.isLt from
    mmAcc_step _ _ t x hx]
  isplitl [HS Hr Hg]
  · isplitl [HS Hr]
    · isplitl [HS]
      · iexists _; isplitr; swap; · iexact HS
        ipureintro; exact fun _ => rfl
      iexact Hr
    iexact Hg
  isplitl [Ho]; · iexact Ho
  isplitl [HA]; · iexact HA
  isplitl [HB]; · iexact HB
  iapply (leaves9_2 V c t d2); iexact HO

theorem body_obligation9 (c : Dev nD) : BodyObligation (dat9 (F := F) V c) (defs₀ (F := F)) Variants.none () Set.univ := fun t => by
  rw [bigSep_W9, bigSep_W9]
  exact sound_body9 V c t

theorem hin9 (c : Dev nD) : Pipeline.ΦA spec9 c ⊢ (dat9 V c).Φ 0 := by
  rw [show (dat9 V c).Φ 0 = carried9 V c 0 (Nat.zero_le _) from rfl, entry9_eq]; unfold carried9
  iintro ⟨⟨⟨%d, HS⟩, Hr⟩, Hg⟩
  isplitl [HS Hr]
  · isplitl [HS]
    · iexists d; isplitr; · ipureintro; exact fun h => absurd h (Nat.lt_irrefl 0)
      iexact HS
    iexact Hr
  iexact Hg

theorem hout9 (c : Dev nD) : (dat9 V c).Φ (Fin.last cfg9.N) ⊢ Pipeline.ΦA spec9 c := by
  rw [show (dat9 V c).Φ (Fin.last cfg9.N) = carried9 V c (Fin.last cfg9.N).val (Nat.le_of_lt_succ (Fin.last cfg9.N).isLt) from rfl, entry9_eq]
  unfold carried9
  iintro ⟨⟨⟨%x, -, HS⟩, Hr⟩, Hg⟩
  isplitl [HS Hr]
  · isplitl [HS]
    · iexists x; iexact HS
    iexact Hr
  iexact Hg

end Cert.Kernel.Hand
end
-- ==== Proof.LibFold.lean ====
import Idealize.ShloMosaic.Lib.Pipeline.FrameSuffix
noncomputable section
namespace Cert
open Idealize.ShloMosaic Idealize.SL.RA
open Idealize.ShloMosaic.Pipeline (Dat Cfg)
variable {nD : Nat} {τ : Topo} {sig : RefSig} {Val : EltTy → Type} {Λ₀ : Idealize.SL.Sem.Labels}
  {Ix : Type} [DecidableEq Ix] {Name : Type} [DecidableEq Name] {U : Type} [URA U] {Lvl : Type}
  {cfg : Cfg sig Λ₀} {c : Dev nD} (dat : Dat τ Val Ix Name U Lvl cfg c) (V : Valuation τ sig Val)

/-- One step of the fold: `V` with each array of the region at the value the region's data ends with. -/
def foldStep : Valuation τ sig Val := Pipeline.withArrays cfg.spec c V fun w => dat.arrAt w cfg.N

theorem foldStep_arr (hinj : Function.Injective (Pipeline.arrRef cfg.spec)) (w : Fin cfg.W) :
    foldStep dat V (Proc.devRef .tc (Pipeline.arrRef cfg.spec w)) = dat.arrAt w cfg.N :=
  Pipeline.withArrays_arr cfg.spec hinj c V _ w

theorem foldStep_rest (b : Ref sig .tc) (hb : b ∉ Finset.univ.image (Pipeline.arrRef cfg.spec)) :
    foldStep dat V (Proc.devRef .tc b) = V (Proc.devRef .tc b) :=
  Pipeline.withArrays_of_ne cfg.spec c V _ b fun w e => hb (Finset.mem_image.mpr ⟨w, Finset.mem_univ _, e⟩)

/-- An array that is not an output ends at its entry value, so a region with the one output array `o` changes `o` alone. -/
theorem foldStep_keep (hinj : Function.Injective (Pipeline.arrRef cfg.spec))
    (hA : ∀ w, dat.A w = V (Proc.devRef .tc (Pipeline.arrRef cfg.spec w))) {o b : Ref sig .tc}
    (ho : ∀ w, Pipeline.arrRef cfg.spec w ≠ o → (cfg.win w).isOut = false) (hb : b ≠ o) :
    foldStep dat V (Proc.devRef .tc b) = V (Proc.devRef .tc b) := by
  by_cases h : b ∈ Finset.univ.image (Pipeline.arrRef cfg.spec)
  · obtain ⟨w, -, rfl⟩ := Finset.mem_image.mp h
    exact (foldStep_arr dat V hinj w).trans ((dat.arrAt_in w (ho w hb) _).trans (hA w))
  · exact foldStep_rest dat V b h

end Cert
end
-- ==== Proof.KbFold.lean ====
import proofs.«120173_j18854906429546_1_alg».proof.Proof.KbGate0
import proofs.«120173_j18854906429546_1_alg».proof.Proof.KbGate1
import proofs.«120173_j18854906429546_1_alg».proof.Proof.KbGate2
import proofs.«120173_j18854906429546_1_alg».proof.Proof.KbMm3
import proofs.«120173_j18854906429546_1_alg».proof.Proof.KbRes4
import proofs.«120173_j18854906429546_1_alg».proof.Proof.KbRes5
import proofs.«120173_j18854906429546_1_alg».proof.Proof.KbMm6
import proofs.«120173_j18854906429546_1_alg».proof.Proof.KbRes7
import proofs.«120173_j18854906429546_1_alg».proof.Proof.KbMm8
import proofs.«120173_j18854906429546_1_alg».proof.Proof.KbMm9
import proofs.«120173_j18854906429546_1_alg».proof.Proof.LibFold
import proofs.«120173_j18854906429546_1_alg».proof.Proof.Gen.Kernel.Launch
import proofs.«120173_j18854906429546_1_alg».proof.Proof.Gen.Kernel.Skeleton
import proofs.«120173_j18854906429546_1_alg».proof.Proof.Gen.Kernel.Points
import proofs.«120173_j18854906429546_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
noncomputable section
namespace Cert.Kernel.Hand
open Cert.Kernel Cert.Kernel.Gen
open Idealize.ShloMosaic Idealize.ShloMosaic.TcCoe
open Idealize.ShloMosaic.Pipeline (Dat Cfg)
variable {F : FTy → Type} [FloatOps F]

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

def W2 (c : Dev nD) : Valuation τ sig (Elt F) := foldStep (dat0 (V1 m ρ) c) (W1 m ρ c)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (foldStep_arr _ _ launch0.win.arr_inj w).symm
theorem hrest0 (c : Dev nD) : ∀ b, b ∉ Finset.univ.image (Pipeline.arrRef spec0) → V2 m ρ c b = V1 m ρ c b :=
  foldStep_rest (dat0 (V1 m ρ) c) _
theorem W2_keep (c : Dev nD) (b : Ref sig .tc) (hb : b ≠ main_v1) :
    W2 m ρ c (Proc.devRef .tc b) = W1 m ρ c (Proc.devRef .tc b) :=
  foldStep_keep _ _ launch0.win.arr_inj (A_eq0 _ c) (by decide) hb
theorem W2_out (c : Dev nD) : W2 m ρ c (Proc.devRef .tc main_v1) = (dat0 (V1 m ρ) c).arrAt 3 cfg0.N :=
  foldStep_arr _ _ launch0.win.arr_inj 3

def W3 (c : Dev nD) : Valuation τ sig (Elt F) := foldStep (dat1 (V2 m ρ) c) (W2 m ρ c)
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (foldStep_arr _ _ launch1.win.arr_inj w).symm
theorem hrest1 (c : Dev nD) : ∀ b, b ∉ Finset.univ.image (Pipeline.arrRef spec1) → V3 m ρ c b = V2 m ρ c b :=
  foldStep_rest (dat1 (V2 m ρ) c) _
theorem W3_keep (c : Dev nD) (b : Ref sig .tc) (hb : b ≠ main_v2) :
    W3 m ρ c (Proc.devRef .tc b) = W2 m ρ c (Proc.devRef .tc b) :=
  foldStep_keep _ _ launch1.win.arr_inj (A_eq1 _ c) (by decide) hb
theorem W3_out (c : Dev nD) : W3 m ρ c (Proc.devRef .tc main_v2) = (dat1 (V2 m ρ) c).arrAt 3 cfg1.N :=
  foldStep_arr _ _ launch1.win.arr_inj 3

def W4 (c : Dev nD) : Valuation τ sig (Elt F) := foldStep (dat2 (V3 m ρ) c) (W3 m ρ c)
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (foldStep_arr _ _ launch2.win.arr_inj w).symm
theorem hrest2 (c : Dev nD) : ∀ b, b ∉ Finset.univ.image (Pipeline.arrRef spec2) → V4 m ρ c b = V3 m ρ c b :=
  foldStep_rest (dat2 (V3 m ρ) c) _
theorem W4_keep (c : Dev nD) (b : Ref sig .tc) (hb : b ≠ main_v3) :
    W4 m ρ c (Proc.devRef .tc b) = W3 m ρ c (Proc.devRef .tc b) :=
  foldStep_keep _ _ launch2.win.arr_inj (A_eq2 _ c) (by decide) hb
theorem W4_out (c : Dev nD) : W4 m ρ c (Proc.devRef .tc main_v3) = (dat2 (V3 m ρ) c).arrAt 3 cfg2.N :=
  foldStep_arr _ _ launch2.win.arr_inj 3

def W5 (c : Dev nD) : Valuation τ sig (Elt F) := foldStep (dat3 (V4 m ρ) c) (W4 m ρ c)
abbrev V5 : (c : Dev nD) → (b : Ref sig .tc) → Buf (Elt F) ((c : Thread nD τ).loc b) := fun c b => W5 m ρ c b
theorem hF3 (c : Dev nD) (w : Fin cfg3.W) : (dat3 (V4 m ρ) c).arrAt w cfg3.N = V5 m ρ c (Pipeline.arrRef spec3 w) :=
  (foldStep_arr _ _ launch3.win.arr_inj w).symm
theorem hrest3 (c : Dev nD) : ∀ b, b ∉ Finset.univ.image (Pipeline.arrRef spec3) → V5 m ρ c b = V4 m ρ c b :=
  foldStep_rest (dat3 (V4 m ρ) c) _
theorem W5_keep (c : Dev nD) (b : Ref sig .tc) (hb : b ≠ main_v4) :
    W5 m ρ c (Proc.devRef .tc b) = W4 m ρ c (Proc.devRef .tc b) :=
  foldStep_keep _ _ launch3.win.arr_inj (A_eq3 _ c) (by decide) hb
theorem W5_out (c : Dev nD) : W5 m ρ c (Proc.devRef .tc main_v4) = (dat3 (V4 m ρ) c).arrAt 2 cfg3.N :=
  foldStep_arr _ _ launch3.win.arr_inj 2

def W6 (c : Dev nD) : Valuation τ sig (Elt F) := foldStep (dat4 (V5 m ρ) c) (W5 m ρ c)
abbrev V6 : (c : Dev nD) → (b : Ref sig .tc) → Buf (Elt F) ((c : Thread nD τ).loc b) := fun c b => W6 m ρ c b
theorem hF4 (c : Dev nD) (w : Fin cfg4.W) : (dat4 (V5 m ρ) c).arrAt w cfg4.N = V6 m ρ c (Pipeline.arrRef spec4 w) :=
  (foldStep_arr _ _ launch4.win.arr_inj w).symm
theorem hrest4 (c : Dev nD) : ∀ b, b ∉ Finset.univ.image (Pipeline.arrRef spec4) → V6 m ρ c b = V5 m ρ c b :=
  foldStep_rest (dat4 (V5 m ρ) c) _
theorem W6_keep (c : Dev nD) (b : Ref sig .tc) (hb : b ≠ main_v5) :
    W6 m ρ c (Proc.devRef .tc b) = W5 m ρ c (Proc.devRef .tc b) :=
  foldStep_keep _ _ launch4.win.arr_inj (A_eq4 _ c) (by decide) hb
theorem W6_out (c : Dev nD) : W6 m ρ c (Proc.devRef .tc main_v5) = (dat4 (V5 m ρ) c).arrAt 3 cfg4.N :=
  foldStep_arr _ _ launch4.win.arr_inj 3

def W7 (c : Dev nD) : Valuation τ sig (Elt F) :=
  Function.update (W6 m ρ c) (Proc.devRef .tc main_v6) ((dat5 (V6 m ρ) c).arrAt 3 cfg5.N)
theorem W7_out (c : Dev nD) : W7 m ρ c (Proc.devRef .tc main_v6) = (dat5 (V6 m ρ) c).arrAt 3 cfg5.N :=
  Function.update_self ..
theorem W7_keep (c : Dev nD) (b : Ref sig .tc) (hb : b ≠ main_v6) :
    W7 m ρ c (Proc.devRef .tc b) = W6 m ρ c (Proc.devRef .tc b) :=
  Function.update_of_ne (StableHlo.devRef_ne_of_ne hb) ..
abbrev V7 : (c : Dev nD) → (b : Ref sig .tc) → Buf (Elt F) ((c : Thread nD τ).loc b) := fun c b => W7 m ρ c b
/-- Two windows of this region read one array, so its step is stated at the output alone; the arrays it reads keep their values. -/
theorem hF5 (c : Dev nD) : ∀ w : Fin 4, (dat5 (V6 m ρ) c).arrAt w cfg5.N = V7 m ρ c (Pipeline.arrRef spec5 w)
  | 3 => (W7_out m ρ c).symm
  | 0 | 1 | 2 => (((dat5 (V6 m ρ) c).arrAt_in _ rfl _).trans (A_eq5 (V6 m ρ) c _)).trans (W7_keep m ρ c _ (by decide)).symm
theorem hrest5 (c : Dev nD) : ∀ b, b ∉ Finset.univ.image (Pipeline.arrRef spec5) → V7 m ρ c b = V6 m ρ c b :=
  fun b hb => W7_keep m ρ c b fun e => hb (e ▸ Finset.mem_image.mpr ⟨3, Finset.mem_univ _, rfl⟩)

def W8 (c : Dev nD) : Valuation τ sig (Elt F) := foldStep (dat6 (V7 m ρ) c) (W7 m ρ c)
abbrev V8 : (c : Dev nD) → (b : Ref sig .tc) → Buf (Elt F) ((c : Thread nD τ).loc b) := fun c b => W8 m ρ c b
theorem hF6 (c : Dev nD) (w : Fin cfg6.W) : (dat6 (V7 m ρ) c).arrAt w cfg6.N = V8 m ρ c (Pipeline.arrRef spec6 w) :=
  (foldStep_arr _ _ launch6.win.arr_inj w).symm
theorem hrest6 (c : Dev nD) : ∀ b, b ∉ Finset.univ.image (Pipeline.arrRef spec6) → V8 m ρ c b = V7 m ρ c b :=
  foldStep_rest (dat6 (V7 m ρ) c) _
theorem W8_keep (c : Dev nD) (b : Ref sig .tc) (hb : b ≠ main_v7) :
    W8 m ρ c (Proc.devRef .tc b) = W7 m ρ c (Proc.devRef .tc b) :=
  foldStep_keep _ _ launch6.win.arr_inj (A_eq6 _ c) (by decide) hb
theorem W8_out (c : Dev nD) : W8 m ρ c (Proc.devRef .tc main_v7) = (dat6 (V7 m ρ) c).arrAt 2 cfg6.N :=
  foldStep_arr _ _ launch6.win.arr_inj 2

def W9 (c : Dev nD) : Valuation τ sig (Elt F) := foldStep (dat7 (V8 m ρ) c) (W8 m ρ c)
abbrev V9 : (c : Dev nD) → (b : Ref sig .tc) → Buf (Elt F) ((c : Thread nD τ).loc b) := fun c b => W9 m ρ c b
theorem hF7 (c : Dev nD) (w : Fin cfg7.W) : (dat7 (V8 m ρ) c).arrAt w cfg7.N = V9 m ρ c (Pipeline.arrRef spec7 w) :=
  (foldStep_arr _ _ launch7.win.arr_inj w).symm
theorem hrest7 (c : Dev nD) : ∀ b, b ∉ Finset.univ.image (Pipeline.arrRef spec7) → V9 m ρ c b = V8 m ρ c b :=
  foldStep_rest (dat7 (V8 m ρ) c) _
theorem W9_keep (c : Dev nD) (b : Ref sig .tc) (hb : b ≠ main_v8) :
    W9 m ρ c (Proc.devRef .tc b) = W8 m ρ c (Proc.devRef .tc b) :=
  foldStep_keep _ _ launch7.win.arr_inj (A_eq7 _ c) (by decide) hb
theorem W9_out (c : Dev nD) : W9 m ρ c (Proc.devRef .tc main_v8) = (dat7 (V8 m ρ) c).arrAt 3 cfg7.N :=
  foldStep_arr _ _ launch7.win.arr_inj 3

def W10 (c : Dev nD) : Valuation τ sig (Elt F) := foldStep (dat8 (V9 m ρ) c) (W9 m ρ c)
abbrev V10 : (c : Dev nD) → (b : Ref sig .tc) → Buf (Elt F) ((c : Thread nD τ).loc b) := fun c b => W10 m ρ c b
theorem hF8 (c : Dev nD) (w : Fin cfg8.W) : (dat8 (V9 m ρ) c).arrAt w cfg8.N = V10 m ρ c (Pipeline.arrRef spec8 w) :=
  (foldStep_arr _ _ launch8.win.arr_inj w).symm
theorem hrest8 (c : Dev nD) : ∀ b, b ∉ Finset.univ.image (Pipeline.arrRef spec8) → V10 m ρ c b = V9 m ρ c b :=
  foldStep_rest (dat8 (V9 m ρ) c) _
theorem W10_keep (c : Dev nD) (b : Ref sig .tc) (hb : b ≠ main_v9) :
    W10 m ρ c (Proc.devRef .tc b) = W9 m ρ c (Proc.devRef .tc b) :=
  foldStep_keep _ _ launch8.win.arr_inj (A_eq8 _ c) (by decide) hb
theorem W10_out (c : Dev nD) : W10 m ρ c (Proc.devRef .tc main_v9) = (dat8 (V9 m ρ) c).arrAt 2 cfg8.N :=
  foldStep_arr _ _ launch8.win.arr_inj 2

def W11 (c : Dev nD) : Valuation τ sig (Elt F) := foldStep (dat9 (V10 m ρ) c) (W10 m ρ c)
abbrev V11 : (c : Dev nD) → (b : Ref sig .tc) → Buf (Elt F) ((c : Thread nD τ).loc b) := fun c b => W11 m ρ c b
theorem hF9 (c : Dev nD) (w : Fin cfg9.W) : (dat9 (V10 m ρ) c).arrAt w cfg9.N = V11 m ρ c (Pipeline.arrRef spec9 w) :=
  (foldStep_arr _ _ launch9.win.arr_inj w).symm
theorem hrest9 (c : Dev nD) : ∀ b, b ∉ Finset.univ.image (Pipeline.arrRef spec9) → V11 m ρ c b = V10 m ρ c b :=
  foldStep_rest (dat9 (V10 m ρ) c) _
theorem W11_keep (c : Dev nD) (b : Ref sig .tc) (hb : b ≠ main_v10) :
    W11 m ρ c (Proc.devRef .tc b) = W10 m ρ c (Proc.devRef .tc b) :=
  foldStep_keep _ _ launch9.win.arr_inj (A_eq9 _ c) (by decide) hb
theorem W11_out (c : Dev nD) : W11 m ρ c (Proc.devRef .tc main_v10) = (dat9 (V10 m ρ) c).arrAt 2 cfg9.N :=
  foldStep_arr _ _ launch9.win.arr_inj 2

abbrev W12 : Dev nD → Valuation τ sig (Elt F) := fun c => StableHlo.after hostOps10 (W11 m ρ c)

/-- A reference that no item of the fold writes ends at its launch value. -/
theorem W12_of_unwritten (c : Dev nD) (b : Ref sig .tc)
    (h : b ∉ hostOps10_W ∧ b ≠ main_v10 ∧ b ≠ main_v9 ∧ b ≠ main_v8 ∧ b ≠ main_v7 ∧ b ≠ main_v6 ∧ b ≠ main_v5 ∧
      b ≠ main_v4 ∧ b ≠ main_v3 ∧ b ≠ main_v2 ∧ b ≠ main_v1 ∧ b ∉ hostOps0_W) :
    W12 m ρ c (Proc.devRef .tc b) = m ((c : Thread nD τ).loc b) := by
  obtain ⟨e, h11, h10, h9, h8, h7, h6, h5, h4, h3, h2, s⟩ := h
  exact (StableHlo.after_of_writes_sub hostOps10 _ hostOps10_writes e).trans <| (W11_keep m ρ c b h11).trans <|
    (W10_keep m ρ c b h10).trans <| (W9_keep m ρ c b h9).trans <| (W8_keep m ρ c b h8).trans <|
    (W7_keep m ρ c b h7).trans <| (W6_keep m ρ c b h6).trans <| (W5_keep m ρ c b h5).trans <|
    (W4_keep m ρ c b h4).trans <| (W3_keep m ρ c b h3).trans <| (W2_keep m ρ c b h2).trans <|
    StableHlo.after_of_writes_sub hostOps0 _ hostOps0_writes s
theorem W12_main_arg0 (c : Dev nD) : W12 m ρ c (Proc.devRef .tc main_arg0) = m ((c : Thread nD τ).loc main_arg0) :=
  W12_of_unwritten m ρ c _ (by decide)
theorem W12_main_arg1 (c : Dev nD) : W12 m ρ c (Proc.devRef .tc main_arg1) = m ((c : Thread nD τ).loc main_arg1) :=
  W12_of_unwritten m ρ c _ (by decide)
theorem W12_main_arg2 (c : Dev nD) : W12 m ρ c (Proc.devRef .tc main_arg2) = m ((c : Thread nD τ).loc main_arg2) :=
  W12_of_unwritten m ρ c _ (by decide)
theorem W12_main_arg3 (c : Dev nD) : W12 m ρ c (Proc.devRef .tc main_arg3) = m ((c : Thread nD τ).loc main_arg3) :=
  W12_of_unwritten m ρ c _ (by decide)
theorem W12_main_arg4 (c : Dev nD) : W12 m ρ c (Proc.devRef .tc main_arg4) = m ((c : Thread nD τ).loc main_arg4) :=
  W12_of_unwritten m ρ c _ (by decide)
theorem W12_main_arg5 (c : Dev nD) : W12 m ρ c (Proc.devRef .tc main_arg5) = m ((c : Thread nD τ).loc main_arg5) :=
  W12_of_unwritten m ρ c _ (by decide)
theorem W12_main_arg6 (c : Dev nD) : W12 m ρ c (Proc.devRef .tc main_arg6) = m ((c : Thread nD τ).loc main_arg6) :=
  W12_of_unwritten m ρ c _ (by decide)
theorem W12_main_arg7 (c : Dev nD) : W12 m ρ c (Proc.devRef .tc main_arg7) = m ((c : Thread nD τ).loc main_arg7) :=
  W12_of_unwritten m ρ c _ (by decide)
theorem W12_main_arg8 (c : Dev nD) : W12 m ρ c (Proc.devRef .tc main_arg8) = m ((c : Thread nD τ).loc main_arg8) :=
  W12_of_unwritten m ρ c _ (by decide)
theorem W12_main_arg9 (c : Dev nD) : W12 m ρ c (Proc.devRef .tc main_arg9) = m ((c : Thread nD τ).loc main_arg9) :=
  W12_of_unwritten m ρ c _ (by decide)
theorem W12_main_arg10 (c : Dev nD) : W12 m ρ c (Proc.devRef .tc main_arg10) = m ((c : Thread nD τ).loc main_arg10) :=
  W12_of_unwritten m ρ c _ (by decide)
theorem W12_main_arg11 (c : Dev nD) : W12 m ρ c (Proc.devRef .tc main_arg11) = m ((c : Thread nD τ).loc main_arg11) :=
  W12_of_unwritten m ρ c _ (by decide)
theorem W12_main_arg12 (c : Dev nD) : W12 m ρ c (Proc.devRef .tc main_arg12) = m ((c : Thread nD τ).loc main_arg12) :=
  W12_of_unwritten m ρ c _ (by decide)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand
end
-- ==== Proof.KbShare5.lean ====
import proofs.«120173_j18854906429546_1_alg».proof.Proof.Gen.Kernel.Launch
import proofs.«120173_j18854906429546_1_alg».proof.Proof.Gen.Kernel.Skeleton
import proofs.«120173_j18854906429546_1_alg».proof.Proof.Gen.Kernel.Points
import proofs.«120173_j18854906429546_1_alg».proof.Proof.Gen.Kernel.Regions
import proofs.«120173_j18854906429546_1_alg».proof.Proof.KbRes5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

theorem arrImage5 : (Finset.univ.image (Pipeline.arrRef spec5) : Finset (Ref sig .tc))
    = {Pipeline.arrRef spec5 0, Pipeline.arrRef spec5 1, Pipeline.arrRef spec5 3} := by decide

/-- Region 5's arrays window by window: windows 1 and 2 hold the two halves of one array's full share. -/
theorem arrays_eq5 {c : Dev nD} (dat : Dat τ (Elt F) Unit ℕ (UR sig nD τ) ℕ cfg5 c)
    (hq0 : dat.q 0 = fullShare) (hq1 : dat.q 1 = fullShare.left) (hq2 : dat.q 2 = fullShare.right)
    (G : (w : Fin cfg5.W) → Buf (Elt F) ((cfg5.win w).arr.view.loc (c : Thread nD τ))) :
    (dat.arrays G : sProp 𝕄)
      = iprop((((c : Thread nD τ).loc (Pipeline.arrRef spec5 0)) ↦{fullShare} G 0)
          ∗ (((c : Thread nD τ).loc (Pipeline.arrRef spec5 1)) ↦{fullShare.left} G 1)
          ∗ (((c : Thread nD τ).loc (Pipeline.arrRef spec5 2)) ↦{fullShare.right} G 2)
          ∗ (((c : Thread nD τ).loc (Pipeline.arrRef spec5 3)) ↦{fullShare} G 3)) := by
  unfold Dat.arrays
  rw [bigSep_W5, (arr_whole5 0).set_eq_univ, (arr_whole5 1).set_eq_univ, (arr_whole5 3).set_eq_univ,
    show dat.share 0 = fullShare from (if_neg Bool.false_ne_true).trans hq0,
    show dat.share 1 = fullShare.left from (if_neg Bool.false_ne_true).trans hq1,
    show dat.share 2 = fullShare.right from (if_neg Bool.false_ne_true).trans hq2, show dat.share 3 = fullShare from if_pos rfl]

/-- A full share is its two halves, so a core's unscoped buffers are region 5's arrays and the rest, both ways. -/
theorem unscopedBufs_arrays5 {c : Dev nD} (dat : Dat τ (Elt F) Unit ℕ (UR sig nD τ) ℕ cfg5 c)
    (hq0 : dat.q 0 = fullShare) (hq1 : dat.q 1 = fullShare.left) (hq2 : dat.q 2 = fullShare.right)
    (V : (b : Ref sig .tc) → Buf (Elt F) ((c : Thread nD τ).loc b))
    (G : (w : Fin cfg5.W) → Buf (Elt F) ((cfg5.win w).arr.view.loc (c : Thread nD τ)))
    (hG : ∀ w, G w = V (Pipeline.arrRef spec5 w)) :
    (unscopedBufs c V : sProp 𝕄) ⊣⊢ iprop(dat.arrays G ∗ Pipeline.unscopedRest spec5 c V) := by
  have h : (unscopedBufs c V : sProp 𝕄) = iprop(Pipeline.arrBufs spec5 c V ∗ Pipeline.unscopedRest spec5 c V) :=
    Pipeline.unscopedBufs_split₀ (Pipeline.pin (pcfgs (F := F)) adm) 5 winFacts₀5.arr_unscoped c V
  rw [h, Pipeline.arrBufs, arrImage5, bigSep_insert (by decide), bigSep_insert (by decide), bigSep_singleton,
    arrays_eq5 dat hq0 hq1 hq2, hG 0, hG 1, hG 2, hG 3]
  exact sep_congr_left (sep_congr_right ((sep_congr_left (pointsTo_share (PosShare.mem_left_op_right fullShare))).trans sep_assoc))

/-- The join at a valuation that agrees with the entry's off the arrays. -/
theorem unscopedBufs_of_arrays5 {c : Dev nD} (dat : Dat τ (Elt F) Unit ℕ (UR sig nD τ) ℕ cfg5 c)
    (hq0 : dat.q 0 = fullShare) (hq1 : dat.q 1 = fullShare.left) (hq2 : dat.q 2 = fullShare.right)
    (Vin Vout : (b : Ref sig .tc) → Buf (Elt F) ((c : Thread nD τ).loc b))
    (G : (w : Fin cfg5.W) → Buf (Elt F) ((cfg5.win w).arr.view.loc (c : Thread nD τ)))
    (hF : ∀ w, G w = Vout (Pipeline.arrRef spec5 w))
    (hrest : ∀ b, b ∉ Finset.univ.image (Pipeline.arrRef spec5) → Vout b = Vin b) :
    iprop(dat.arrays G ∗ Pipeline.unscopedRest spec5 c Vin) ⊢ (unscopedBufs c Vout : sProp 𝕄) := by
  rw [show (Pipeline.unscopedRest spec5 c Vin : sProp 𝕄) = Pipeline.unscopedRest spec5 c Vout from
    bigSep_congr fun b hb => by rw [hrest b (Finset.mem_sdiff.mp hb).2]]
  exact (unscopedBufs_arrays5 dat hq0 hq1 hq2 Vout G hF).2

end Cert.Kernel.Hand
end
-- ==== Proof.KbSegs.lean ====
import proofs.«120173_j18854906429546_1_alg».proof.Proof.KbFold
import proofs.«120173_j18854906429546_1_alg».proof.Proof.KbShare5
import proofs.«120173_j18854906429546_1_alg».proof.Proof.Gen.Kernel.Launch
import proofs.«120173_j18854906429546_1_alg».proof.Proof.Gen.Kernel.Skeleton
import proofs.«120173_j18854906429546_1_alg».proof.Proof.Gen.Kernel.Points
import proofs.«120173_j18854906429546_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ) (ρ : Dev nD → PrngReg)

def pdats : (p : Fin 10) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V4 m ρ) c
  | ⟨4, _⟩ => fun c => dat4 (V5 m ρ) c
  | ⟨5, _⟩ => fun c => dat5 (V6 m ρ) c
  | ⟨6, _⟩ => fun c => dat6 (V7 m ρ) c
  | ⟨7, _⟩ => fun c => dat7 (V8 m ρ) c
  | ⟨8, _⟩ => fun c => dat8 (V9 m ρ) c
  | ⟨9, _⟩ => fun c => dat9 (V10 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
abbrev Tₙ (c : Dev nD) : sProp 𝕄 := iprop(StableHlo.held (c : Thread nD τ) (Pipeline.ucRefs τ sig) (W12 m ρ c) ∗ ∃ r, prngReg c r)

set_option backward.isDefEq.respectTransparency.types false

/-- One region as a segment of the run, from how its arrays split off the contents before it and join the contents after it, and its invariant's two ends. -/
def segOf (p : Fin 10) (win : Pipeline.WinFacts₀ (pcfgs (F := F) p).spec)
    (block_pos : ∀ w : Fin (Pipeline.pin (pcfgs (F := F)) adm p).W, 0 < ((Pipeline.pin (pcfgs (F := F)) adm p).spec w).block.numel)
    (stage_whole : ∀ (w : Fin (Pipeline.pin (pcfgs (F := F)) adm p).W) (s : Fin ((Pipeline.pin (pcfgs (F := F)) adm p).spec w).nbuf), (((Pipeline.pin (pcfgs (F := F)) adm p).spec w).stage s).IsWhole)
    (hbody : ∀ c, BodyObligation (pdats m ρ p c) (defs₀ (F := F)) 𝒱₀ () Set.univ)
    (h0 : ∀ c t, (pdats m ρ p c).owed t = 0) (hr : ∀ c, (pdats m ρ p c).recorded 0 = Set.univ)
    (hK : (pcfgs (F := F) p).pre.K = 0) (W W' : Dev nD → Valuation τ sig (Elt F))
    (hsplit : ∀ c, (unscopedBufs c (fun b => W c b) : sProp 𝕄)
      ⊢ iprop((pdats m ρ p c).arrays ((pdats m ρ p c).arrAt · 0) ∗ Pipeline.unscopedRest (Pipeline.pin (pcfgs (F := F)) adm p).spec c fun b => W c b))
    (hin : ∀ c, Pipeline.ΦA (Pipeline.pin (pcfgs (F := F)) adm p).spec c ⊢ (pdats m ρ p c).Φ 0)
    (hout : ∀ c, (pdats m ρ p c).Φ (Fin.last (Pipeline.pin (pcfgs (F := F)) adm p).N) ⊢ Pipeline.ΦA (Pipeline.pin (pcfgs (F := F)) adm p).spec c)
    (hjoin : ∀ c, iprop((pdats m ρ p c).arrays ((pdats m ρ p c).arrAt · (Pipeline.pin (pcfgs (F := F)) adm p).N) ∗ Pipeline.unscopedRest (Pipeline.pin (pcfgs (F := F)) adm p).spec c fun b => W c b)
      ⊢ (unscopedBufs c (fun b => W' c b) : sProp 𝕄)) :
    Pipeline.RegionSeg (pcfgs (F := F)) adm (pdats m ρ) () defs₀ 𝒱₀ L lv p where
  win := win
  block_pos := block_pos
  stage_whole := stage_whole
  K := PEmpty
  osem k := k.elim
  ho := Pipeline.OwnSemFacts.none _
  hbody c := (hbody c).loose
  hwaits := Pipeline.hwaits_of_owed_zero _ _ _ _ L lv p h0
  pre c := iprop(StableHlo.held (c : Thread nD τ) (Pipeline.ucRefs τ sig) (W c) ∗ R c)
  post c := iprop(StableHlo.held (c : Thread nD τ) (Pipeline.ucRefs τ sig) (W' c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c fun b => W c b
  hentry c := by
    have hs := hsplit c
    have : IsEmpty (Fin (pcfgs (F := F) p).pre.K) := by rw [hK]; infer_instance
    rw [Pipeline.unscopedBufs_held] at hs
    unfold Pipeline.Dat.owesAt Pipeline.owesWithin Pipeline.prefHeld
    rw [Pipeline.ownSems0_none, h0, Finset.univ_eq_empty, BI.bigSep_empty]
    iintro ⟨⟨Hub, Hp, %O, HO⟩, -, -⟩
    ihave H := hs $$ Hub
    icases H with ⟨Ha, Hrest⟩
    imodintro
    isplitl [Ha]; · iexact Ha
    isplitr; · iempintro
    isplitl [HO]
    · iexists O; isplitr; · ipureintro; exact fun x _ => Or.inl (by rw [hr]; trivial)
      iexact HO
    isplitl [Hp]; · iexact Hp
    iexact Hrest
  hin c := by
    refine .trans ?_ (hin c)
    unfold Pipeline.ΦA
    iintro ⟨Hp, -, Hr⟩
    isplitl [Hr]; · iexact Hr
    iexact Hp
  hout c := by
    rw [Pipeline.ownSems0_none]
    refine (hout c).trans ?_
    unfold Pipeline.ΦA
    iintro ⟨Hr, Hp⟩
    isplitl [Hp]; · iexact Hp
    isplitr; · iempintro
    iexact Hr
  hexit c := by
    have hj := hjoin c
    rw [Pipeline.unscopedBufs_held] at hj
    unfold Pipeline.Dat.owesAt Pipeline.owesWithin
    rw [h0]
    iintro ⟨Ha, ⟨%O, -, HO⟩, HY, Hrest⟩
    imodintro
    isplitl [Ha Hrest]
    · iapply hj; isplitl [Ha] <;> iassumption
    isplitl [HY]; · iexact HY
    iexists O; iexact HO

/-- The same when the region's windows read distinct arrays: the split and the join are the library's. -/
def segOfArrays (p : Fin 10) (win : Pipeline.WinFacts (Pipeline.pin (pcfgs (F := F)) adm p).spec) (harr : ∀ w, ((Pipeline.pin (pcfgs (F := F)) adm p).spec w).arr.IsWhole)
    (block_pos : ∀ w : Fin (Pipeline.pin (pcfgs (F := F)) adm p).W, 0 < ((Pipeline.pin (pcfgs (F := F)) adm p).spec w).block.numel)
    (stage_whole : ∀ (w : Fin (Pipeline.pin (pcfgs (F := F)) adm p).W) (s : Fin ((Pipeline.pin (pcfgs (F := F)) adm p).spec w).nbuf), (((Pipeline.pin (pcfgs (F := F)) adm p).spec w).stage s).IsWhole)
    (hbody : ∀ c, BodyObligation (pdats m ρ p c) (defs₀ (F := F)) 𝒱₀ () Set.univ)
    (h0 : ∀ c t, (pdats m ρ p c).owed t = 0) (hr : ∀ c, (pdats m ρ p c).recorded 0 = Set.univ)
    (hK : (pcfgs (F := F) p).pre.K = 0) (hq : ∀ c w, (pdats m ρ p c).q w = fullShare)
    (W W' : Dev nD → Valuation τ sig (Elt F))
    (hA : ∀ c w, (pdats m ρ p c).A w = W c (Pipeline.arrRef (Pipeline.pin (pcfgs (F := F)) adm p).spec w))
    (hin : ∀ c, Pipeline.ΦA (Pipeline.pin (pcfgs (F := F)) adm p).spec c ⊢ (pdats m ρ p c).Φ 0)
    (hout : ∀ c, (pdats m ρ p c).Φ (Fin.last (Pipeline.pin (pcfgs (F := F)) adm p).N) ⊢ Pipeline.ΦA (Pipeline.pin (pcfgs (F := F)) adm p).spec c)
    (hF : ∀ c w, (pdats m ρ p c).arrAt w (Pipeline.pin (pcfgs (F := F)) adm p).N = W' c (Pipeline.arrRef (Pipeline.pin (pcfgs (F := F)) adm p).spec w))
    (hrest : ∀ c b, b ∉ Finset.univ.image (Pipeline.arrRef (Pipeline.pin (pcfgs (F := F)) adm p).spec) → W' c b = W c b) :
    Pipeline.RegionSeg (pcfgs (F := F)) adm (pdats m ρ) () defs₀ 𝒱₀ L lv p :=
  segOf m ρ p win.to₀ block_pos stage_whole hbody h0 hr hK W W'
    (fun c => Pipeline.arrays_of_unscopedBufs (pcfgs (F := F)) adm (pdats m ρ) win harr c ((pdats m ρ p c).share_full (hq c)) _ (hA c))
    hin hout
    fun c => Pipeline.unscopedBufs_of_arrays (pcfgs (F := F)) adm (Ix := Unit) (Name := ℕ) (U := UR sig nD τ) (Lvl := ℕ) win harr c
      (pdats m ρ) ((pdats m ρ p c).share_full (hq c)) _ _ _ (hF c) (hrest c)

def reg0 : Pipeline.RegionSeg (pcfgs (F := F)) adm (pdats m ρ) () defs₀ 𝒱₀ L lv 0 :=
  segOfArrays m ρ 0 launch0.win launch0.arr_whole launch0.block_pos launch0.stage_whole (body_obligation0 (V1 m ρ))
    (fun _ _ => rfl) (fun _ => rfl) rfl (fun _ _ => rfl) (W1 m ρ) (W2 m ρ)
    (A_eq0 (V1 m ρ)) (hin0 (V1 m ρ)) (hout0 (V1 m ρ)) (hF0 m ρ) (hrest0 m ρ)
def reg1 : Pipeline.RegionSeg (pcfgs (F := F)) adm (pdats m ρ) () defs₀ 𝒱₀ L lv 1 :=
  segOfArrays m ρ 1 launch1.win launch1.arr_whole launch1.block_pos launch1.stage_whole (body_obligation1 (V2 m ρ))
    (fun _ _ => rfl) (fun _ => rfl) rfl (fun _ _ => rfl) (W2 m ρ) (W3 m ρ)
    (A_eq1 (V2 m ρ)) (hin1 (V2 m ρ)) (hout1 (V2 m ρ)) (hF1 m ρ) (hrest1 m ρ)
def reg2 : Pipeline.RegionSeg (pcfgs (F := F)) adm (pdats m ρ) () defs₀ 𝒱₀ L lv 2 :=
  segOfArrays m ρ 2 launch2.win launch2.arr_whole launch2.block_pos launch2.stage_whole (body_obligation2 (V3 m ρ))
    (fun _ _ => rfl) (fun _ => rfl) rfl (fun _ _ => rfl) (W3 m ρ) (W4 m ρ)
    (A_eq2 (V3 m ρ)) (hin2 (V3 m ρ)) (hout2 (V3 m ρ)) (hF2 m ρ) (hrest2 m ρ)
def reg3 : Pipeline.RegionSeg (pcfgs (F := F)) adm (pdats m ρ) () defs₀ 𝒱₀ L lv 3 :=
  segOfArrays m ρ 3 launch3.win launch3.arr_whole launch3.block_pos launch3.stage_whole (body_obligation3 (V4 m ρ))
    (fun _ _ => rfl) (fun _ => rfl) rfl (fun _ _ => rfl) (W4 m ρ) (W5 m ρ)
    (A_eq3 (V4 m ρ)) (hin3 (V4 m ρ)) (hout3 (V4 m ρ)) (hF3 m ρ) (hrest3 m ρ)
def reg4 : Pipeline.RegionSeg (pcfgs (F := F)) adm (pdats m ρ) () defs₀ 𝒱₀ L lv 4 :=
  segOfArrays m ρ 4 launch4.win launch4.arr_whole launch4.block_pos launch4.stage_whole (body_obligation4 (V5 m ρ))
    (fun _ _ => rfl) (fun _ => rfl) rfl (fun _ _ => rfl) (W5 m ρ) (W6 m ρ)
    (A_eq4 (V5 m ρ)) (hin4 (V5 m ρ)) (hout4 (V5 m ρ)) (hF4 m ρ) (hrest4 m ρ)
/-- Two windows of region 5 read one array, so its split and join are proved apart. -/
def reg5 : Pipeline.RegionSeg (pcfgs (F := F)) adm (pdats m ρ) () defs₀ 𝒱₀ L lv 5 :=
  segOf m ρ 5 winFacts₀5 block_pos5 stage_whole5 (body_obligation5 (V6 m ρ)) (fun _ _ => rfl) (fun _ => rfl) rfl (W6 m ρ) (W7 m ρ)
    (fun c => (unscopedBufs_arrays5 (dat5 (V6 m ρ) c) rfl rfl rfl _ _ (A_eq5 (V6 m ρ) c)).1) (hin5 (V6 m ρ)) (hout5 (V6 m ρ))
    fun c => unscopedBufs_of_arrays5 (dat5 (V6 m ρ) c) rfl rfl rfl _ _ _ (hF5 m ρ c) (hrest5 m ρ c)
def reg6 : Pipeline.RegionSeg (pcfgs (F := F)) adm (pdats m ρ) () defs₀ 𝒱₀ L lv 6 :=
  segOfArrays m ρ 6 launch6.win launch6.arr_whole launch6.block_pos launch6.stage_whole (body_obligation6 (V7 m ρ))
    (fun _ _ => rfl) (fun _ => rfl) rfl (fun _ _ => rfl) (W7 m ρ) (W8 m ρ)
    (A_eq6 (V7 m ρ)) (hin6 (V7 m ρ)) (hout6 (V7 m ρ)) (hF6 m ρ) (hrest6 m ρ)
def reg7 : Pipeline.RegionSeg (pcfgs (F := F)) adm (pdats m ρ) () defs₀ 𝒱₀ L lv 7 :=
  segOfArrays m ρ 7 launch7.win launch7.arr_whole launch7.block_pos launch7.stage_whole (body_obligation7 (V8 m ρ))
    (fun _ _ => rfl) (fun _ => rfl) rfl (fun _ _ => rfl) (W8 m ρ) (W9 m ρ)
    (A_eq7 (V8 m ρ)) (hin7 (V8 m ρ)) (hout7 (V8 m ρ)) (hF7 m ρ) (hrest7 m ρ)
def reg8 : Pipeline.RegionSeg (pcfgs (F := F)) adm (pdats m ρ) () defs₀ 𝒱₀ L lv 8 :=
  segOfArrays m ρ 8 launch8.win launch8.arr_whole launch8.block_pos launch8.stage_whole (body_obligation8 (V9 m ρ))
    (fun _ _ => rfl) (fun _ => rfl) rfl (fun _ _ => rfl) (W9 m ρ) (W10 m ρ)
    (A_eq8 (V9 m ρ)) (hin8 (V9 m ρ)) (hout8 (V9 m ρ)) (hF8 m ρ) (hrest8 m ρ)
def reg9 : Pipeline.RegionSeg (pcfgs (F := F)) adm (pdats m ρ) () defs₀ 𝒱₀ L lv 9 :=
  segOfArrays m ρ 9 launch9.win launch9.arr_whole launch9.block_pos launch9.stage_whole (body_obligation9 (V10 m ρ))
    (fun _ _ => rfl) (fun _ => rfl) rfl (fun _ _ => rfl) (W10 m ρ) (W11 m ρ)
    (A_eq9 (V10 m ρ)) (hin9 (V10 m ρ)) (hout9 (V10 m ρ)) (hF9 m ρ) (hrest9 m ρ)

end Cert.Kernel.Hand
end
-- ==== Proof.KbRun.lean ====
import proofs.«120173_j18854906429546_1_alg».proof.Proof.KbSegs
import proofs.«120173_j18854906429546_1_alg».proof.Proof.Gen.Kernel.Launch
import proofs.«120173_j18854906429546_1_alg».proof.Proof.Gen.Kernel.Skeleton
import proofs.«120173_j18854906429546_1_alg».proof.Proof.Gen.Kernel.Points
import proofs.«120173_j18854906429546_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (m : (ℓ : Loc nD τ sig) → Buf (Elt F) ℓ) (ρ : Dev nD → PrngReg)

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .region (reg3 m ρ),
    .region (reg4 m ρ),
    .region (reg5 m ρ),
    .region (reg6 m ρ),
    .region (reg7 m ρ),
    .region (reg8 m ρ),
    .region (reg9 m ρ),
    .host (hseg hostOps10 hostOps10_sub hostOps10_fresh (W11 m ρ)) ]
theorem main_run (c : Dev nD) : main (F := F) c = Pipeline.Seg.run (segs m ρ) := (main_chain c).trans (by chain_rfl)

set_option backward.isDefEq.respectTransparency.types false in
theorem run : θ_run defs (onTc (τ := τ) (main (F := F))) ⟨m, fun _ => 0, ρ⟩
    (fun r => ∀ c : Dev nD, ∀ b ∈ Pipeline.ucRefs τ sig, r.2.mem ((c : Thread nD τ).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun c =>
        show iprop(StableHlo.held (c : Thread nD τ) (Pipeline.ucRefs τ sig) (W12 m ρ c) ∗ R c)
            ⊢ iprop(Tₙ m ρ c ∗ ∃ W, owes (c : Thread nD τ) (0 : CellTallies nD τ sig Unit) W) from by
          iintro ⟨Hh, Hp, HO⟩
          isplitl [Hh Hp]
          · isplitl [Hh]; · iexact Hh
            iexact Hp
          iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨
    (h c _ (mem_uc main_arg0 (by decide))).trans (W12_main_arg0 m ρ c),
    (h c _ (mem_uc main_arg1 (by decide))).trans (W12_main_arg1 m ρ c),
    (h c _ (mem_uc main_arg2 (by decide))).trans (W12_main_arg2 m ρ c),
    (h c _ (mem_uc main_arg3 (by decide))).trans (W12_main_arg3 m ρ c),
    (h c _ (mem_uc main_arg4 (by decide))).trans (W12_main_arg4 m ρ c),
    (h c _ (mem_uc main_arg5 (by decide))).trans (W12_main_arg5 m ρ c),
    (h c _ (mem_uc main_arg6 (by decide))).trans (W12_main_arg6 m ρ c),
    (h c _ (mem_uc main_arg7 (by decide))).trans (W12_main_arg7 m ρ c),
    (h c _ (mem_uc main_arg8 (by decide))).trans (W12_main_arg8 m ρ c),
    (h c _ (mem_uc main_arg9 (by decide))).trans (W12_main_arg9 m ρ c),
    (h c _ (mem_uc main_arg10 (by decide))).trans (W12_main_arg10 m ρ c),
    (h c _ (mem_uc main_arg11 (by decide))).trans (W12_main_arg11 m ρ c),
    (h c _ (mem_uc main_arg12 (by decide))).trans (W12_main_arg12 m ρ c)⟩) (run m ρ)

end Cert.Kernel.Hand
end
-- ==== Proof.KiGateBody.lean ====
import proofs.«120173_j18854906429546_1_alg».proof.Proof.Gen.KernelIdeal.Skeleton
import Idealize.ShloMosaic.Lib.Pipeline.Value
import Idealize.ShloMosaic.Lib.Ring
import Idealize.ShloMosaic.Lib.Tactic
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]

/-- The four whole buffers a gate kernel runs on: a row block of x, W, b, and the output block. -/
structure GateBufs where
  x : Memref sig .tc .vmem S1024x128 .f32
  hx : x.IsWhole
  w : Memref sig .tc .vmem S128x128 .f32
  hw : w.IsWhole
  b : Memref sig .tc .vmem S1x128 .f32
  hb : b.IsWhole
  o : Memref sig .tc .vmem S1024x128 .f32
  ho : o.IsWhole

/-- The gate kernel's body on those buffers at a grid point; the three gate regions all run it. -/
def gateBody (m : GateBufs) (i : grid0.Coords) := cc0__gate_kernel (F := F) i m.x m.hx m.w m.hw m.b m.hb m.o m.ho

theorem gateBody_eq0 {i x hx w hw b hb o ho} : cc0__gate_kernel (F := F) i x hx w hw b hb o ho = gateBody ⟨x, hx, w, hw, b, hb, o, ho⟩ i := rfl
theorem gateBody_eq1 {i x hx w hw b hb o ho} : cc1__gate_kernel (F := F) i x hx w hw b hb o ho = gateBody ⟨x, hx, w, hw, b, hb, o, ho⟩ i := rfl
theorem gateBody_eq2 {i x hx w hw b hb o ho} : cc2__gate_kernel (F := F) i x hx w hw b hb o ho = gateBody ⟨x, hx, w, hw, b, hb, o, ho⟩ i := rfl

/-- The block the body stores: x · σ(x·W + b) on a row block of x. -/
def gateOut (x : Vec F S1024x128 .f32) (w : Vec F S128x128 .f32) (b : Vec F S1x128 .f32) : Vec F S1024x128 .f32 := k0_pay1 x w b

theorem origin2 : (![0, 0] : Fin 2 → Nat) = fun _ => 0 := funext fun a => by fin_cases a <;> rfl

/-- A store through a whole buffer leaves its payload, and a load through one reads the contents. -/
theorem gateOut_eq (x : Vec F S1024x128 .f32) (w : Vec F S128x128 .f32) (b : Vec F S1x128 .f32) :
    View.canon [(⟨Rect.unit ![0, 0] S1024x128.size inb_S1024x128_S1024x128_0_0,
      k0_pay1 (View.ld x (Rect.unit ![0, 0] S1024x128.size inb_S1024x128_S1024x128_0_0)) (View.ld w (Rect.unit ![0, 0] S128x128.size inb_S128x128_S128x128_0_0))
        (View.ld b (Rect.unit ![0, 0] S1x128.size inb_S1x128_S1x128_0_0))⟩ : View.Piece (Elt F) S1024x128 .f32)] = gateOut x w b := by
  rw [View.canon_unit_zero origin2, View.ld_unit_zero (S := S1024x128) origin2, View.ld_unit_zero (S := S128x128) origin2,
    View.ld_unit_zero (S := S1x128) origin2]; rfl

/-- The body's triple: the three inputs come back as found, the output holds their gate, and anything else held passes through. -/
theorem gateBody_obl (c : Dev nD) {m : GateBufs} {i : grid0.Coords} {p : Prog (TpuEff nD τ sig (Elt F) Λ₀ .tc) PUnit}
    (hp : p = gateBody m i) {R R' : sProp (MT nD τ sig Unit (Elt F) ℕ (UR sig nD τ) ℕ)} {D0 D1 D2 D3 : Type}
    {g0 : D0 → Vec F S1024x128 .f32} {g1 : D1 → Vec F S128x128 .f32} {g2 : D2 → Vec F S1x128 .f32} {g3 : D3 → Vec F S1024x128 .f32}
    {x0 : Vec F S1024x128 .f32} {x1 : Vec F S128x128 .f32} {x2 : Vec F S1x128 .f32}
    (h0 : ∀ d, g0 d = x0) (h1 : ∀ d, g1 d = x1) (h2 : ∀ d, g2 d = x2) :
    iprop(R ∗ R' ∗ (∃ d, owns (c : Thread nD τ) m.x fullShare (g0 d)) ∗ (∃ d, owns (c : Thread nD τ) m.w fullShare (g1 d))
        ∗ (∃ d, owns (c : Thread nD τ) m.b fullShare (g2 d)) ∗ (∃ d, owns (c : Thread nD τ) m.o fullShare (g3 d)))
      ⊢ wp frame (wpE (defs₀ (F := F)) Variants.none c none) Set.univ p fun _ =>
          iprop(R ∗ R' ∗ owns (c : Thread nD τ) m.x fullShare x0 ∗ owns (c : Thread nD τ) m.w fullShare x1
            ∗ owns (c : Thread nD τ) m.b fullShare x2 ∗ owns (c : Thread nD τ) m.o fullShare (gateOut x0 x1 x2)) := by
  subst hp
  simp only [h0, h1, h2]
  unfold gateBody; simp only [cc0__gate_kernel_eq_skeleton]; unfold cc0__gate_kernel_skel
  unfold owns
  iintro ⟨HR, HR', ⟨%d0, %f0, %hf0, H0⟩, ⟨%d1, %f1, %hf1, H1⟩, ⟨%d2, %f2, %hf2, H2⟩, ⟨%d3, %f3, -, H3⟩⟩
  subst hf0; subst hf1; subst hf2
  sl_exec
  sl_step
  isplitl [HR]; · iexact HR
  isplitl [HR']; · iexact HR'
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact (View.read_writes_eq_canon _ _ _ (View.cover_of_tiled _ S1024x128.size (by rfl))).trans (gateOut_eq _ _ _)

end Cert.KernelIdeal.Hand
-- ==== Proof.KiGate0.lean ====
import proofs.«120173_j18854906429546_1_alg».proof.Proof.Gen.KernelIdeal.Launch
import proofs.«120173_j18854906429546_1_alg».proof.Proof.Gen.KernelIdeal.Points
import proofs.«120173_j18854906429546_1_alg».proof.Proof.KiGateBody
noncomputable section
namespace Cert.KernelIdeal.Hand
open Cert.KernelIdeal Cert.KernelIdeal.Gen
open Idealize.ShloMosaic Idealize.ShloMosaic.TcCoe
open Idealize.SL Idealize.SL.RA Idealize.SL.BI Idealize.SL.BI.BIBase Idealize.SL.Sem
open Idealize.ShloMosaic.Rounds
open Idealize.ShloMosaic.Pipeline (Dat BodyObligation)
variable {F : FTy → Type} [FloatOps F]
variable (V : (c : Dev nD) → (b : Ref sig .tc) → Buf (Elt F) ((c : Thread nD τ).loc b))

/-- Window `w`'s block of its array at point `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => gateOut (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := rfl

/-- The body's triple applies at every point as it stands. -/
theorem body_obligation0 (c : Dev nD) : BodyObligation (dat0 (F := F) V c) (defs₀ (F := F)) Variants.none () Set.univ := fun t => by
  rw [bigSep_W0, bigSep_W0]
  refine gateBody_obl (p := bodyAt0 t) c gateBody_eq0 (fun d => ?_) (fun d => ?_) (fun d => ?_) <;>
    exact (dat0 V c).before_in_eq_fetched _ rfl (fun _ => rfl) (fun _ _ _ => rfl) (fun _ => rfl) t d

theorem hin0 (c : Dev nD) : Pipeline.ΦA spec0 c ⊢ (dat0 V c).Φ 0 := BIBase.Entails.rfl

theorem hout0 (c : Dev nD) : (dat0 V c).Φ (Fin.last cfg0.N) ⊢ Pipeline.ΦA spec0 c := BIBase.Entails.rfl

end Cert.KernelIdeal.Hand
-- ==== Proof.KiGate1.lean ====
import proofs.«120173_j18854906429546_1_alg».proof.Proof.Gen.KernelIdeal.Launch
import proofs.«120173_j18854906429546_1_alg».proof.Proof.Gen.KernelIdeal.Points
import proofs.«120173_j18854906429546_1_alg».proof.Proof.KiGateBody
noncomputable section
namespace Cert.KernelIdeal.Hand
open Cert.KernelIdeal Cert.KernelIdeal.Gen
open Idealize.ShloMosaic Idealize.ShloMosaic.TcCoe
open Idealize.SL Idealize.SL.RA Idealize.SL.BI Idealize.SL.BI.BIBase Idealize.SL.Sem
open Idealize.ShloMosaic.Rounds
open Idealize.ShloMosaic.Pipeline (Dat BodyObligation)
variable {F : FTy → Type} [FloatOps F]
variable (V : (c : Dev nD) → (b : Ref sig .tc) → Buf (Elt F) ((c : Thread nD τ).loc b))

/-- Window `w`'s block of its array at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => gateOut (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := rfl

/-- The body's triple applies at every point as it stands. -/
theorem body_obligation1 (c : Dev nD) : BodyObligation (dat1 (F := F) V c) (defs₀ (F := F)) Variants.none () Set.univ := fun t => by
  rw [bigSep_W1, bigSep_W1]
  refine gateBody_obl (p := bodyAt1 t) c gateBody_eq1 (fun d => ?_) (fun d => ?_) (fun d => ?_) <;>
    exact (dat1 V c).before_in_eq_fetched _ rfl (fun _ => rfl) (fun _ _ _ => rfl) (fun _ => rfl) t d

theorem hin1 (c : Dev nD) : Pipeline.ΦA spec1 c ⊢ (dat1 V c).Φ 0 := BIBase.Entails.rfl

theorem hout1 (c : Dev nD) : (dat1 V c).Φ (Fin.last cfg1.N) ⊢ Pipeline.ΦA spec1 c := BIBase.Entails.rfl

end Cert.KernelIdeal.Hand
-- ==== Proof.KiGate2.lean ====
import proofs.«120173_j18854906429546_1_alg».proof.Proof.Gen.KernelIdeal.Launch
import proofs.«120173_j18854906429546_1_alg».proof.Proof.Gen.KernelIdeal.Points
import proofs.«120173_j18854906429546_1_alg».proof.Proof.KiGateBody
noncomputable section
namespace Cert.KernelIdeal.Hand
open Cert.KernelIdeal Cert.KernelIdeal.Gen
open Idealize.ShloMosaic Idealize.ShloMosaic.TcCoe
open Idealize.SL Idealize.SL.RA Idealize.SL.BI Idealize.SL.BI.BIBase Idealize.SL.Sem
open Idealize.ShloMosaic.Rounds
open Idealize.ShloMosaic.Pipeline (Dat BodyObligation)
variable {F : FTy → Type} [FloatOps F]
variable (V : (c : Dev nD) → (b : Ref sig .tc) → Buf (Elt F) ((c : Thread nD τ).loc b))

/-- Window `w`'s block of its array at point `t`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => gateOut (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := rfl

/-- The body's triple applies at every point as it stands. -/
theorem body_obligation2 (c : Dev nD) : BodyObligation (dat2 (F := F) V c) (defs₀ (F := F)) Variants.none () Set.univ := fun t => by
  rw [bigSep_W2, bigSep_W2]
  refine gateBody_obl (p := bodyAt2 t) c gateBody_eq2 (fun d => ?_) (fun d => ?_) (fun d => ?_) <;>
    exact (dat2 V c).before_in_eq_fetched _ rfl (fun _ => rfl) (fun _ _ _ => rfl) (fun _ => rfl) t d

theorem hin2 (c : Dev nD) : Pipeline.ΦA spec2 c ⊢ (dat2 V c).Φ 0 := BIBase.Entails.rfl

theorem hout2 (c : Dev nD) : (dat2 V c).Φ (Fin.last cfg2.N) ⊢ Pipeline.ΦA spec2 c := BIBase.Entails.rfl

end Cert.KernelIdeal.Hand
-- ==== Proof.KiMmBody.lean ====
import proofs.«120173_j18854906429546_1_alg».proof.Proof.Gen.KernelIdeal.Launch
import proofs.«120173_j18854906429546_1_alg».proof.Proof.Gen.KernelIdeal.Skeleton
import proofs.«120173_j18854906429546_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-- The product kernel's body; the four product regions all run it. -/
def mmBody (i : grid3.Coords) {mA : Memref sig .tc .vmem S1024x1024 .f32} (hmA : mA.IsWhole) {mB mO mS : Memref sig .tc .vmem S1024x128 .f32}
    (hmB : mB.IsWhole) (hmO : mO.IsWhole) (hmS : mS.IsWhole) := cc3__matmul_kernel (F := F) i mA hmA mB hmB mO hmO mS hmS

theorem mmBody_eq3 (i mA hmA mB hmB mO hmO mS hmS) : cc3__matmul_kernel (F := F) i mA hmA mB hmB mO hmO mS hmS = mmBody i hmA hmB hmO hmS := rfl
theorem mmBody_eq6 (i mA hmA mB hmB mO hmO mS hmS) : cc6__matmul_kernel (F := F) i mA hmA mB hmB mO hmO mS hmS = mmBody i hmA hmB hmO hmS := rfl
theorem mmBody_eq8 (i mA hmA mB hmB mO hmO mS hmS) : cc8__matmul_kernel (F := F) i mA hmA mB hmB mO hmO mS hmS = mmBody i hmA hmB hmO hmS := rfl
theorem mmBody_eq9 (i mA hmA mB hmB mO hmO mS hmS) : cc9__matmul_kernel (F := F) i mA hmA mB hmB mO hmO mS hmS = mmBody i hmA hmB hmO hmS := rfl

/-- Point `t` is row block `t / 8`, block `t % 8` of the contracted axis. -/
abbrev mmFirst (i : grid3.Coords) : Prop :=
  (Scalar.cmpi .ne (Scalar.extui (Scalar.cmpi .eq (BitVec.ofNat 32 (i 1).val) 0#32)) 0#32) = 1#1
theorem mmFirst_iff : ∀ t : Fin grid3.N, mmFirst (grid3.coords t) ↔ t.val % 8 = 0 := by decide +kernel
abbrev mmLast (i : grid3.Coords) : Prop := k3_cond2 i = 1#1
theorem mmLast_iff : ∀ t : Fin grid3.N, mmLast (grid3.coords t) ↔ t.val % 8 = 7 := by decide +kernel

/-- What the body leaves in the partial sums: the two blocks' product added to zero at the first block of the contraction, to what they held elsewhere. -/
def mmStep (i : grid3.Coords) (xA : Vec F S1024x1024 .f32) (xB xS : Vec F S1024x128 .f32) : Vec F S1024x128 .f32 :=
  k3_pay2 (if mmFirst i then k3_pay1 else xS) xA xB

private theorem origin0 : (![0, 0] : Fin 2 → Nat) = fun _ => 0 := funext fun a => by fin_cases a <;> rfl

/-- After a store of a whole block a buffer reads that block, whatever it held and whatever was stored before. -/
private theorem read_store_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) : v.read (Elt F) (v.writes (Elt F) f (⟨Rect.unit off S.size inb, w⟩ :: L)) = w :=
  (View.read_writes_eq_canon v f _ fun y => ⟨_, List.mem_cons_self, View.mem_set_unit_zero h inb y⟩).trans
    (View.canon_cons_unit_zero h inb w L)

set_option maxHeartbeats 1000000 in
/-- The body on any four whole buffers: the factors' blocks as found, the partial sums one step on, the product's block at them at the last block of the contraction. -/
theorem mmBody_run (c : Dev nD) (i : grid3.Coords) {mA : Memref sig .tc .vmem S1024x1024 .f32} (hmA : mA.IsWhole)
    {mB mO mS : Memref sig .tc .vmem S1024x128 .f32} (hmB : mB.IsWhole) (hmO : mO.IsWhole) (hmS : mS.IsWhole)
    (xA : Vec F S1024x1024 .f32) (xB xO xS : Vec F S1024x128 .f32) (E : Set ℕ) (K : PUnit → sProp 𝕄) :
    iprop(owns (c : Thread nD τ) mA fullShare xA ∗ owns (c : Thread nD τ) mB fullShare xB ∗ owns (c : Thread nD τ) mO fullShare xO ∗ owns (c : Thread nD τ) mS fullShare xS
        ∗ (iprop(owns (c : Thread nD τ) mA fullShare xA ∗ owns (c : Thread nD τ) mB fullShare xB
            ∗ owns (c : Thread nD τ) mO fullShare (if mmLast i then mmStep i xA xB xS else xO)
            ∗ owns (c : Thread nD τ) mS fullShare (mmStep i xA xB xS)) -∗ K ⟨⟩))
      ⊢ wp frame (wpE (defs₀ (F := F)) Variants.none c none) E (mmBody i hmA hmB hmO hmS) K := by
  unfold mmBody; simp only [cc3__matmul_kernel_eq_skeleton]; unfold cc3__matmul_kernel_skel
  unfold owns mmStep
  iintro ⟨⟨%fA, %hfA, HA⟩, ⟨%fB, %hfB, HB⟩, ⟨%fO, %hfO, HO⟩, ⟨%fS, %hfS, HS⟩, Hk⟩
  obtain rfl := hmA.eq_unread hfA; obtain rfl := hmB.eq_unread hfB; obtain rfl := hmO.eq_unread hfO; obtain rfl := hmS.eq_unread hfS
  by_cases h0 : mmFirst i <;> by_cases h1 : mmLast i <;>
  · first | rw [if_pos h0] | rw [if_neg h0]
    first | rw [if_pos h1] | rw [if_neg h1]
    sl_exec (disch := first | exact h0 | exact h1)
    sl_step
    iapply Hk
    isplitl [HA]
    · iexists _; isplitr; swap; · iexact HA
      ipureintro; exact hmA.read_unread _
    isplitl [HB]
    · iexists _; isplitr; swap; · iexact HB
      ipureintro; exact hmB.read_unread _
    isplitl [HO]
    · iexists _; isplitr; swap; · iexact HO
      ipureintro
      first
      | (sl_unfold_words
         rw [read_store_whole (S := S1024x128) _ _ origin0]
         simp only [View.readAt_eq_ld, hmA.read_unread, hmB.read_unread, hmS.read_unread, View.readCov_unit_zero (S := S1024x128) _ origin0, View.readCov_cons_toLoadRect, View.ld_unit_zero (S := S1024x128) origin0, View.ld_unit_zero (S := S1024x1024) origin0])
      | exact hmO.read_unread _
    · iexists _; isplitr; swap; · iexact HS
      ipureintro
      sl_unfold_words
      rw [read_store_whole (S := S1024x128) _ _ origin0]
      simp only [View.readAt_eq_ld, hmA.read_unread, hmB.read_unread, hmS.read_unread, View.readCov_unit_zero (S := S1024x128) _ origin0, View.readCov_cons_toLoadRect, View.ld_unit_zero (S := S1024x128) origin0, View.ld_unit_zero (S := S1024x1024) origin0]

/-- THE ACCUMULATION over the points: the partial sums after point `n`, from the two factors' blocks at each point. -/
def mmAcc (A : (n : ℕ) → n < grid3.N → Vec F S1024x1024 .f32) (B : (n : ℕ) → n < grid3.N → Vec F S1024x128 .f32) :
    (n : ℕ) → n < grid3.N → Vec F S1024x128 .f32
  | 0, hn => mmStep (grid3.coords ⟨0, hn⟩) (A 0 hn) (B 0 hn) (B 0 hn)
  | n + 1, hn => mmStep (grid3.coords ⟨n + 1, hn⟩) (A (n + 1) hn) (B (n + 1) hn) (mmAcc A B n (Nat.lt_of_succ_lt hn))

/-- One body step carries it on; at the first point what the partial sums enter at is not read. -/
theorem mmAcc_step (A B) (t : Fin grid3.N) (x : Vec F S1024x128 .f32)
    (hx : ∀ h : 0 < t.val, x = mmAcc A B (t.val - 1) (Nat.lt_of_le_of_lt (Nat.sub_le _ _) t.isLt)) :
    mmStep (grid3.coords t) (A t.val t.isLt) (B t.val t.isLt) x = mmAcc (F := F) A B t.val t.isLt := by
  obtain ⟨n, hn⟩ := t
  cases n with
  | zero =>
    have h := (mmFirst_iff ⟨0, hn⟩).mpr rfl
    unfold mmAcc mmStep; rw [if_pos h, if_pos h]
  | succ n => rw [hx (Nat.succ_pos n)]; rfl

end Cert.KernelIdeal.Hand
end
-- ==== Proof.KiMm3.lean ====
import proofs.«120173_j18854906429546_1_alg».proof.Proof.KiMmBody
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-- Window `w`'s block of its array at point `t`. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem lhsBefore3_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem rhsBefore3_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem lhsLive3 : ∀ t : Fin cfg3.N, cfg3.idle 0 (grid3.coords t) = false := by decide +kernel
theorem rhsLive3 : ∀ t : Fin cfg3.N, cfg3.idle 1 (grid3.coords t) = false := by decide +kernel
theorem outRests3 : ∀ t : Fin cfg3.N, ¬mmLast (grid3.coords t) → cfg3.idle 2 (grid3.coords t) = true := by decide +kernel
theorem outKept3 : ∀ t : Fin cfg3.N, ¬mmLast (grid3.coords t) → (cfg3.win 2).flush t = false := by decide +kernel
theorem outLive3 : ∀ t : Fin cfg3.N, mmLast (grid3.coords t) → cfg3.idle 2 (grid3.coords t) = false := by decide +kernel

abbrev accM3 : Memref sig .tc .vmem S1024x128 .f32 := Memref.whole cc3_scratch0
abbrev stA3 (t : Fin cfg3.N) : Memref sig .tc .vmem S1024x1024 .f32 := win3_0.stage (cfg3.slots t 0)
abbrev stB3 (t : Fin cfg3.N) : Memref sig .tc .vmem S1024x128 .f32 := win3_1.stage (cfg3.slots t 1)
abbrev stO3 (t : Fin cfg3.N) : Memref sig .tc .vmem S1024x128 .f32 := win3_2.stage (cfg3.slots t 2)

abbrev others3 (c : Dev nD) : sProp 𝕄 :=
  Pipeline.scopedRestBut (Ix := Unit) (Name := ℕ) (U := UR sig nD τ) (Lvl := ℕ) (Val := Elt F) spec3 c [cc3_scratch0]

theorem entry3_eq (c : Dev nD) :
    (Pipeline.ΦA spec3 c : sProp 𝕄)
      = iprop(iprop(iprop((∃ d, owns (c : Thread nD τ) accM3 fullShare d)) ∗ others3 c) ∗ (∃ r, prngReg c r)) := by
  unfold Pipeline.ΦA; rw [scopedRest3_split]; simp only [accM3, owns_whole]; try rfl

/-- The two factors' blocks at each point. -/
abbrev lhsAt3 (c : Dev nD) (n : ℕ) (hn : n < grid3.N) : Vec F S1024x1024 .f32 := iblk3 V c 0 ⟨n, hn⟩
abbrev rhsAt3 (c : Dev nD) (n : ℕ) (hn : n < grid3.N) : Vec F S1024x128 .f32 := iblk3 V c 1 ⟨n, hn⟩

/-- The invariant between points: the partial sums hold some `x`, which past the first point is the accumulation so far. -/
def carried3 (c : Dev nD) (n : ℕ) (h : n ≤ cfg3.N) : sProp 𝕄 :=
  iprop(iprop((∃ x, ⌜∀ hn : 0 < n, x = mmAcc (lhsAt3 V c) (rhsAt3 V c) (n - 1) (Nat.lt_of_lt_of_le (Nat.sub_lt hn Nat.one_pos) h)⌝ ∗ owns (c : Thread nD τ) accM3 fullShare x) ∗ others3 c) ∗ (∃ r, prngReg c r))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => mmAcc (lhsAt3 V c) (rhsAt3 V c) t.val t.isLt
  Φ t := carried3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = mmAcc (lhsAt3 V c) (rhsAt3 V c) t.val t.isLt := by dsimp only [dat3]

theorem lhsBefore3 (c : Dev nD) (t : Fin cfg3.N) (d) : (dat3 V c).before 0 t d = iblk3 V c 0 t :=
  lhsBefore3_of V (dat3 V c) (A_eq3 V c 0) (after3_0 V c) t d
theorem rhsBefore3 (c : Dev nD) (t : Fin cfg3.N) (d) : (dat3 V c).before 1 t d = iblk3 V c 1 t :=
  rhsBefore3_of V (dat3 V c) (A_eq3 V c 1) (after3_1 V c) t d

/-- At the last block of the contraction the product's block ends at the partial sums. -/
theorem leaves3_2 (c : Dev nD) (t : Fin cfg3.N) (d) :
    owns (c : Thread nD τ) (stO3 t) fullShare (if mmLast (grid3.coords t) then mmAcc (lhsAt3 V c) (rhsAt3 V c) t.val t.isLt else (dat3 V c).before 2 t d)
      ⊢ (dat3 V c).leavesExact 2 t := by
  by_cases h1 : mmLast (grid3.coords t)
  · rw [if_pos h1, show (dat3 V c).leavesExact 2 t = owns (c : Thread nD τ) (stO3 t) fullShare ((dat3 V c).after 2 t) from by
      unfold Dat.leavesExact; rw [outLive3 t h1], after3_2] <;> exact Idealize.SL.BI.Entails.refl _
  · rw [if_neg h1, Dat.leavesExact_idle (dat3 V c) 2 t (outRests3 t h1) (outKept3 t h1)]
    iintro H; iexists d; iexact H

/-- Every point is one step of the accumulation. -/
theorem sound_body3 (c : Dev nD) (t : Fin cfg3.N) :
    iprop((dat3 V c).Φ t.castSucc ∗ (dat3 V c).owesAt () t.castSucc
      ∗ (∃ d, owns (c : Thread nD τ) (stA3 t) fullShare ((dat3 V c).before 0 t d))
      ∗ (∃ d, owns (c : Thread nD τ) (stB3 t) fullShare ((dat3 V c).before 1 t d))
      ∗ (∃ d, owns (c : Thread nD τ) (stO3 t) fullShare ((dat3 V c).before 2 t d)))
    ⊢ wp frame (wpE (defs₀ (F := F)) Variants.none c none) Set.univ (bodyAt3 t) (fun _ =>
      iprop((dat3 V c).Φ t.succ ∗ (dat3 V c).owesAt () t.succ
        ∗ (dat3 V c).leavesExact 0 t ∗ (dat3 V c).leavesExact 1 t ∗ (dat3 V c).leavesExact 2 t)) := by
  simp only [lhsBefore3, rhsBefore3]
  rw [show (dat3 V c).owesAt () t.succ = (dat3 V c).owesAt () t.castSucc from rfl,
    show (dat3 V c).Φ t.succ = carried3 V c (t.val + 1) t.isLt from rfl,
    show (dat3 V c).Φ t.castSucc = carried3 V c t.val (Nat.le_of_lt t.isLt) from rfl,
    show (dat3 V c).leavesExact 0 t = owns (c : Thread nD τ) (stA3 t) fullShare (iblk3 V c 0 t) from by
      unfold Dat.leavesExact; rw [lhsLive3 t, after3_0],
    show (dat3 V c).leavesExact 1 t = owns (c : Thread nD τ) (stB3 t) fullShare (iblk3 V c 1 t) from by
      unfold Dat.leavesExact; rw [rhsLive3 t, after3_1]]
  unfold carried3 bodyAt3
  rw [mmBody_eq3]
  iintro ⟨⟨⟨⟨%x, %hx, HS⟩, Hr⟩, Hg⟩, Ho, ⟨%d0, HA⟩, ⟨%d1, HB⟩, ⟨%d2, HO⟩⟩
  iapply (mmBody_run c (grid3.coords t) _ _ _ _ _ _ _ x Set.univ _)
  isplitl [HA]; · iexact HA
  isplitl [HB]; · iexact HB
  isplitl [HO]; · iexact HO
  isplitl [HS]; · iexact HS
  iintro ⟨HA, HB, HO, HS⟩
  rw [show mmStep (grid3.coords t) (iblk3 V c 0 t) (iblk3 V c 1 t) x = mmAcc (lhsAt3 V c) (rhsAt3 V c) t.val t.isLt from
    mmAcc_step _ _ t x hx]
  isplitl [HS Hr Hg]
  · isplitl [HS Hr]
    · isplitl [HS]
      · iexists _; isplitr; swap; · iexact HS
        ipureintro; exact fun _ => rfl
      iexact Hr
    iexact Hg
  isplitl [Ho]; · iexact Ho
  isplitl [HA]; · iexact HA
  isplitl [HB]; · iexact HB
  iapply (leaves3_2 V c t d2); iexact HO

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = carried3 V c 0 (Nat.zero_le _) from rfl, entry3_eq]; unfold carried3
  iintro ⟨⟨⟨%d, HS⟩, Hr⟩, Hg⟩
  isplitl [HS Hr]
  · isplitl [HS]
    · iexists d; isplitr; · ipureintro; exact fun h => absurd h (Nat.lt_irrefl 0)
      iexact HS
    iexact Hr
  iexact Hg

theorem hout3 (c : Dev nD) : (dat3 V c).Φ (Fin.last cfg3.N) ⊢ Pipeline.ΦA spec3 c := by
  rw [show (dat3 V c).Φ (Fin.last cfg3.N) = carried3 V c (Fin.last cfg3.N).val (Nat.le_of_lt_succ (Fin.last cfg3.N).isLt) from rfl, entry3_eq]
  unfold carried3
  iintro ⟨⟨⟨%x, -, HS⟩, Hr⟩, Hg⟩
  isplitl [HS Hr]
  · isplitl [HS]
    · iexists x; iexact HS
    iexact Hr
  iexact Hg

end Cert.KernelIdeal.Hand
end
-- ==== Proof.KiResBody.lean ====
import proofs.«120173_j18854906429546_1_alg».proof.Proof.Gen.KernelIdeal.Launch
import proofs.«120173_j18854906429546_1_alg».proof.Proof.Gen.KernelIdeal.Skeleton
import proofs.«120173_j18854906429546_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-- The residual product kernel's body on five whole buffers at a grid point; regions 4 and 7 both run it. -/
def resBody (i : grid4.Coords) {mA : Memref sig .tc .vmem S1024x1024 .f32} (hmA : mA.IsWhole) {mB mR mO mAcc : Memref sig .tc .vmem S1024x128 .f32}
    (hmB : mB.IsWhole) (hmR : mR.IsWhole) (hmO : mO.IsWhole) (hmAcc : mAcc.IsWhole) :=
  cc4__residual_matmul_kernel (F := F) i mA hmA mB hmB mR hmR mO hmO mAcc hmAcc

theorem resBody_eq4 (i mA hmA mB hmB mR hmR mO hmO mAcc hmAcc) :
    cc4__residual_matmul_kernel (F := F) i mA hmA mB hmB mR hmR mO hmO mAcc hmAcc = resBody i hmA hmB hmR hmO hmAcc := rfl
theorem resBody_eq7 (i mA hmA mB hmB mR hmR mO hmO mAcc hmAcc) :
    cc7__residual_matmul_kernel (F := F) i mA hmA mB hmB mR hmR mO hmO mAcc hmAcc = resBody i hmA hmB hmR hmO hmAcc := rfl

/-- Point `t` is row block `t / 4`, step `t % 4`. -/
abbrev resFirst (i : grid4.Coords) : Prop :=
  Scalar.cmpi .ne (Scalar.extui (Scalar.cmpi .eq (BitVec.ofNat 32 (i 1).val) 0#32)) 0#32 = 1#1
theorem resFirst_iff : ∀ t : Fin grid4.N, resFirst (grid4.coords t) ↔ t.val % 4 = 0 := by decide +kernel
abbrev resLast (i : grid4.Coords) : Prop := k4_cond2 i = 1#1
theorem resLast_iff : ∀ t : Fin grid4.N, resLast (grid4.coords t) ↔ t.val % 4 = 3 := by decide +kernel

/-- What the body leaves in the accumulator: the blocks' product added to the residual block at step 0, to what it held elsewhere. -/
def resAcc (i : grid4.Coords) (xA : Vec F S1024x1024 .f32) (xB xR xS : Vec F S1024x128 .f32) : Vec F S1024x128 .f32 :=
  k4_pay2 (if resFirst i then k4_pay1 xR else xS) xA xB

theorem origin0 : (![0, 0] : Fin 2 → Nat) = fun _ => 0 := funext fun a => by fin_cases a <;> rfl

/-- After a store of a whole block a buffer reads that block, whatever it held and whatever was stored before. -/
theorem read_store_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) : v.read (Elt F) (v.writes (Elt F) f (⟨Rect.unit off S.size inb, w⟩ :: L)) = w :=
  (View.read_writes_eq_canon v f _ fun y => ⟨_, List.mem_cons_self, View.mem_set_unit_zero h inb y⟩).trans
    (View.canon_cons_unit_zero h inb w L)

set_option maxHeartbeats 1000000 in
/-- The body on any five whole buffers: inputs as found, the accumulator one step on, the result's block at it at step 3. -/
theorem resBody_run (c : Dev nD) (i : grid4.Coords) {mA : Memref sig .tc .vmem S1024x1024 .f32} (hmA : mA.IsWhole)
    {mB mR mO mAcc : Memref sig .tc .vmem S1024x128 .f32} (hmB : mB.IsWhole) (hmR : mR.IsWhole) (hmO : mO.IsWhole) (hmAcc : mAcc.IsWhole)
    (xA : Vec F S1024x1024 .f32) (xB xR xO xS : Vec F S1024x128 .f32) (E : Set ℕ) (K : PUnit → sProp 𝕄) :
    iprop(owns (c : Thread nD τ) mA fullShare xA ∗ owns (c : Thread nD τ) mB fullShare xB ∗ owns (c : Thread nD τ) mR fullShare xR
        ∗ owns (c : Thread nD τ) mO fullShare xO ∗ owns (c : Thread nD τ) mAcc fullShare xS
        ∗ (iprop(owns (c : Thread nD τ) mA fullShare xA ∗ owns (c : Thread nD τ) mB fullShare xB ∗ owns (c : Thread nD τ) mR fullShare xR
            ∗ owns (c : Thread nD τ) mO fullShare (if resLast i then resAcc i xA xB xR xS else xO)
            ∗ owns (c : Thread nD τ) mAcc fullShare (resAcc i xA xB xR xS)) -∗ K ⟨⟩))
      ⊢ wp frame (wpE (defs₀ (F := F)) Variants.none c none) E (resBody i hmA hmB hmR hmO hmAcc) K := by
  unfold resBody; simp only [cc4__residual_matmul_kernel_eq_skeleton]; unfold cc4__residual_matmul_kernel_skel
  unfold owns resAcc
  iintro ⟨⟨%fA, %hfA, HA⟩, ⟨%fB, %hfB, HB⟩, ⟨%fR, %hfR, HR⟩, ⟨%fO, %hfO, HO⟩, ⟨%fS, %hfS, HS⟩, Hk⟩
  obtain rfl := hmA.eq_unread hfA; obtain rfl := hmB.eq_unread hfB; obtain rfl := hmR.eq_unread hfR
  obtain rfl := hmO.eq_unread hfO; obtain rfl := hmAcc.eq_unread hfS
  by_cases h0 : resFirst i <;> by_cases h1 : resLast i <;>
  · first | rw [if_pos h0] | rw [if_neg h0]
    first | rw [if_pos h1] | rw [if_neg h1]
    sl_exec (disch := first | exact h0 | exact h1)
    sl_step
    iapply Hk
    isplitl [HA]
    · iexists _; isplitr; swap; · iexact HA
      ipureintro; exact hmA.read_unread _
    isplitl [HB]
    · iexists _; isplitr; swap; · iexact HB
      ipureintro; exact hmB.read_unread _
    isplitl [HR]
    · iexists _; isplitr; swap; · iexact HR
      ipureintro; exact hmR.read_unread _
    isplitl [HO]
    · iexists _; isplitr; swap; · iexact HO
      ipureintro
      first
      | (sl_unfold_words
         rw [read_store_whole (S := S1024x128) _ _ origin0]
         simp only [View.readAt_eq_ld, hmA.read_unread, hmB.read_unread, hmR.read_unread, hmAcc.read_unread, View.readCov_cons_toLoadRect, View.ld_unit_zero (S := S1024x128) origin0, View.ld_unit_zero (S := S1024x1024) origin0])
      | exact hmO.read_unread _
    · iexists _; isplitr; swap; · iexact HS
      ipureintro
      sl_unfold_words
      rw [read_store_whole (S := S1024x128) _ _ origin0]
      simp only [View.readAt_eq_ld, hmA.read_unread, hmB.read_unread, hmR.read_unread, hmAcc.read_unread, View.readCov_cons_toLoadRect, View.ld_unit_zero (S := S1024x128) origin0, View.ld_unit_zero (S := S1024x1024) origin0]

/-- THE ACCUMULATION over the points: the accumulator after point `n`, from the three inputs' blocks at each point. -/
def resAccAt (A : (n : ℕ) → n < grid4.N → Vec F S1024x1024 .f32) (B R : (n : ℕ) → n < grid4.N → Vec F S1024x128 .f32) :
    (n : ℕ) → n < grid4.N → Vec F S1024x128 .f32
  | 0, hn => resAcc (grid4.coords ⟨0, hn⟩) (A 0 hn) (B 0 hn) (R 0 hn) (R 0 hn)
  | n + 1, hn => resAcc (grid4.coords ⟨n + 1, hn⟩) (A (n + 1) hn) (B (n + 1) hn) (R (n + 1) hn) (resAccAt A B R n (Nat.lt_of_succ_lt hn))

/-- One body step carries it on; at the first point what the accumulator enters at is not read. -/
theorem resAccAt_step (A B R) (t : Fin grid4.N) (x : Vec F S1024x128 .f32)
    (hx : ∀ h : 0 < t.val, x = resAccAt A B R (t.val - 1) (Nat.lt_of_le_of_lt (Nat.sub_le _ _) t.isLt)) :
    resAcc (grid4.coords t) (A t.val t.isLt) (B t.val t.isLt) (R t.val t.isLt) x = resAccAt A B R t.val t.isLt := by
  obtain ⟨n, hn⟩ := t
  cases n with
  | zero =>
    have h := (resFirst_iff ⟨0, hn⟩).mpr rfl
    unfold resAccAt resAcc; rw [if_pos h, if_pos h]
  | succ n => rw [hx (Nat.succ_pos n)]; rfl

end Cert.KernelIdeal.Hand
end
-- ==== Proof.KiRes4.lean ====
import proofs.«120173_j18854906429546_1_alg».proof.Proof.KiResBody
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-- Window `w`'s block of its array at point `t`. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem live4_0 : ∀ t : Fin cfg4.N, cfg4.idle 0 (grid4.coords t) = false := by decide +kernel
theorem live4_1 : ∀ t : Fin cfg4.N, cfg4.idle 1 (grid4.coords t) = false := by decide +kernel
theorem live4_2 : ∀ t : Fin cfg4.N, cfg4.idle 2 (grid4.coords t) = false := by decide +kernel
theorem idle4_3 : ∀ t : Fin cfg4.N, ¬resLast (grid4.coords t) → cfg4.idle 3 (grid4.coords t) = true := by decide +kernel
theorem noFlush4_3 : ∀ t : Fin cfg4.N, ¬resLast (grid4.coords t) → (cfg4.win 3).flush t = false := by decide +kernel
theorem live4_3 : ∀ t : Fin cfg4.N, resLast (grid4.coords t) → cfg4.idle 3 (grid4.coords t) = false := by decide +kernel

abbrev scM4 : Memref sig .tc .vmem S1024x128 .f32 := Memref.whole cc4_scratch0
abbrev restBut4 (c : Dev nD) : sProp 𝕄 :=
  Pipeline.scopedRestBut (Ix := Unit) (Name := ℕ) (U := UR sig nD τ) (Lvl := ℕ) (Val := Elt F) spec4 c [cc4_scratch0]

theorem PhiA4_eq (c : Dev nD) :
    (Pipeline.ΦA spec4 c : sProp 𝕄)
      = iprop(iprop((∃ d, owns (c : Thread nD τ) scM4 fullShare d) ∗ restBut4 c) ∗ (∃ r, prngReg c r)) := by
  unfold Pipeline.ΦA; rw [scopedRest4_split]; simp only [scM4, owns_whole]; try rfl

/-- The accumulator after point `n`: the accumulation of the region's three block families. -/
def acc4 (c : Dev nD) : (n : ℕ) → n < cfg4.N → Vec F S1024x128 .f32 :=
  resAccAt (fun n hn => iblk4 V c 0 ⟨n, hn⟩) (fun n hn => iblk4 V c 1 ⟨n, hn⟩) (fun n hn => iblk4 V c 2 ⟨n, hn⟩)

/-- The invariant between points: the accumulator holds some `x`, which past the first point is the accumulation so far. -/
def PhiS4 (c : Dev nD) (n : ℕ) (h : n ≤ cfg4.N) : sProp 𝕄 :=
  iprop(iprop((∃ x, ⌜∀ hn : 0 < n, x = acc4 V c (n - 1) (by omega)⌝ ∗ owns (c : Thread nD τ) scM4 fullShare x) ∗ restBut4 c) ∗ (∃ r, prngReg c r))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => acc4 V c t.val t.isLt
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = acc4 V c t.val t.isLt := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; rfl) t d).trans rfl
theorem before4_2 (c : Dev nD) (t : Fin cfg4.N) (d) : (dat4 V c).before 2 t d = iblk4 V c 2 t :=
  ((dat4 V c).before_in_eq_fetched 2 rfl (fun _ => rfl) (fun _ _ _ => rfl) (fun t => by rw [after4_2]; rfl) t d).trans rfl

/-- At step 3 the result's block ends at the accumulator. -/
theorem leaves4_3 (c : Dev nD) (t : Fin cfg4.N) (d) :
    owns (c : Thread nD τ) (st4_3 t) fullShare (if resLast (grid4.coords t) then acc4 V c t.val t.isLt else (dat4 V c).before 3 t d)
      ⊢ (dat4 V c).leavesExact 3 t := by
  by_cases h1 : resLast (grid4.coords t)
  · rw [if_pos h1, show (dat4 V c).leavesExact 3 t = owns (c : Thread nD τ) (st4_3 t) fullShare ((dat4 V c).after 3 t) from by
      unfold Dat.leavesExact; rw [live4_3 t h1], after4_3]
  · rw [if_neg h1, Dat.leavesExact_idle (dat4 V c) 3 t (idle4_3 t h1) (noFlush4_3 t h1)]
    iintro H; iexists d; iexact H

/-- Every point is one step of the accumulation. -/
theorem sound_body4 (c : Dev nD) (t : Fin cfg4.N) :
    iprop((dat4 V c).Φ t.castSucc ∗ (dat4 V c).owesAt () t.castSucc
      ∗ (∃ d, owns (c : Thread nD τ) (st4_0 t) fullShare ((dat4 V c).before 0 t d))
      ∗ (∃ d, owns (c : Thread nD τ) (st4_1 t) fullShare ((dat4 V c).before 1 t d))
      ∗ (∃ d, owns (c : Thread nD τ) (st4_2 t) fullShare ((dat4 V c).before 2 t d))
      ∗ (∃ d, owns (c : Thread nD τ) (st4_3 t) fullShare ((dat4 V c).before 3 t d)))
    ⊢ wp frame (wpE (defs₀ (F := F)) Variants.none c none) Set.univ (bodyAt4 t) (fun _ =>
      iprop((dat4 V c).Φ t.succ ∗ (dat4 V c).owesAt () t.succ
        ∗ (dat4 V c).leavesExact 0 t ∗ (dat4 V c).leavesExact 1 t ∗ (dat4 V c).leavesExact 2 t ∗ (dat4 V c).leavesExact 3 t)) := by
  simp only [before4_0, before4_1, before4_2]
  rw [show (dat4 V c).owesAt () t.succ = (dat4 V c).owesAt () t.castSucc from rfl,
    show (dat4 V c).Φ t.succ = PhiS4 V c (t.val + 1) t.isLt from rfl,
    show (dat4 V c).Φ t.castSucc = PhiS4 V c t.val (Nat.le_of_lt t.isLt) from rfl,
    show (dat4 V c).leavesExact 0 t = owns (c : Thread nD τ) (st4_0 t) fullShare (iblk4 V c 0 t) from by
      unfold Dat.leavesExact; rw [live4_0 t, after4_0],
    show (dat4 V c).leavesExact 1 t = owns (c : Thread nD τ) (st4_1 t) fullShare (iblk4 V c 1 t) from by
      unfold Dat.leavesExact; rw [live4_1 t, after4_1],
    show (dat4 V c).leavesExact 2 t = owns (c : Thread nD τ) (st4_2 t) fullShare (iblk4 V c 2 t) from by
      unfold Dat.leavesExact; rw [live4_2 t, after4_2]]
  unfold PhiS4 bodyAt4; rw [resBody_eq4]
  iintro ⟨⟨⟨⟨%x, %hx, HS⟩, Hr⟩, Hg⟩, Ho, ⟨%d0, HA⟩, ⟨%d1, HB⟩, ⟨%d2, HR⟩, ⟨%d3, HO⟩⟩
  iapply (resBody_run c (grid4.coords t) _ _ _ _ _ _ _ _ _ x Set.univ _)
  isplitl [HA]; · iexact HA
  isplitl [HB]; · iexact HB
  isplitl [HR]; · iexact HR
  isplitl [HO]; · iexact HO
  isplitl [HS]; · iexact HS
  iintro ⟨HA, HB, HR, HO, HS⟩
  rw [show resAcc (grid4.coords t) (iblk4 V c 0 t) (iblk4 V c 1 t) (iblk4 V c 2 t) x = acc4 V c t.val t.isLt from
    resAccAt_step _ _ _ t x hx]
  isplitl [HS Hr Hg]
  · isplitl [HS Hr]
    · isplitl [HS]
      · iexists _; isplitr; swap; · iexact HS
        ipureintro; exact fun _ => rfl
      iexact Hr
    iexact Hg
  isplitl [Ho]; · iexact Ho
  isplitl [HA]; · iexact HA
  isplitl [HB]; · iexact HB
  isplitl [HR]; · iexact HR
  iapply (leaves4_3 V c t d3); iexact HO

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = PhiS4 V c 0 (Nat.zero_le _) from rfl, PhiA4_eq]; unfold PhiS4
  iintro ⟨⟨⟨%d, HS⟩, Hr⟩, Hg⟩
  isplitl [HS Hr]
  · isplitl [HS]
    · iexists d; isplitr; · ipureintro; exact fun h => absurd h (Nat.lt_irrefl 0)
      iexact HS
    iexact Hr
  iexact Hg

theorem hout4 (c : Dev nD) : (dat4 V c).Φ (Fin.last cfg4.N) ⊢ Pipeline.ΦA spec4 c := by
  rw [show (dat4 V c).Φ (Fin.last cfg4.N) = PhiS4 V c (Fin.last cfg4.N).val (Nat.le_of_lt_succ (Fin.last cfg4.N).isLt) from rfl, PhiA4_eq]
  unfold PhiS4
  iintro ⟨⟨⟨%x, -, HS⟩, Hr⟩, Hg⟩
  isplitl [HS Hr]
  · isplitl [HS]
    · iexists x; iexact HS
    iexact Hr
  iexact Hg

end Cert.KernelIdeal.Hand
end
-- ==== Proof.KiRes5Body.lean ====
import proofs.«120173_j18854906429546_1_alg».proof.Proof.KiResBody
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-- Point `t` is row block `t / 8`, step `t % 8`. -/
abbrev resFirst5 (i : grid5.Coords) : Prop :=
  Scalar.cmpi .ne (Scalar.extui (Scalar.cmpi .eq (BitVec.ofNat 32 (i 1).val) 0#32)) 0#32 = 1#1
theorem resFirst5_iff : ∀ t : Fin grid5.N, resFirst5 (grid5.coords t) ↔ t.val % 8 = 0 := by decide +kernel
abbrev resLast5 (i : grid5.Coords) : Prop := k5_cond2 i = 1#1
theorem resLast5_iff : ∀ t : Fin grid5.N, resLast5 (grid5.coords t) ↔ t.val % 8 = 7 := by decide +kernel

/-- What the body leaves in the accumulator: the blocks' product added to the residual block at step 0, to what it held elsewhere. -/
def resAcc5 (i : grid5.Coords) (xA : Vec F S1024x1024 .f32) (xB xR xS : Vec F S1024x128 .f32) : Vec F S1024x128 .f32 :=
  k5_pay2 (if resFirst5 i then k5_pay1 xR else xS) xA xB

set_option maxHeartbeats 1000000 in
/-- The body on any five whole buffers: inputs as found, the accumulator one step on, the result's block at it at step 7. -/
theorem resRun5 (c : Dev nD) (i : grid5.Coords) {mA : Memref sig .tc .vmem S1024x1024 .f32} (hmA : mA.IsWhole)
    {mB mR mO mAcc : Memref sig .tc .vmem S1024x128 .f32} (hmB : mB.IsWhole) (hmR : mR.IsWhole) (hmO : mO.IsWhole) (hmAcc : mAcc.IsWhole)
    (xA : Vec F S1024x1024 .f32) (xB xR xO xS : Vec F S1024x128 .f32) (E : Set ℕ) (K : PUnit → sProp 𝕄) :
    iprop(owns (c : Thread nD τ) mA fullShare xA ∗ owns (c : Thread nD τ) mB fullShare xB ∗ owns (c : Thread nD τ) mR fullShare xR
        ∗ owns (c : Thread nD τ) mO fullShare xO ∗ owns (c : Thread nD τ) mAcc fullShare xS
        ∗ (iprop(owns (c : Thread nD τ) mA fullShare xA ∗ owns (c : Thread nD τ) mB fullShare xB ∗ owns (c : Thread nD τ) mR fullShare xR
            ∗ owns (c : Thread nD τ) mO fullShare (if resLast5 i then resAcc5 i xA xB xR xS else xO)
            ∗ owns (c : Thread nD τ) mAcc fullShare (resAcc5 i xA xB xR xS)) -∗ K ⟨⟩))
      ⊢ wp frame (wpE (defs₀ (F := F)) Variants.none c none) E (cc5__residual_matmul_kernel i mA hmA mB hmB mR hmR mO hmO mAcc hmAcc) K := by
  simp only [cc5__residual_matmul_kernel_eq_skeleton]; unfold cc5__residual_matmul_kernel_skel
  unfold owns resAcc5
  iintro ⟨⟨%fA, %hfA, HA⟩, ⟨%fB, %hfB, HB⟩, ⟨%fR, %hfR, HR⟩, ⟨%fO, %hfO, HO⟩, ⟨%fS, %hfS, HS⟩, Hk⟩
  obtain rfl := hmA.eq_unread hfA; obtain rfl := hmB.eq_unread hfB; obtain rfl := hmR.eq_unread hfR
  obtain rfl := hmO.eq_unread hfO; obtain rfl := hmAcc.eq_unread hfS
  by_cases h0 : resFirst5 i <;> by_cases h1 : resLast5 i <;>
  · first | rw [if_pos h0] | rw [if_neg h0]
    first | rw [if_pos h1] | rw [if_neg h1]
    sl_exec (disch := first | exact h0 | exact h1)
    sl_step
    iapply Hk
    isplitl [HA]
    · iexists _; isplitr; swap; · iexact HA
      ipureintro; exact hmA.read_unread _
    isplitl [HB]
    · iexists _; isplitr; swap; · iexact HB
      ipureintro; exact hmB.read_unread _
    isplitl [HR]
    · iexists _; isplitr; swap; · iexact HR
      ipureintro; exact hmR.read_unread _
    isplitl [HO]
    · iexists _; isplitr; swap; · iexact HO
      ipureintro
      first
      | (sl_unfold_words
         rw [read_store_whole (S := S1024x128) _ _ origin0]
         simp only [View.readAt_eq_ld, hmA.read_unread, hmB.read_unread, hmR.read_unread, hmAcc.read_unread, View.readCov_cons_toLoadRect, View.ld_unit_zero (S := S1024x128) origin0, View.ld_unit_zero (S := S1024x1024) origin0])
      | exact hmO.read_unread _
    · iexists _; isplitr; swap; · iexact HS
      ipureintro
      sl_unfold_words
      rw [read_store_whole (S := S1024x128) _ _ origin0]
      simp only [View.readAt_eq_ld, hmA.read_unread, hmB.read_unread, hmR.read_unread, hmAcc.read_unread, View.readCov_cons_toLoadRect, View.ld_unit_zero (S := S1024x128) origin0, View.ld_unit_zero (S := S1024x1024) origin0]

/-- THE ACCUMULATION over the points: the accumulator after point `n`, from the three inputs' blocks at each point. -/
def resAccAt5 (A : (n : ℕ) → n < grid5.N → Vec F S1024x1024 .f32) (B R : (n : ℕ) → n < grid5.N → Vec F S1024x128 .f32) :
    (n : ℕ) → n < grid5.N → Vec F S1024x128 .f32
  | 0, hn => resAcc5 (grid5.coords ⟨0, hn⟩) (A 0 hn) (B 0 hn) (R 0 hn) (R 0 hn)
  | n + 1, hn => resAcc5 (grid5.coords ⟨n + 1, hn⟩) (A (n + 1) hn) (B (n + 1) hn) (R (n + 1) hn) (resAccAt5 A B R n (Nat.lt_of_succ_lt hn))

/-- One body step carries it on; at the first point what the accumulator enters at is not read. -/
theorem resAccAt5_step (A B R) (t : Fin grid5.N) (x : Vec F S1024x128 .f32)
    (hx : ∀ h : 0 < t.val, x = resAccAt5 A B R (t.val - 1) (Nat.lt_of_le_of_lt (Nat.sub_le _ _) t.isLt)) :
    resAcc5 (grid5.coords t) (A t.val t.isLt) (B t.val t.isLt) (R t.val t.isLt) x = resAccAt5 A B R t.val t.isLt := by
  obtain ⟨n, hn⟩ := t
  cases n with
  | zero =>
    have h := (resFirst5_iff ⟨0, hn⟩).mpr rfl
    unfold resAccAt5 resAcc5; rw [if_pos h, if_pos h]
  | succ n => rw [hx (Nat.succ_pos n)]; rfl

end Cert.KernelIdeal.Hand
end
-- ==== Proof.KiRes5.lean ====
import proofs.«120173_j18854906429546_1_alg».proof.Proof.KiRes5Body
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-- Window `w`'s block of its array at point `t`. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem live5_0 : ∀ t : Fin cfg5.N, cfg5.idle 0 (grid5.coords t) = false := by decide +kernel
theorem live5_1 : ∀ t : Fin cfg5.N, cfg5.idle 1 (grid5.coords t) = false := by decide +kernel
theorem live5_2 : ∀ t : Fin cfg5.N, cfg5.idle 2 (grid5.coords t) = false := by decide +kernel
theorem idle5_3 : ∀ t : Fin cfg5.N, ¬resLast5 (grid5.coords t) → cfg5.idle 3 (grid5.coords t) = true := by decide +kernel
theorem noFlush5_3 : ∀ t : Fin cfg5.N, ¬resLast5 (grid5.coords t) → (cfg5.win 3).flush t = false := by decide +kernel
theorem live5_3 : ∀ t : Fin cfg5.N, resLast5 (grid5.coords t) → cfg5.idle 3 (grid5.coords t) = false := by decide +kernel

abbrev scM5 : Memref sig .tc .vmem S1024x128 .f32 := Memref.whole cc5_scratch0
abbrev restBut5 (c : Dev nD) : sProp 𝕄 :=
  Pipeline.scopedRestBut (Ix := Unit) (Name := ℕ) (U := UR sig nD τ) (Lvl := ℕ) (Val := Elt F) spec5 c [cc5_scratch0]

theorem PhiA5_eq (c : Dev nD) :
    (Pipeline.ΦA spec5 c : sProp 𝕄)
      = iprop(iprop((∃ d, owns (c : Thread nD τ) scM5 fullShare d) ∗ restBut5 c) ∗ (∃ r, prngReg c r)) := by
  unfold Pipeline.ΦA; rw [scopedRest5_split]; simp only [scM5, owns_whole]; try rfl

/-- The accumulator after point `n`: the accumulation of the region's three block families. -/
def acc5 (c : Dev nD) : (n : ℕ) → n < cfg5.N → Vec F S1024x128 .f32 :=
  resAccAt5 (fun n hn => iblk5 V c 0 ⟨n, hn⟩) (fun n hn => iblk5 V c 1 ⟨n, hn⟩) (fun n hn => iblk5 V c 2 ⟨n, hn⟩)

/-- The invariant between points: the accumulator holds some `x`, which past the first point is the accumulation so far. -/
def PhiS5 (c : Dev nD) (n : ℕ) (h : n ≤ cfg5.N) : sProp 𝕄 :=
  iprop(iprop((∃ x, ⌜∀ hn : 0 < n, x = acc5 V c (n - 1) (by omega)⌝ ∗ owns (c : Thread nD τ) scM5 fullShare x) ∗ restBut5 c) ∗ (∃ r, prngReg c r))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => acc5 V c t.val t.isLt
  Φ t := PhiS5 V c t.val (Nat.le_of_lt_succ t.isLt)
  q := fun | 1 => fullShare.left | 2 => fullShare.right | _ => fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = acc5 V c t.val t.isLt := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun t => by rw [after5_0]; rfl) t d).trans rfl
theorem before5_1 (c : Dev nD) (t : Fin cfg5.N) (d) : (dat5 V c).before 1 t d = iblk5 V c 1 t :=
  ((dat5 V c).before_in_eq_fetched 1 rfl (fun _ => rfl) (fun _ _ _ => rfl) (fun t => by rw [after5_1]; rfl) t d).trans rfl
theorem before5_2 (c : Dev nD) (t : Fin cfg5.N) (d) : (dat5 V c).before 2 t d = iblk5 V c 2 t :=
  ((dat5 V c).before_in_eq_fetched 2 rfl (fun _ => rfl) (fun _ _ _ => rfl) (fun t => by rw [after5_2]; rfl) t d).trans rfl

/-- At step 7 the result's block ends at the accumulator. -/
theorem leaves5_3 (c : Dev nD) (t : Fin cfg5.N) (d) :
    owns (c : Thread nD τ) (st5_3 t) fullShare (if resLast5 (grid5.coords t) then acc5 V c t.val t.isLt else (dat5 V c).before 3 t d)
      ⊢ (dat5 V c).leavesExact 3 t := by
  by_cases h1 : resLast5 (grid5.coords t)
  · rw [if_pos h1, show (dat5 V c).leavesExact 3 t = owns (c : Thread nD τ) (st5_3 t) fullShare ((dat5 V c).after 3 t) from by
      unfold Dat.leavesExact; rw [live5_3 t h1], after5_3]
  · rw [if_neg h1, Dat.leavesExact_idle (dat5 V c) 3 t (idle5_3 t h1) (noFlush5_3 t h1)]
    iintro H; iexists d; iexact H

/-- Every point is one step of the accumulation. -/
theorem sound_body5 (c : Dev nD) (t : Fin cfg5.N) :
    iprop((dat5 V c).Φ t.castSucc ∗ (dat5 V c).owesAt () t.castSucc
      ∗ (∃ d, owns (c : Thread nD τ) (st5_0 t) fullShare ((dat5 V c).before 0 t d))
      ∗ (∃ d, owns (c : Thread nD τ) (st5_1 t) fullShare ((dat5 V c).before 1 t d))
      ∗ (∃ d, owns (c : Thread nD τ) (st5_2 t) fullShare ((dat5 V c).before 2 t d))
      ∗ (∃ d, owns (c : Thread nD τ) (st5_3 t) fullShare ((dat5 V c).before 3 t d)))
    ⊢ wp frame (wpE (defs₀ (F := F)) Variants.none c none) Set.univ (bodyAt5 t) (fun _ =>
      iprop((dat5 V c).Φ t.succ ∗ (dat5 V c).owesAt () t.succ
        ∗ (dat5 V c).leavesExact 0 t ∗ (dat5 V c).leavesExact 1 t ∗ (dat5 V c).leavesExact 2 t ∗ (dat5 V c).leavesExact 3 t)) := by
  simp only [before5_0, before5_1, before5_2]
  rw [show (dat5 V c).owesAt () t.succ = (dat5 V c).owesAt () t.castSucc from rfl,
    show (dat5 V c).Φ t.succ = PhiS5 V c (t.val + 1) t.isLt from rfl,
    show (dat5 V c).Φ t.castSucc = PhiS5 V c t.val (Nat.le_of_lt t.isLt) from rfl,
    show (dat5 V c).leavesExact 0 t = owns (c : Thread nD τ) (st5_0 t) fullShare (iblk5 V c 0 t) from by
      unfold Dat.leavesExact; rw [live5_0 t, after5_0],
    show (dat5 V c).leavesExact 1 t = owns (c : Thread nD τ) (st5_1 t) fullShare (iblk5 V c 1 t) from by
      unfold Dat.leavesExact; rw [live5_1 t, after5_1],
    show (dat5 V c).leavesExact 2 t = owns (c : Thread nD τ) (st5_2 t) fullShare (iblk5 V c 2 t) from by
      unfold Dat.leavesExact; rw [live5_2 t, after5_2]]
  unfold PhiS5 bodyAt5
  iintro ⟨⟨⟨⟨%x, %hx, HS⟩, Hr⟩, Hg⟩, Ho, ⟨%d0, HA⟩, ⟨%d1, HB⟩, ⟨%d2, HR⟩, ⟨%d3, HO⟩⟩
  iapply (resRun5 c (grid5.coords t) _ _ _ _ _ _ _ _ _ x Set.univ _)
  isplitl [HA]; · iexact HA
  isplitl [HB]; · iexact HB
  isplitl [HR]; · iexact HR
  isplitl [HO]; · iexact HO
  isplitl [HS]; · iexact HS
  iintro ⟨HA, HB, HR, HO, HS⟩
  rw [show resAcc5 (grid5.coords t) (iblk5 V c 0 t) (iblk5 V c 1 t) (iblk5 V c 2 t) x = acc5 V c t.val t.isLt from
    resAccAt5_step _ _ _ t x hx]
  isplitl [HS Hr Hg]
  · isplitl [HS Hr]
    · isplitl [HS]
      · iexists _; isplitr; swap; · iexact HS
        ipureintro; exact fun _ => rfl
      iexact Hr
    iexact Hg
  isplitl [Ho]; · iexact Ho
  isplitl [HA]; · iexact HA
  isplitl [HB]; · iexact HB
  isplitl [HR]; · iexact HR
  iapply (leaves5_3 V c t d3); iexact HO

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := by
  rw [show (dat5 V c).Φ 0 = PhiS5 V c 0 (Nat.zero_le _) from rfl, PhiA5_eq]; unfold PhiS5
  iintro ⟨⟨⟨%d, HS⟩, Hr⟩, Hg⟩
  isplitl [HS Hr]
  · isplitl [HS]
    · iexists d; isplitr; · ipureintro; exact fun h => absurd h (Nat.lt_irrefl 0)
      iexact HS
    iexact Hr
  iexact Hg

theorem hout5 (c : Dev nD) : (dat5 V c).Φ (Fin.last cfg5.N) ⊢ Pipeline.ΦA spec5 c := by
  rw [show (dat5 V c).Φ (Fin.last cfg5.N) = PhiS5 V c (Fin.last cfg5.N).val (Nat.le_of_lt_succ (Fin.last cfg5.N).isLt) from rfl, PhiA5_eq]
  unfold PhiS5
  iintro ⟨⟨⟨%x, -, HS⟩, Hr⟩, Hg⟩
  isplitl [HS Hr]
  · isplitl [HS]
    · iexists x; iexact HS
    iexact Hr
  iexact Hg

end Cert.KernelIdeal.Hand
end
-- ==== Proof.KiMm6.lean ====
import proofs.«120173_j18854906429546_1_alg».proof.Proof.KiMmBody
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-- Window `w`'s block of its array at point `t`. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem lhsBefore6_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem rhsBefore6_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem lhsLive6 : ∀ t : Fin cfg6.N, cfg6.idle 0 (grid6.coords t) = false := by decide +kernel
theorem rhsLive6 : ∀ t : Fin cfg6.N, cfg6.idle 1 (grid6.coords t) = false := by decide +kernel
theorem outRests6 : ∀ t : Fin cfg6.N, ¬mmLast (grid6.coords t) → cfg6.idle 2 (grid6.coords t) = true := by decide +kernel
theorem outKept6 : ∀ t : Fin cfg6.N, ¬mmLast (grid6.coords t) → (cfg6.win 2).flush t = false := by decide +kernel
theorem outLive6 : ∀ t : Fin cfg6.N, mmLast (grid6.coords t) → cfg6.idle 2 (grid6.coords t) = false := by decide +kernel

abbrev accM6 : Memref sig .tc .vmem S1024x128 .f32 := Memref.whole cc6_scratch0
abbrev stA6 (t : Fin cfg6.N) : Memref sig .tc .vmem S1024x1024 .f32 := win6_0.stage (cfg6.slots t 0)
abbrev stB6 (t : Fin cfg6.N) : Memref sig .tc .vmem S1024x128 .f32 := win6_1.stage (cfg6.slots t 1)
abbrev stO6 (t : Fin cfg6.N) : Memref sig .tc .vmem S1024x128 .f32 := win6_2.stage (cfg6.slots t 2)

abbrev others6 (c : Dev nD) : sProp 𝕄 :=
  Pipeline.scopedRestBut (Ix := Unit) (Name := ℕ) (U := UR sig nD τ) (Lvl := ℕ) (Val := Elt F) spec6 c [cc6_scratch0]

theorem entry6_eq (c : Dev nD) :
    (Pipeline.ΦA spec6 c : sProp 𝕄)
      = iprop(iprop(iprop((∃ d, owns (c : Thread nD τ) accM6 fullShare d)) ∗ others6 c) ∗ (∃ r, prngReg c r)) := by
  unfold Pipeline.ΦA; rw [scopedRest6_split]; simp only [accM6, owns_whole]; try rfl

/-- The two factors' blocks at each point. -/
abbrev lhsAt6 (c : Dev nD) (n : ℕ) (hn : n < grid6.N) : Vec F S1024x1024 .f32 := iblk6 V c 0 ⟨n, hn⟩
abbrev rhsAt6 (c : Dev nD) (n : ℕ) (hn : n < grid6.N) : Vec F S1024x128 .f32 := iblk6 V c 1 ⟨n, hn⟩

/-- The invariant between points: the partial sums hold some `x`, which past the first point is the accumulation so far. -/
def carried6 (c : Dev nD) (n : ℕ) (h : n ≤ cfg6.N) : sProp 𝕄 :=
  iprop(iprop((∃ x, ⌜∀ hn : 0 < n, x = mmAcc (lhsAt6 V c) (rhsAt6 V c) (n - 1) (Nat.lt_of_lt_of_le (Nat.sub_lt hn Nat.one_pos) h)⌝ ∗ owns (c : Thread nD τ) accM6 fullShare x) ∗ others6 c) ∗ (∃ r, prngReg c r))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => mmAcc (lhsAt6 V c) (rhsAt6 V c) t.val t.isLt
  Φ t := carried6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = mmAcc (lhsAt6 V c) (rhsAt6 V c) t.val t.isLt := by dsimp only [dat6]

theorem lhsBefore6 (c : Dev nD) (t : Fin cfg6.N) (d) : (dat6 V c).before 0 t d = iblk6 V c 0 t :=
  lhsBefore6_of V (dat6 V c) (A_eq6 V c 0) (after6_0 V c) t d
theorem rhsBefore6 (c : Dev nD) (t : Fin cfg6.N) (d) : (dat6 V c).before 1 t d = iblk6 V c 1 t :=
  rhsBefore6_of V (dat6 V c) (A_eq6 V c 1) (after6_1 V c) t d

/-- At the last block of the contraction the product's block ends at the partial sums. -/
theorem leaves6_2 (c : Dev nD) (t : Fin cfg6.N) (d) :
    owns (c : Thread nD τ) (stO6 t) fullShare (if mmLast (grid6.coords t) then mmAcc (lhsAt6 V c) (rhsAt6 V c) t.val t.isLt else (dat6 V c).before 2 t d)
      ⊢ (dat6 V c).leavesExact 2 t := by
  by_cases h1 : mmLast (grid6.coords t)
  · rw [if_pos h1, show (dat6 V c).leavesExact 2 t = owns (c : Thread nD τ) (stO6 t) fullShare ((dat6 V c).after 2 t) from by
      unfold Dat.leavesExact; rw [outLive6 t h1], after6_2] <;> exact Idealize.SL.BI.Entails.refl _
  · rw [if_neg h1, Dat.leavesExact_idle (dat6 V c) 2 t (outRests6 t h1) (outKept6 t h1)]
    iintro H; iexists d; iexact H

/-- Every point is one step of the accumulation. -/
theorem sound_body6 (c : Dev nD) (t : Fin cfg6.N) :
    iprop((dat6 V c).Φ t.castSucc ∗ (dat6 V c).owesAt () t.castSucc
      ∗ (∃ d, owns (c : Thread nD τ) (stA6 t) fullShare ((dat6 V c).before 0 t d))
      ∗ (∃ d, owns (c : Thread nD τ) (stB6 t) fullShare ((dat6 V c).before 1 t d))
      ∗ (∃ d, owns (c : Thread nD τ) (stO6 t) fullShare ((dat6 V c).before 2 t d)))
    ⊢ wp frame (wpE (defs₀ (F := F)) Variants.none c none) Set.univ (bodyAt6 t) (fun _ =>
      iprop((dat6 V c).Φ t.succ ∗ (dat6 V c).owesAt () t.succ
        ∗ (dat6 V c).leavesExact 0 t ∗ (dat6 V c).leavesExact 1 t ∗ (dat6 V c).leavesExact 2 t)) := by
  simp only [lhsBefore6, rhsBefore6]
  rw [show (dat6 V c).owesAt () t.succ = (dat6 V c).owesAt () t.castSucc from rfl,
    show (dat6 V c).Φ t.succ = carried6 V c (t.val + 1) t.isLt from rfl,
    show (dat6 V c).Φ t.castSucc = carried6 V c t.val (Nat.le_of_lt t.isLt) from rfl,
    show (dat6 V c).leavesExact 0 t = owns (c : Thread nD τ) (stA6 t) fullShare (iblk6 V c 0 t) from by
      unfold Dat.leavesExact; rw [lhsLive6 t, after6_0],
    show (dat6 V c).leavesExact 1 t = owns (c : Thread nD τ) (stB6 t) fullShare (iblk6 V c 1 t) from by
      unfold Dat.leavesExact; rw [rhsLive6 t, after6_1]]
  unfold carried6 bodyAt6
  rw [mmBody_eq6]
  iintro ⟨⟨⟨⟨%x, %hx, HS⟩, Hr⟩, Hg⟩, Ho, ⟨%d0, HA⟩, ⟨%d1, HB⟩, ⟨%d2, HO⟩⟩
  iapply (mmBody_run c (grid6.coords t) _ _ _ _ _ _ _ x Set.univ _)
  isplitl [HA]; · iexact HA
  isplitl [HB]; · iexact HB
  isplitl [HO]; · iexact HO
  isplitl [HS]; · iexact HS
  iintro ⟨HA, HB, HO, HS⟩
  rw [show mmStep (grid6.coords t) (iblk6 V c 0 t) (iblk6 V c 1 t) x = mmAcc (lhsAt6 V c) (rhsAt6 V c) t.val t.isLt from
    mmAcc_step _ _ t x hx]
  isplitl [HS Hr Hg]
  · isplitl [HS Hr]
    · isplitl [HS]
      · iexists _; isplitr; swap; · iexact HS
        ipureintro; exact fun _ => rfl
      iexact Hr
    iexact Hg
  isplitl [Ho]; · iexact Ho
  isplitl [HA]; · iexact HA
  isplitl [HB]; · iexact HB
  iapply (leaves6_2 V c t d2); iexact HO

theorem body_obligation6 (c : Dev nD) : BodyObligation (dat6 (F := F) V c) (defs₀ (F := F)) Variants.none () Set.univ := fun t => by
  rw [bigSep_W6, bigSep_W6]
  exact sound_body6 V c t

theorem hin6 (c : Dev nD) : Pipeline.ΦA spec6 c ⊢ (dat6 V c).Φ 0 := by
  rw [show (dat6 V c).Φ 0 = carried6 V c 0 (Nat.zero_le _) from rfl, entry6_eq]; unfold carried6
  iintro ⟨⟨⟨%d, HS⟩, Hr⟩, Hg⟩
  isplitl [HS Hr]
  · isplitl [HS]
    · iexists d; isplitr; · ipureintro; exact fun h => absurd h (Nat.lt_irrefl 0)
      iexact HS
    iexact Hr
  iexact Hg

theorem hout6 (c : Dev nD) : (dat6 V c).Φ (Fin.last cfg6.N) ⊢ Pipeline.ΦA spec6 c := by
  rw [show (dat6 V c).Φ (Fin.last cfg6.N) = carried6 V c (Fin.last cfg6.N).val (Nat.le_of_lt_succ (Fin.last cfg6.N).isLt) from rfl, entry6_eq]
  unfold carried6
  iintro ⟨⟨⟨%x, -, HS⟩, Hr⟩, Hg⟩
  isplitl [HS Hr]
  · isplitl [HS]
    · iexists x; iexact HS
    iexact Hr
  iexact Hg

end Cert.KernelIdeal.Hand
end
-- ==== Proof.KiRes7.lean ====
import proofs.«120173_j18854906429546_1_alg».proof.Proof.KiResBody
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-- Window `w`'s block of its array at point `t`. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem live7_0 : ∀ t : Fin cfg7.N, cfg7.idle 0 (grid7.coords t) = false := by decide +kernel
theorem live7_1 : ∀ t : Fin cfg7.N, cfg7.idle 1 (grid7.coords t) = false := by decide +kernel
theorem live7_2 : ∀ t : Fin cfg7.N, cfg7.idle 2 (grid7.coords t) = false := by decide +kernel
theorem idle7_3 : ∀ t : Fin cfg7.N, ¬resLast (grid7.coords t) → cfg7.idle 3 (grid7.coords t) = true := by decide +kernel
theorem noFlush7_3 : ∀ t : Fin cfg7.N, ¬resLast (grid7.coords t) → (cfg7.win 3).flush t = false := by decide +kernel
theorem live7_3 : ∀ t : Fin cfg7.N, resLast (grid7.coords t) → cfg7.idle 3 (grid7.coords t) = false := by decide +kernel

abbrev scM7 : Memref sig .tc .vmem S1024x128 .f32 := Memref.whole cc7_scratch0
abbrev restBut7 (c : Dev nD) : sProp 𝕄 :=
  Pipeline.scopedRestBut (Ix := Unit) (Name := ℕ) (U := UR sig nD τ) (Lvl := ℕ) (Val := Elt F) spec7 c [cc7_scratch0]

theorem PhiA7_eq (c : Dev nD) :
    (Pipeline.ΦA spec7 c : sProp 𝕄)
      = iprop(iprop((∃ d, owns (c : Thread nD τ) scM7 fullShare d) ∗ restBut7 c) ∗ (∃ r, prngReg c r)) := by
  unfold Pipeline.ΦA; rw [scopedRest7_split]; simp only [scM7, owns_whole]; try rfl

/-- The accumulator after point `n`: the accumulation of the region's three block families. -/
def acc7 (c : Dev nD) : (n : ℕ) → n < cfg7.N → Vec F S1024x128 .f32 :=
  resAccAt (fun n hn => iblk7 V c 0 ⟨n, hn⟩) (fun n hn => iblk7 V c 1 ⟨n, hn⟩) (fun n hn => iblk7 V c 2 ⟨n, hn⟩)

/-- The invariant between points: the accumulator holds some `x`, which past the first point is the accumulation so far. -/
def PhiS7 (c : Dev nD) (n : ℕ) (h : n ≤ cfg7.N) : sProp 𝕄 :=
  iprop(iprop((∃ x, ⌜∀ hn : 0 < n, x = acc7 V c (n - 1) (by omega)⌝ ∗ owns (c : Thread nD τ) scM7 fullShare x) ∗ restBut7 c) ∗ (∃ r, prngReg c r))

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => acc7 V c t.val t.isLt
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = acc7 V c t.val t.isLt := by dsimp only [dat7]

theorem before7_0 (c : Dev nD) (t : Fin cfg7.N) (d) : (dat7 V c).before 0 t d = iblk7 V c 0 t :=
  ((dat7 V c).before_in_eq_fetched 0 rfl (fun _ => rfl) (fun _ _ _ => rfl) (fun t => by rw [after7_0]; rfl) t d).trans rfl
theorem before7_1 (c : Dev nD) (t : Fin cfg7.N) (d) : (dat7 V c).before 1 t d = iblk7 V c 1 t :=
  ((dat7 V c).before_in_eq_fetched 1 rfl (fun _ => rfl) (fun _ _ _ => rfl) (fun t => by rw [after7_1]; rfl) t d).trans rfl
theorem before7_2 (c : Dev nD) (t : Fin cfg7.N) (d) : (dat7 V c).before 2 t d = iblk7 V c 2 t :=
  ((dat7 V c).before_in_eq_fetched 2 rfl (fun _ => rfl) (fun _ _ _ => rfl) (fun t => by rw [after7_2]; rfl) t d).trans rfl

/-- At step 3 the result's block ends at the accumulator. -/
theorem leaves7_3 (c : Dev nD) (t : Fin cfg7.N) (d) :
    owns (c : Thread nD τ) (st7_3 t) fullShare (if resLast (grid7.coords t) then acc7 V c t.val t.isLt else (dat7 V c).before 3 t d)
      ⊢ (dat7 V c).leavesExact 3 t := by
  by_cases h1 : resLast (grid7.coords t)
  · rw [if_pos h1, show (dat7 V c).leavesExact 3 t = owns (c : Thread nD τ) (st7_3 t) fullShare ((dat7 V c).after 3 t) from by
      unfold Dat.leavesExact; rw [live7_3 t h1], after7_3]
  · rw [if_neg h1, Dat.leavesExact_idle (dat7 V c) 3 t (idle7_3 t h1) (noFlush7_3 t h1)]
    iintro H; iexists d; iexact H

/-- Every point is one step of the accumulation. -/
theorem sound_body7 (c : Dev nD) (t : Fin cfg7.N) :
    iprop((dat7 V c).Φ t.castSucc ∗ (dat7 V c).owesAt () t.castSucc
      ∗ (∃ d, owns (c : Thread nD τ) (st7_0 t) fullShare ((dat7 V c).before 0 t d))
      ∗ (∃ d, owns (c : Thread nD τ) (st7_1 t) fullShare ((dat7 V c).before 1 t d))
      ∗ (∃ d, owns (c : Thread nD τ) (st7_2 t) fullShare ((dat7 V c).before 2 t d))
      ∗ (∃ d, owns (c : Thread nD τ) (st7_3 t) fullShare ((dat7 V c).before 3 t d)))
    ⊢ wp frame (wpE (defs₀ (F := F)) Variants.none c none) Set.univ (bodyAt7 t) (fun _ =>
      iprop((dat7 V c).Φ t.succ ∗ (dat7 V c).owesAt () t.succ
        ∗ (dat7 V c).leavesExact 0 t ∗ (dat7 V c).leavesExact 1 t ∗ (dat7 V c).leavesExact 2 t ∗ (dat7 V c).leavesExact 3 t)) := by
  simp only [before7_0, before7_1, before7_2]
  rw [show (dat7 V c).owesAt () t.succ = (dat7 V c).owesAt () t.castSucc from rfl,
    show (dat7 V c).Φ t.succ = PhiS7 V c (t.val + 1) t.isLt from rfl,
    show (dat7 V c).Φ t.castSucc = PhiS7 V c t.val (Nat.le_of_lt t.isLt) from rfl,
    show (dat7 V c).leavesExact 0 t = owns (c : Thread nD τ) (st7_0 t) fullShare (iblk7 V c 0 t) from by
      unfold Dat.leavesExact; rw [live7_0 t, after7_0],
    show (dat7 V c).leavesExact 1 t = owns (c : Thread nD τ) (st7_1 t) fullShare (iblk7 V c 1 t) from by
      unfold Dat.leavesExact; rw [live7_1 t, after7_1],
    show (dat7 V c).leavesExact 2 t = owns (c : Thread nD τ) (st7_2 t) fullShare (iblk7 V c 2 t) from by
      unfold Dat.leavesExact; rw [live7_2 t, after7_2]]
  unfold PhiS7 bodyAt7; rw [resBody_eq7]
  iintro ⟨⟨⟨⟨%x, %hx, HS⟩, Hr⟩, Hg⟩, Ho, ⟨%d0, HA⟩, ⟨%d1, HB⟩, ⟨%d2, HR⟩, ⟨%d3, HO⟩⟩
  iapply (resBody_run c (grid7.coords t) _ _ _ _ _ _ _ _ _ x Set.univ _)
  isplitl [HA]; · iexact HA
  isplitl [HB]; · iexact HB
  isplitl [HR]; · iexact HR
  isplitl [HO]; · iexact HO
  isplitl [HS]; · iexact HS
  iintro ⟨HA, HB, HR, HO, HS⟩
  rw [show resAcc (grid7.coords t) (iblk7 V c 0 t) (iblk7 V c 1 t) (iblk7 V c 2 t) x = acc7 V c t.val t.isLt from
    resAccAt_step _ _ _ t x hx]
  isplitl [HS Hr Hg]
  · isplitl [HS Hr]
    · isplitl [HS]
      · iexists _; isplitr; swap; · iexact HS
        ipureintro; exact fun _ => rfl
      iexact Hr
    iexact Hg
  isplitl [Ho]; · iexact Ho
  isplitl [HA]; · iexact HA
  isplitl [HB]; · iexact HB
  isplitl [HR]; · iexact HR
  iapply (leaves7_3 V c t d3); iexact HO

theorem body_obligation7 (c : Dev nD) : BodyObligation (dat7 (F := F) V c) (defs₀ (F := F)) Variants.none () Set.univ := fun t => by
  rw [bigSep_W7, bigSep_W7]
  exact sound_body7 V c t

theorem hin7 (c : Dev nD) : Pipeline.ΦA spec7 c ⊢ (dat7 V c).Φ 0 := by
  rw [show (dat7 V c).Φ 0 = PhiS7 V c 0 (Nat.zero_le _) from rfl, PhiA7_eq]; unfold PhiS7
  iintro ⟨⟨⟨%d, HS⟩, Hr⟩, Hg⟩
  isplitl [HS Hr]
  · isplitl [HS]
    · iexists d; isplitr; · ipureintro; exact fun h => absurd h (Nat.lt_irrefl 0)
      iexact HS
    iexact Hr
  iexact Hg

theorem hout7 (c : Dev nD) : (dat7 V c).Φ (Fin.last cfg7.N) ⊢ Pipeline.ΦA spec7 c := by
  rw [show (dat7 V c).Φ (Fin.last cfg7.N) = PhiS7 V c (Fin.last cfg7.N).val (Nat.le_of_lt_succ (Fin.last cfg7.N).isLt) from rfl, PhiA7_eq]
  unfold PhiS7
  iintro ⟨⟨⟨%x, -, HS⟩, Hr⟩, Hg⟩
  isplitl [HS Hr]
  · isplitl [HS]
    · iexists x; iexact HS
    iexact Hr
  iexact Hg

end Cert.KernelIdeal.Hand
end
-- ==== Proof.KiMm8.lean ====
import proofs.«120173_j18854906429546_1_alg».proof.Proof.KiMmBody
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-- Window `w`'s block of its array at point `t`. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

theorem lhsBefore8_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem rhsBefore8_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

theorem lhsLive8 : ∀ t : Fin cfg8.N, cfg8.idle 0 (grid8.coords t) = false := by decide +kernel
theorem rhsLive8 : ∀ t : Fin cfg8.N, cfg8.idle 1 (grid8.coords t) = false := by decide +kernel
theorem outRests8 : ∀ t : Fin cfg8.N, ¬mmLast (grid8.coords t) → cfg8.idle 2 (grid8.coords t) = true := by decide +kernel
theorem outKept8 : ∀ t : Fin cfg8.N, ¬mmLast (grid8.coords t) → (cfg8.win 2).flush t = false := by decide +kernel
theorem outLive8 : ∀ t : Fin cfg8.N, mmLast (grid8.coords t) → cfg8.idle 2 (grid8.coords t) = false := by decide +kernel

abbrev accM8 : Memref sig .tc .vmem S1024x128 .f32 := Memref.whole cc8_scratch0
abbrev stA8 (t : Fin cfg8.N) : Memref sig .tc .vmem S1024x1024 .f32 := win8_0.stage (cfg8.slots t 0)
abbrev stB8 (t : Fin cfg8.N) : Memref sig .tc .vmem S1024x128 .f32 := win8_1.stage (cfg8.slots t 1)
abbrev stO8 (t : Fin cfg8.N) : Memref sig .tc .vmem S1024x128 .f32 := win8_2.stage (cfg8.slots t 2)

abbrev others8 (c : Dev nD) : sProp 𝕄 :=
  Pipeline.scopedRestBut (Ix := Unit) (Name := ℕ) (U := UR sig nD τ) (Lvl := ℕ) (Val := Elt F) spec8 c [cc8_scratch0]

theorem entry8_eq (c : Dev nD) :
    (Pipeline.ΦA spec8 c : sProp 𝕄)
      = iprop(iprop(iprop((∃ d, owns (c : Thread nD τ) accM8 fullShare d)) ∗ others8 c) ∗ (∃ r, prngReg c r)) := by
  unfold Pipeline.ΦA; rw [scopedRest8_split]; simp only [accM8, owns_whole]; try rfl

/-- The two factors' blocks at each point. -/
abbrev lhsAt8 (c : Dev nD) (n : ℕ) (hn : n < grid8.N) : Vec F S1024x1024 .f32 := iblk8 V c 0 ⟨n, hn⟩
abbrev rhsAt8 (c : Dev nD) (n : ℕ) (hn : n < grid8.N) : Vec F S1024x128 .f32 := iblk8 V c 1 ⟨n, hn⟩

/-- The invariant between points: the partial sums hold some `x`, which past the first point is the accumulation so far. -/
def carried8 (c : Dev nD) (n : ℕ) (h : n ≤ cfg8.N) : sProp 𝕄 :=
  iprop(iprop((∃ x, ⌜∀ hn : 0 < n, x = mmAcc (lhsAt8 V c) (rhsAt8 V c) (n - 1) (Nat.lt_of_lt_of_le (Nat.sub_lt hn Nat.one_pos) h)⌝ ∗ owns (c : Thread nD τ) accM8 fullShare x) ∗ others8 c) ∗ (∃ r, prngReg c r))

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => mmAcc (lhsAt8 V c) (rhsAt8 V c) t.val t.isLt
  Φ t := carried8 V c t.val (Nat.le_of_lt_succ t.isLt)
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = mmAcc (lhsAt8 V c) (rhsAt8 V c) t.val t.isLt := by dsimp only [dat8]

theorem lhsBefore8 (c : Dev nD) (t : Fin cfg8.N) (d) : (dat8 V c).before 0 t d = iblk8 V c 0 t :=
  lhsBefore8_of V (dat8 V c) (A_eq8 V c 0) (after8_0 V c) t d
theorem rhsBefore8 (c : Dev nD) (t : Fin cfg8.N) (d) : (dat8 V c).before 1 t d = iblk8 V c 1 t :=
  rhsBefore8_of V (dat8 V c) (A_eq8 V c 1) (after8_1 V c) t d

/-- At the last block of the contraction the product's block ends at the partial sums. -/
theorem leaves8_2 (c : Dev nD) (t : Fin cfg8.N) (d) :
    owns (c : Thread nD τ) (stO8 t) fullShare (if mmLast (grid8.coords t) then mmAcc (lhsAt8 V c) (rhsAt8 V c) t.val t.isLt else (dat8 V c).before 2 t d)
      ⊢ (dat8 V c).leavesExact 2 t := by
  by_cases h1 : mmLast (grid8.coords t)
  · rw [if_pos h1, show (dat8 V c).leavesExact 2 t = owns (c : Thread nD τ) (stO8 t) fullShare ((dat8 V c).after 2 t) from by
      unfold Dat.leavesExact; rw [outLive8 t h1], after8_2] <;> exact Idealize.SL.BI.Entails.refl _
  · rw [if_neg h1, Dat.leavesExact_idle (dat8 V c) 2 t (outRests8 t h1) (outKept8 t h1)]
    iintro H; iexists d; iexact H

/-- Every point is one step of the accumulation. -/
theorem sound_body8 (c : Dev nD) (t : Fin cfg8.N) :
    iprop((dat8 V c).Φ t.castSucc ∗ (dat8 V c).owesAt () t.castSucc
      ∗ (∃ d, owns (c : Thread nD τ) (stA8 t) fullShare ((dat8 V c).before 0 t d))
      ∗ (∃ d, owns (c : Thread nD τ) (stB8 t) fullShare ((dat8 V c).before 1 t d))
      ∗ (∃ d, owns (c : Thread nD τ) (stO8 t) fullShare ((dat8 V c).before 2 t d)))
    ⊢ wp frame (wpE (defs₀ (F := F)) Variants.none c none) Set.univ (bodyAt8 t) (fun _ =>
      iprop((dat8 V c).Φ t.succ ∗ (dat8 V c).owesAt () t.succ
        ∗ (dat8 V c).leavesExact 0 t ∗ (dat8 V c).leavesExact 1 t ∗ (dat8 V c).leavesExact 2 t)) := by
  simp only [lhsBefore8, rhsBefore8]
  rw [show (dat8 V c).owesAt () t.succ = (dat8 V c).owesAt () t.castSucc from rfl,
    show (dat8 V c).Φ t.succ = carried8 V c (t.val + 1) t.isLt from rfl,
    show (dat8 V c).Φ t.castSucc = carried8 V c t.val (Nat.le_of_lt t.isLt) from rfl,
    show (dat8 V c).leavesExact 0 t = owns (c : Thread nD τ) (stA8 t) fullShare (iblk8 V c 0 t) from by
      unfold Dat.leavesExact; rw [lhsLive8 t, after8_0],
    show (dat8 V c).leavesExact 1 t = owns (c : Thread nD τ) (stB8 t) fullShare (iblk8 V c 1 t) from by
      unfold Dat.leavesExact; rw [rhsLive8 t, after8_1]]
  unfold carried8 bodyAt8
  rw [mmBody_eq8]
  iintro ⟨⟨⟨⟨%x, %hx, HS⟩, Hr⟩, Hg⟩, Ho, ⟨%d0, HA⟩, ⟨%d1, HB⟩, ⟨%d2, HO⟩⟩
  iapply (mmBody_run c (grid8.coords t) _ _ _ _ _ _ _ x Set.univ _)
  isplitl [HA]; · iexact HA
  isplitl [HB]; · iexact HB
  isplitl [HO]; · iexact HO
  isplitl [HS]; · iexact HS
  iintro ⟨HA, HB, HO, HS⟩
  rw [show mmStep (grid8.coords t) (iblk8 V c 0 t) (iblk8 V c 1 t) x = mmAcc (lhsAt8 V c) (rhsAt8 V c) t.val t.isLt from
    mmAcc_step _ _ t x hx]
  isplitl [HS Hr Hg]
  · isplitl [HS Hr]
    · isplitl [HS]
      · iexists _; isplitr; swap; · iexact HS
        ipureintro; exact fun _ => rfl
      iexact Hr
    iexact Hg
  isplitl [Ho]; · iexact Ho
  isplitl [HA]; · iexact HA
  isplitl [HB]; · iexact HB
  iapply (leaves8_2 V c t d2); iexact HO

theorem body_obligation8 (c : Dev nD) : BodyObligation (dat8 (F := F) V c) (defs₀ (F := F)) Variants.none () Set.univ := fun t => by
  rw [bigSep_W8, bigSep_W8]
  exact sound_body8 V c t

theorem hin8 (c : Dev nD) : Pipeline.ΦA spec8 c ⊢ (dat8 V c).Φ 0 := by
  rw [show (dat8 V c).Φ 0 = carried8 V c 0 (Nat.zero_le _) from rfl, entry8_eq]; unfold carried8
  iintro ⟨⟨⟨%d, HS⟩, Hr⟩, Hg⟩
  isplitl [HS Hr]
  · isplitl [HS]
    · iexists d; isplitr; · ipureintro; exact fun h => absurd h (Nat.lt_irrefl 0)
      iexact HS
    iexact Hr
  iexact Hg

theorem hout8 (c : Dev nD) : (dat8 V c).Φ (Fin.last cfg8.N) ⊢ Pipeline.ΦA spec8 c := by
  rw [show (dat8 V c).Φ (Fin.last cfg8.N) = carried8 V c (Fin.last cfg8.N).val (Nat.le_of_lt_succ (Fin.last cfg8.N).isLt) from rfl, entry8_eq]
  unfold carried8
  iintro ⟨⟨⟨%x, -, HS⟩, Hr⟩, Hg⟩
  isplitl [HS Hr]
  · isplitl [HS]
    · iexists x; iexact HS
    iexact Hr
  iexact Hg

end Cert.KernelIdeal.Hand
end
-- ==== Proof.KiMm9.lean ====
import proofs.«120173_j18854906429546_1_alg».proof.Proof.KiMmBody
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-- Window `w`'s block of its array at point `t`. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

theorem lhsBefore9_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
theorem rhsBefore9_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

theorem lhsLive9 : ∀ t : Fin cfg9.N, cfg9.idle 0 (grid9.coords t) = false := by decide +kernel
theorem rhsLive9 : ∀ t : Fin cfg9.N, cfg9.idle 1 (grid9.coords t) = false := by decide +kernel
theorem outRests9 : ∀ t : Fin cfg9.N, ¬mmLast (grid9.coords t) → cfg9.idle 2 (grid9.coords t) = true := by decide +kernel
theorem outKept9 : ∀ t : Fin cfg9.N, ¬mmLast (grid9.coords t) → (cfg9.win 2).flush t = false := by decide +kernel
theorem outLive9 : ∀ t : Fin cfg9.N, mmLast (grid9.coords t) → cfg9.idle 2 (grid9.coords t) = false := by decide +kernel

abbrev accM9 : Memref sig .tc .vmem S1024x128 .f32 := Memref.whole cc9_scratch0
abbrev stA9 (t : Fin cfg9.N) : Memref sig .tc .vmem S1024x1024 .f32 := win9_0.stage (cfg9.slots t 0)
abbrev stB9 (t : Fin cfg9.N) : Memref sig .tc .vmem S1024x128 .f32 := win9_1.stage (cfg9.slots t 1)
abbrev stO9 (t : Fin cfg9.N) : Memref sig .tc .vmem S1024x128 .f32 := win9_2.stage (cfg9.slots t 2)

abbrev others9 (c : Dev nD) : sProp 𝕄 :=
  Pipeline.scopedRestBut (Ix := Unit) (Name := ℕ) (U := UR sig nD τ) (Lvl := ℕ) (Val := Elt F) spec9 c [cc9_scratch0]

theorem entry9_eq (c : Dev nD) :
    (Pipeline.ΦA spec9 c : sProp 𝕄)
      = iprop(iprop(iprop((∃ d, owns (c : Thread nD τ) accM9 fullShare d)) ∗ others9 c) ∗ (∃ r, prngReg c r)) := by
  unfold Pipeline.ΦA; rw [scopedRest9_split]; simp only [accM9, owns_whole]; try rfl

/-- The two factors' blocks at each point. -/
abbrev lhsAt9 (c : Dev nD) (n : ℕ) (hn : n < grid9.N) : Vec F S1024x1024 .f32 := iblk9 V c 0 ⟨n, hn⟩
abbrev rhsAt9 (c : Dev nD) (n : ℕ) (hn : n < grid9.N) : Vec F S1024x128 .f32 := iblk9 V c 1 ⟨n, hn⟩

/-- The invariant between points: the partial sums hold some `x`, which past the first point is the accumulation so far. -/
def carried9 (c : Dev nD) (n : ℕ) (h : n ≤ cfg9.N) : sProp 𝕄 :=
  iprop(iprop((∃ x, ⌜∀ hn : 0 < n, x = mmAcc (lhsAt9 V c) (rhsAt9 V c) (n - 1) (Nat.lt_of_lt_of_le (Nat.sub_lt hn Nat.one_pos) h)⌝ ∗ owns (c : Thread nD τ) accM9 fullShare x) ∗ others9 c) ∗ (∃ r, prngReg c r))

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => mmAcc (lhsAt9 V c) (rhsAt9 V c) t.val t.isLt
  Φ t := carried9 V c t.val (Nat.le_of_lt_succ t.isLt)
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = mmAcc (lhsAt9 V c) (rhsAt9 V c) t.val t.isLt := by dsimp only [dat9]

theorem lhsBefore9 (c : Dev nD) (t : Fin cfg9.N) (d) : (dat9 V c).before 0 t d = iblk9 V c 0 t :=
  lhsBefore9_of V (dat9 V c) (A_eq9 V c 0) (after9_0 V c) t d
theorem rhsBefore9 (c : Dev nD) (t : Fin cfg9.N) (d) : (dat9 V c).before 1 t d = iblk9 V c 1 t :=
  rhsBefore9_of V (dat9 V c) (A_eq9 V c 1) (after9_1 V c) t d

/-- At the last block of the contraction the product's block ends at the partial sums. -/
theorem leaves9_2 (c : Dev nD) (t : Fin cfg9.N) (d) :
    owns (c : Thread nD τ) (stO9 t) fullShare (if mmLast (grid9.coords t) then mmAcc (lhsAt9 V c) (rhsAt9 V c) t.val t.isLt else (dat9 V c).before 2 t d)
      ⊢ (dat9 V c).leavesExact 2 t := by
  by_cases h1 : mmLast (grid9.coords t)
  · rw [if_pos h1, show (dat9 V c).leavesExact 2 t = owns (c : Thread nD τ) (stO9 t) fullShare ((dat9 V c).after 2 t) from by
      unfold Dat.leavesExact; rw [outLive9 t h1], after9_2] <;> exact Idealize.SL.BI.Entails.refl _
  · rw [if_neg h1, Dat.leavesExact_idle (dat9 V c) 2 t (outRests9 t h1) (outKept9 t h1)]
    iintro H; iexists d; iexact H

/-- Every point is one step of the accumulation. -/
theorem sound_body9 (c : Dev nD) (t : Fin cfg9.N) :
    iprop((dat9 V c).Φ t.castSucc ∗ (dat9 V c).owesAt () t.castSucc
      ∗ (∃ d, owns (c : Thread nD τ) (stA9 t) fullShare ((dat9 V c).before 0 t d))
      ∗ (∃ d, owns (c : Thread nD τ) (stB9 t) fullShare ((dat9 V c).before 1 t d))
      ∗ (∃ d, owns (c : Thread nD τ) (stO9 t) fullShare ((dat9 V c).before 2 t d)))
    ⊢ wp frame (wpE (defs₀ (F := F)) Variants.none c none) Set.univ (bodyAt9 t) (fun _ =>
      iprop((dat9 V c).Φ t.succ ∗ (dat9 V c).owesAt () t.succ
        ∗ (dat9 V c).leavesExact 0 t ∗ (dat9 V c).leavesExact 1 t ∗ (dat9 V c).leavesExact 2 t)) := by
  simp only [lhsBefore9, rhsBefore9]
  rw [show (dat9 V c).owesAt () t.succ = (dat9 V c).owesAt () t.castSucc from rfl,
    show (dat9 V c).Φ t.succ = carried9 V c (t.val + 1) t.isLt from rfl,
    show (dat9 V c).Φ t.castSucc = carried9 V c t.val (Nat.le_of_lt t.isLt) from rfl,
    show (dat9 V c).leavesExact 0 t = owns (c : Thread nD τ) (stA9 t) fullShare (iblk9 V c 0 t) from by
      unfold Dat.leavesExact; rw [lhsLive9 t, after9_0],
    show (dat9 V c).leavesExact 1 t = owns (c : Thread nD τ) (stB9 t) fullShare (iblk9 V c 1 t) from by
      unfold Dat.leavesExact; rw [rhsLive9 t, after9_1]]
  unfold carried9 bodyAt9
  rw [mmBody_eq9]
  iintro ⟨⟨⟨⟨%x, %hx, HS⟩, Hr⟩, Hg⟩, Ho, ⟨%d0, HA⟩, ⟨%d1, HB⟩, ⟨%d2, HO⟩⟩
  iapply (mmBody_run c (grid9.coords t) _ _ _ _ _ _ _ x Set.univ _)
  isplitl [HA]; · iexact HA
  isplitl [HB]; · iexact HB
  isplitl [HO]; · iexact HO
  isplitl [HS]; · iexact HS
  iintro ⟨HA, HB, HO, HS⟩
  rw [show mmStep (grid9.coords t) (iblk9 V c 0 t) (iblk9 V c 1 t) x = mmAcc (lhsAt9 V c) (rhsAt9 V c) t.val t.isLt from
    mmAcc_step _ _ t x hx]
  isplitl [HS Hr Hg]
  · isplitl [HS Hr]
    · isplitl [HS]
      · iexists _; isplitr; swap; · iexact HS
        ipureintro; exact fun _ => rfl
      iexact Hr
    iexact Hg
  isplitl [Ho]; · iexact Ho
  isplitl [HA]; · iexact HA
  isplitl [HB]; · iexact HB
  iapply (leaves9_2 V c t d2); iexact HO

theorem body_obligation9 (c : Dev nD) : BodyObligation (dat9 (F := F) V c) (defs₀ (F := F)) Variants.none () Set.univ := fun t => by
  rw [bigSep_W9, bigSep_W9]
  exact sound_body9 V c t

theorem hin9 (c : Dev nD) : Pipeline.ΦA spec9 c ⊢ (dat9 V c).Φ 0 := by
  rw [show (dat9 V c).Φ 0 = carried9 V c 0 (Nat.zero_le _) from rfl, entry9_eq]; unfold carried9
  iintro ⟨⟨⟨%d, HS⟩, Hr⟩, Hg⟩
  isplitl [HS Hr]
  · isplitl [HS]
    · iexists d; isplitr; · ipureintro; exact fun h => absurd h (Nat.lt_irrefl 0)
      iexact HS
    iexact Hr
  iexact Hg

theorem hout9 (c : Dev nD) : (dat9 V c).Φ (Fin.last cfg9.N) ⊢ Pipeline.ΦA spec9 c := by
  rw [show (dat9 V c).Φ (Fin.last cfg9.N) = carried9 V c (Fin.last cfg9.N).val (Nat.le_of_lt_succ (Fin.last cfg9.N).isLt) from rfl, entry9_eq]
  unfold carried9
  iintro ⟨⟨⟨%x, -, HS⟩, Hr⟩, Hg⟩
  isplitl [HS Hr]
  · isplitl [HS]
    · iexists x; iexact HS
    iexact Hr
  iexact Hg

end Cert.KernelIdeal.Hand
end
-- ==== Proof.KiFold.lean ====
import proofs.«120173_j18854906429546_1_alg».proof.Proof.KiGate0
import proofs.«120173_j18854906429546_1_alg».proof.Proof.KiGate1
import proofs.«120173_j18854906429546_1_alg».proof.Proof.KiGate2
import proofs.«120173_j18854906429546_1_alg».proof.Proof.KiMm3
import proofs.«120173_j18854906429546_1_alg».proof.Proof.KiRes4
import proofs.«120173_j18854906429546_1_alg».proof.Proof.KiRes5
import proofs.«120173_j18854906429546_1_alg».proof.Proof.KiMm6
import proofs.«120173_j18854906429546_1_alg».proof.Proof.KiRes7
import proofs.«120173_j18854906429546_1_alg».proof.Proof.KiMm8
import proofs.«120173_j18854906429546_1_alg».proof.Proof.KiMm9
import proofs.«120173_j18854906429546_1_alg».proof.Proof.LibFold
import proofs.«120173_j18854906429546_1_alg».proof.Proof.Gen.KernelIdeal.Launch
import proofs.«120173_j18854906429546_1_alg».proof.Proof.Gen.KernelIdeal.Skeleton
import proofs.«120173_j18854906429546_1_alg».proof.Proof.Gen.KernelIdeal.Points
import proofs.«120173_j18854906429546_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
noncomputable section
namespace Cert.KernelIdeal.Hand
open Cert.KernelIdeal Cert.KernelIdeal.Gen
open Idealize.ShloMosaic Idealize.ShloMosaic.TcCoe
open Idealize.ShloMosaic.Pipeline (Dat Cfg)
variable {F : FTy → Type} [FloatOps F]

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

def W2 (c : Dev nD) : Valuation τ sig (Elt F) := foldStep (dat0 (V1 m ρ) c) (W1 m ρ c)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (foldStep_arr _ _ launch0.win.arr_inj w).symm
theorem hrest0 (c : Dev nD) : ∀ b, b ∉ Finset.univ.image (Pipeline.arrRef spec0) → V2 m ρ c b = V1 m ρ c b :=
  foldStep_rest (dat0 (V1 m ρ) c) _
theorem W2_keep (c : Dev nD) (b : Ref sig .tc) (hb : b ≠ main_v1) :
    W2 m ρ c (Proc.devRef .tc b) = W1 m ρ c (Proc.devRef .tc b) :=
  foldStep_keep _ _ launch0.win.arr_inj (A_eq0 _ c) (by decide) hb
theorem W2_out (c : Dev nD) : W2 m ρ c (Proc.devRef .tc main_v1) = (dat0 (V1 m ρ) c).arrAt 3 cfg0.N :=
  foldStep_arr _ _ launch0.win.arr_inj 3

def W3 (c : Dev nD) : Valuation τ sig (Elt F) := foldStep (dat1 (V2 m ρ) c) (W2 m ρ c)
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (foldStep_arr _ _ launch1.win.arr_inj w).symm
theorem hrest1 (c : Dev nD) : ∀ b, b ∉ Finset.univ.image (Pipeline.arrRef spec1) → V3 m ρ c b = V2 m ρ c b :=
  foldStep_rest (dat1 (V2 m ρ) c) _
theorem W3_keep (c : Dev nD) (b : Ref sig .tc) (hb : b ≠ main_v2) :
    W3 m ρ c (Proc.devRef .tc b) = W2 m ρ c (Proc.devRef .tc b) :=
  foldStep_keep _ _ launch1.win.arr_inj (A_eq1 _ c) (by decide) hb
theorem W3_out (c : Dev nD) : W3 m ρ c (Proc.devRef .tc main_v2) = (dat1 (V2 m ρ) c).arrAt 3 cfg1.N :=
  foldStep_arr _ _ launch1.win.arr_inj 3

def W4 (c : Dev nD) : Valuation τ sig (Elt F) := foldStep (dat2 (V3 m ρ) c) (W3 m ρ c)
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (foldStep_arr _ _ launch2.win.arr_inj w).symm
theorem hrest2 (c : Dev nD) : ∀ b, b ∉ Finset.univ.image (Pipeline.arrRef spec2) → V4 m ρ c b = V3 m ρ c b :=
  foldStep_rest (dat2 (V3 m ρ) c) _
theorem W4_keep (c : Dev nD) (b : Ref sig .tc) (hb : b ≠ main_v3) :
    W4 m ρ c (Proc.devRef .tc b) = W3 m ρ c (Proc.devRef .tc b) :=
  foldStep_keep _ _ launch2.win.arr_inj (A_eq2 _ c) (by decide) hb
theorem W4_out (c : Dev nD) : W4 m ρ c (Proc.devRef .tc main_v3) = (dat2 (V3 m ρ) c).arrAt 3 cfg2.N :=
  foldStep_arr _ _ launch2.win.arr_inj 3

def W5 (c : Dev nD) : Valuation τ sig (Elt F) := foldStep (dat3 (V4 m ρ) c) (W4 m ρ c)
abbrev V5 : (c : Dev nD) → (b : Ref sig .tc) → Buf (Elt F) ((c : Thread nD τ).loc b) := fun c b => W5 m ρ c b
theorem hF3 (c : Dev nD) (w : Fin cfg3.W) : (dat3 (V4 m ρ) c).arrAt w cfg3.N = V5 m ρ c (Pipeline.arrRef spec3 w) :=
  (foldStep_arr _ _ launch3.win.arr_inj w).symm
theorem hrest3 (c : Dev nD) : ∀ b, b ∉ Finset.univ.image (Pipeline.arrRef spec3) → V5 m ρ c b = V4 m ρ c b :=
  foldStep_rest (dat3 (V4 m ρ) c) _
theorem W5_keep (c : Dev nD) (b : Ref sig .tc) (hb : b ≠ main_v4) :
    W5 m ρ c (Proc.devRef .tc b) = W4 m ρ c (Proc.devRef .tc b) :=
  foldStep_keep _ _ launch3.win.arr_inj (A_eq3 _ c) (by decide) hb
theorem W5_out (c : Dev nD) : W5 m ρ c (Proc.devRef .tc main_v4) = (dat3 (V4 m ρ) c).arrAt 2 cfg3.N :=
  foldStep_arr _ _ launch3.win.arr_inj 2

def W6 (c : Dev nD) : Valuation τ sig (Elt F) := foldStep (dat4 (V5 m ρ) c) (W5 m ρ c)
abbrev V6 : (c : Dev nD) → (b : Ref sig .tc) → Buf (Elt F) ((c : Thread nD τ).loc b) := fun c b => W6 m ρ c b
theorem hF4 (c : Dev nD) (w : Fin cfg4.W) : (dat4 (V5 m ρ) c).arrAt w cfg4.N = V6 m ρ c (Pipeline.arrRef spec4 w) :=
  (foldStep_arr _ _ launch4.win.arr_inj w).symm
theorem hrest4 (c : Dev nD) : ∀ b, b ∉ Finset.univ.image (Pipeline.arrRef spec4) → V6 m ρ c b = V5 m ρ c b :=
  foldStep_rest (dat4 (V5 m ρ) c) _
theorem W6_keep (c : Dev nD) (b : Ref sig .tc) (hb : b ≠ main_v5) :
    W6 m ρ c (Proc.devRef .tc b) = W5 m ρ c (Proc.devRef .tc b) :=
  foldStep_keep _ _ launch4.win.arr_inj (A_eq4 _ c) (by decide) hb
theorem W6_out (c : Dev nD) : W6 m ρ c (Proc.devRef .tc main_v5) = (dat4 (V5 m ρ) c).arrAt 3 cfg4.N :=
  foldStep_arr _ _ launch4.win.arr_inj 3

def W7 (c : Dev nD) : Valuation τ sig (Elt F) :=
  Function.update (W6 m ρ c) (Proc.devRef .tc main_v6) ((dat5 (V6 m ρ) c).arrAt 3 cfg5.N)
theorem W7_out (c : Dev nD) : W7 m ρ c (Proc.devRef .tc main_v6) = (dat5 (V6 m ρ) c).arrAt 3 cfg5.N :=
  Function.update_self ..
theorem W7_keep (c : Dev nD) (b : Ref sig .tc) (hb : b ≠ main_v6) :
    W7 m ρ c (Proc.devRef .tc b) = W6 m ρ c (Proc.devRef .tc b) :=
  Function.update_of_ne (StableHlo.devRef_ne_of_ne hb) ..
abbrev V7 : (c : Dev nD) → (b : Ref sig .tc) → Buf (Elt F) ((c : Thread nD τ).loc b) := fun c b => W7 m ρ c b
/-- Two windows of this region read one array, so its step is stated at the output alone; the arrays it reads keep their values. -/
theorem hF5 (c : Dev nD) : ∀ w : Fin 4, (dat5 (V6 m ρ) c).arrAt w cfg5.N = V7 m ρ c (Pipeline.arrRef spec5 w)
  | 3 => (W7_out m ρ c).symm
  | 0 | 1 | 2 => (((dat5 (V6 m ρ) c).arrAt_in _ rfl _).trans (A_eq5 (V6 m ρ) c _)).trans (W7_keep m ρ c _ (by decide)).symm
theorem hrest5 (c : Dev nD) : ∀ b, b ∉ Finset.univ.image (Pipeline.arrRef spec5) → V7 m ρ c b = V6 m ρ c b :=
  fun b hb => W7_keep m ρ c b fun e => hb (e ▸ Finset.mem_image.mpr ⟨3, Finset.mem_univ _, rfl⟩)

def W8 (c : Dev nD) : Valuation τ sig (Elt F) := foldStep (dat6 (V7 m ρ) c) (W7 m ρ c)
abbrev V8 : (c : Dev nD) → (b : Ref sig .tc) → Buf (Elt F) ((c : Thread nD τ).loc b) := fun c b => W8 m ρ c b
theorem hF6 (c : Dev nD) (w : Fin cfg6.W) : (dat6 (V7 m ρ) c).arrAt w cfg6.N = V8 m ρ c (Pipeline.arrRef spec6 w) :=
  (foldStep_arr _ _ launch6.win.arr_inj w).symm
theorem hrest6 (c : Dev nD) : ∀ b, b ∉ Finset.univ.image (Pipeline.arrRef spec6) → V8 m ρ c b = V7 m ρ c b :=
  foldStep_rest (dat6 (V7 m ρ) c) _
theorem W8_keep (c : Dev nD) (b : Ref sig .tc) (hb : b ≠ main_v7) :
    W8 m ρ c (Proc.devRef .tc b) = W7 m ρ c (Proc.devRef .tc b) :=
  foldStep_keep _ _ launch6.win.arr_inj (A_eq6 _ c) (by decide) hb
theorem W8_out (c : Dev nD) : W8 m ρ c (Proc.devRef .tc main_v7) = (dat6 (V7 m ρ) c).arrAt 2 cfg6.N :=
  foldStep_arr _ _ launch6.win.arr_inj 2

def W9 (c : Dev nD) : Valuation τ sig (Elt F) := foldStep (dat7 (V8 m ρ) c) (W8 m ρ c)
abbrev V9 : (c : Dev nD) → (b : Ref sig .tc) → Buf (Elt F) ((c : Thread nD τ).loc b) := fun c b => W9 m ρ c b
theorem hF7 (c : Dev nD) (w : Fin cfg7.W) : (dat7 (V8 m ρ) c).arrAt w cfg7.N = V9 m ρ c (Pipeline.arrRef spec7 w) :=
  (foldStep_arr _ _ launch7.win.arr_inj w).symm
theorem hrest7 (c : Dev nD) : ∀ b, b ∉ Finset.univ.image (Pipeline.arrRef spec7) → V9 m ρ c b = V8 m ρ c b :=
  foldStep_rest (dat7 (V8 m ρ) c) _
theorem W9_keep (c : Dev nD) (b : Ref sig .tc) (hb : b ≠ main_v8) :
    W9 m ρ c (Proc.devRef .tc b) = W8 m ρ c (Proc.devRef .tc b) :=
  foldStep_keep _ _ launch7.win.arr_inj (A_eq7 _ c) (by decide) hb
theorem W9_out (c : Dev nD) : W9 m ρ c (Proc.devRef .tc main_v8) = (dat7 (V8 m ρ) c).arrAt 3 cfg7.N :=
  foldStep_arr _ _ launch7.win.arr_inj 3

def W10 (c : Dev nD) : Valuation τ sig (Elt F) := foldStep (dat8 (V9 m ρ) c) (W9 m ρ c)
abbrev V10 : (c : Dev nD) → (b : Ref sig .tc) → Buf (Elt F) ((c : Thread nD τ).loc b) := fun c b => W10 m ρ c b
theorem hF8 (c : Dev nD) (w : Fin cfg8.W) : (dat8 (V9 m ρ) c).arrAt w cfg8.N = V10 m ρ c (Pipeline.arrRef spec8 w) :=
  (foldStep_arr _ _ launch8.win.arr_inj w).symm
theorem hrest8 (c : Dev nD) : ∀ b, b ∉ Finset.univ.image (Pipeline.arrRef spec8) → V10 m ρ c b = V9 m ρ c b :=
  foldStep_rest (dat8 (V9 m ρ) c) _
theorem W10_keep (c : Dev nD) (b : Ref sig .tc) (hb : b ≠ main_v9) :
    W10 m ρ c (Proc.devRef .tc b) = W9 m ρ c (Proc.devRef .tc b) :=
  foldStep_keep _ _ launch8.win.arr_inj (A_eq8 _ c) (by decide) hb
theorem W10_out (c : Dev nD) : W10 m ρ c (Proc.devRef .tc main_v9) = (dat8 (V9 m ρ) c).arrAt 2 cfg8.N :=
  foldStep_arr _ _ launch8.win.arr_inj 2

def W11 (c : Dev nD) : Valuation τ sig (Elt F) := foldStep (dat9 (V10 m ρ) c) (W10 m ρ c)
abbrev V11 : (c : Dev nD) → (b : Ref sig .tc) → Buf (Elt F) ((c : Thread nD τ).loc b) := fun c b => W11 m ρ c b
theorem hF9 (c : Dev nD) (w : Fin cfg9.W) : (dat9 (V10 m ρ) c).arrAt w cfg9.N = V11 m ρ c (Pipeline.arrRef spec9 w) :=
  (foldStep_arr _ _ launch9.win.arr_inj w).symm
theorem hrest9 (c : Dev nD) : ∀ b, b ∉ Finset.univ.image (Pipeline.arrRef spec9) → V11 m ρ c b = V10 m ρ c b :=
  foldStep_rest (dat9 (V10 m ρ) c) _
theorem W11_keep (c : Dev nD) (b : Ref sig .tc) (hb : b ≠ main_v10) :
    W11 m ρ c (Proc.devRef .tc b) = W10 m ρ c (Proc.devRef .tc b) :=
  foldStep_keep _ _ launch9.win.arr_inj (A_eq9 _ c) (by decide) hb
theorem W11_out (c : Dev nD) : W11 m ρ c (Proc.devRef .tc main_v10) = (dat9 (V10 m ρ) c).arrAt 2 cfg9.N :=
  foldStep_arr _ _ launch9.win.arr_inj 2

abbrev W12 : Dev nD → Valuation τ sig (Elt F) := fun c => StableHlo.after hostOps10 (W11 m ρ c)

/-- A reference that no item of the fold writes ends at its launch value. -/
theorem W12_of_unwritten (c : Dev nD) (b : Ref sig .tc)
    (h : b ∉ hostOps10_W ∧ b ≠ main_v10 ∧ b ≠ main_v9 ∧ b ≠ main_v8 ∧ b ≠ main_v7 ∧ b ≠ main_v6 ∧ b ≠ main_v5 ∧
      b ≠ main_v4 ∧ b ≠ main_v3 ∧ b ≠ main_v2 ∧ b ≠ main_v1 ∧ b ∉ hostOps0_W) :
    W12 m ρ c (Proc.devRef .tc b) = m ((c : Thread nD τ).loc b) := by
  obtain ⟨e, h11, h10, h9, h8, h7, h6, h5, h4, h3, h2, s⟩ := h
  exact (StableHlo.after_of_writes_sub hostOps10 _ hostOps10_writes e).trans <| (W11_keep m ρ c b h11).trans <|
    (W10_keep m ρ c b h10).trans <| (W9_keep m ρ c b h9).trans <| (W8_keep m ρ c b h8).trans <|
    (W7_keep m ρ c b h7).trans <| (W6_keep m ρ c b h6).trans <| (W5_keep m ρ c b h5).trans <|
    (W4_keep m ρ c b h4).trans <| (W3_keep m ρ c b h3).trans <| (W2_keep m ρ c b h2).trans <|
    StableHlo.after_of_writes_sub hostOps0 _ hostOps0_writes s
theorem W12_main_arg0 (c : Dev nD) : W12 m ρ c (Proc.devRef .tc main_arg0) = m ((c : Thread nD τ).loc main_arg0) :=
  W12_of_unwritten m ρ c _ (by decide)
theorem W12_main_arg1 (c : Dev nD) : W12 m ρ c (Proc.devRef .tc main_arg1) = m ((c : Thread nD τ).loc main_arg1) :=
  W12_of_unwritten m ρ c _ (by decide)
theorem W12_main_arg2 (c : Dev nD) : W12 m ρ c (Proc.devRef .tc main_arg2) = m ((c : Thread nD τ).loc main_arg2) :=
  W12_of_unwritten m ρ c _ (by decide)
theorem W12_main_arg3 (c : Dev nD) : W12 m ρ c (Proc.devRef .tc main_arg3) = m ((c : Thread nD τ).loc main_arg3) :=
  W12_of_unwritten m ρ c _ (by decide)
theorem W12_main_arg4 (c : Dev nD) : W12 m ρ c (Proc.devRef .tc main_arg4) = m ((c : Thread nD τ).loc main_arg4) :=
  W12_of_unwritten m ρ c _ (by decide)
theorem W12_main_arg5 (c : Dev nD) : W12 m ρ c (Proc.devRef .tc main_arg5) = m ((c : Thread nD τ).loc main_arg5) :=
  W12_of_unwritten m ρ c _ (by decide)
theorem W12_main_arg6 (c : Dev nD) : W12 m ρ c (Proc.devRef .tc main_arg6) = m ((c : Thread nD τ).loc main_arg6) :=
  W12_of_unwritten m ρ c _ (by decide)
theorem W12_main_arg7 (c : Dev nD) : W12 m ρ c (Proc.devRef .tc main_arg7) = m ((c : Thread nD τ).loc main_arg7) :=
  W12_of_unwritten m ρ c _ (by decide)
theorem W12_main_arg8 (c : Dev nD) : W12 m ρ c (Proc.devRef .tc main_arg8) = m ((c : Thread nD τ).loc main_arg8) :=
  W12_of_unwritten m ρ c _ (by decide)
theorem W12_main_arg9 (c : Dev nD) : W12 m ρ c (Proc.devRef .tc main_arg9) = m ((c : Thread nD τ).loc main_arg9) :=
  W12_of_unwritten m ρ c _ (by decide)
theorem W12_main_arg10 (c : Dev nD) : W12 m ρ c (Proc.devRef .tc main_arg10) = m ((c : Thread nD τ).loc main_arg10) :=
  W12_of_unwritten m ρ c _ (by decide)
theorem W12_main_arg11 (c : Dev nD) : W12 m ρ c (Proc.devRef .tc main_arg11) = m ((c : Thread nD τ).loc main_arg11) :=
  W12_of_unwritten m ρ c _ (by decide)
theorem W12_main_arg12 (c : Dev nD) : W12 m ρ c (Proc.devRef .tc main_arg12) = m ((c : Thread nD τ).loc main_arg12) :=
  W12_of_unwritten m ρ c _ (by decide)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand
end
-- ==== Proof.KiShare5.lean ====
import proofs.«120173_j18854906429546_1_alg».proof.Proof.Gen.KernelIdeal.Launch
import proofs.«120173_j18854906429546_1_alg».proof.Proof.Gen.KernelIdeal.Skeleton
import proofs.«120173_j18854906429546_1_alg».proof.Proof.Gen.KernelIdeal.Points
import proofs.«120173_j18854906429546_1_alg».proof.Proof.Gen.KernelIdeal.Regions
import proofs.«120173_j18854906429546_1_alg».proof.Proof.KiRes5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

theorem arrImage5 : (Finset.univ.image (Pipeline.arrRef spec5) : Finset (Ref sig .tc))
    = {Pipeline.arrRef spec5 0, Pipeline.arrRef spec5 1, Pipeline.arrRef spec5 3} := by decide

/-- Region 5's arrays window by window: windows 1 and 2 hold the two halves of one array's full share. -/
theorem arrays_eq5 {c : Dev nD} (dat : Dat τ (Elt F) Unit ℕ (UR sig nD τ) ℕ cfg5 c)
    (hq0 : dat.q 0 = fullShare) (hq1 : dat.q 1 = fullShare.left) (hq2 : dat.q 2 = fullShare.right)
    (G : (w : Fin cfg5.W) → Buf (Elt F) ((cfg5.win w).arr.view.loc (c : Thread nD τ))) :
    (dat.arrays G : sProp 𝕄)
      = iprop((((c : Thread nD τ).loc (Pipeline.arrRef spec5 0)) ↦{fullShare} G 0)
          ∗ (((c : Thread nD τ).loc (Pipeline.arrRef spec5 1)) ↦{fullShare.left} G 1)
          ∗ (((c : Thread nD τ).loc (Pipeline.arrRef spec5 2)) ↦{fullShare.right} G 2)
          ∗ (((c : Thread nD τ).loc (Pipeline.arrRef spec5 3)) ↦{fullShare} G 3)) := by
  unfold Dat.arrays
  rw [bigSep_W5, (arr_whole5 0).set_eq_univ, (arr_whole5 1).set_eq_univ, (arr_whole5 3).set_eq_univ,
    show dat.share 0 = fullShare from (if_neg Bool.false_ne_true).trans hq0,
    show dat.share 1 = fullShare.left from (if_neg Bool.false_ne_true).trans hq1,
    show dat.share 2 = fullShare.right from (if_neg Bool.false_ne_true).trans hq2, show dat.share 3 = fullShare from if_pos rfl]

/-- A full share is its two halves, so a core's unscoped buffers are region 5's arrays and the rest, both ways. -/
theorem unscopedBufs_arrays5 {c : Dev nD} (dat : Dat τ (Elt F) Unit ℕ (UR sig nD τ) ℕ cfg5 c)
    (hq0 : dat.q 0 = fullShare) (hq1 : dat.q 1 = fullShare.left) (hq2 : dat.q 2 = fullShare.right)
    (V : (b : Ref sig .tc) → Buf (Elt F) ((c : Thread nD τ).loc b))
    (G : (w : Fin cfg5.W) → Buf (Elt F) ((cfg5.win w).arr.view.loc (c : Thread nD τ)))
    (hG : ∀ w, G w = V (Pipeline.arrRef spec5 w)) :
    (unscopedBufs c V : sProp 𝕄) ⊣⊢ iprop(dat.arrays G ∗ Pipeline.unscopedRest spec5 c V) := by
  have h : (unscopedBufs c V : sProp 𝕄) = iprop(Pipeline.arrBufs spec5 c V ∗ Pipeline.unscopedRest spec5 c V) :=
    Pipeline.unscopedBufs_split₀ (Pipeline.pin (pcfgs (F := F)) adm) 5 winFacts₀5.arr_unscoped c V
  rw [h, Pipeline.arrBufs, arrImage5, bigSep_insert (by decide), bigSep_insert (by decide), bigSep_singleton,
    arrays_eq5 dat hq0 hq1 hq2, hG 0, hG 1, hG 2, hG 3]
  exact sep_congr_left (sep_congr_right ((sep_congr_left (pointsTo_share (PosShare.mem_left_op_right fullShare))).trans sep_assoc))

/-- The join at a valuation that agrees with the entry's off the arrays. -/
theorem unscopedBufs_of_arrays5 {c : Dev nD} (dat : Dat τ (Elt F) Unit ℕ (UR sig nD τ) ℕ cfg5 c)
    (hq0 : dat.q 0 = fullShare) (hq1 : dat.q 1 = fullShare.left) (hq2 : dat.q 2 = fullShare.right)
    (Vin Vout : (b : Ref sig .tc) → Buf (Elt F) ((c : Thread nD τ).loc b))
    (G : (w : Fin cfg5.W) → Buf (Elt F) ((cfg5.win w).arr.view.loc (c : Thread nD τ)))
    (hF : ∀ w, G w = Vout (Pipeline.arrRef spec5 w))
    (hrest : ∀ b, b ∉ Finset.univ.image (Pipeline.arrRef spec5) → Vout b = Vin b) :
    iprop(dat.arrays G ∗ Pipeline.unscopedRest spec5 c Vin) ⊢ (unscopedBufs c Vout : sProp 𝕄) := by
  rw [show (Pipeline.unscopedRest spec5 c Vin : sProp 𝕄) = Pipeline.unscopedRest spec5 c Vout from
    bigSep_congr fun b hb => by rw [hrest b (Finset.mem_sdiff.mp hb).2]]
  exact (unscopedBufs_arrays5 dat hq0 hq1 hq2 Vout G hF).2

end Cert.KernelIdeal.Hand
end
-- ==== Proof.KiSegs.lean ====
import proofs.«120173_j18854906429546_1_alg».proof.Proof.KiFold
import proofs.«120173_j18854906429546_1_alg».proof.Proof.KiShare5
import proofs.«120173_j18854906429546_1_alg».proof.Proof.Gen.KernelIdeal.Launch
import proofs.«120173_j18854906429546_1_alg».proof.Proof.Gen.KernelIdeal.Skeleton
import proofs.«120173_j18854906429546_1_alg».proof.Proof.Gen.KernelIdeal.Points
import proofs.«120173_j18854906429546_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ) (ρ : Dev nD → PrngReg)

def pdats : (p : Fin 10) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V4 m ρ) c
  | ⟨4, _⟩ => fun c => dat4 (V5 m ρ) c
  | ⟨5, _⟩ => fun c => dat5 (V6 m ρ) c
  | ⟨6, _⟩ => fun c => dat6 (V7 m ρ) c
  | ⟨7, _⟩ => fun c => dat7 (V8 m ρ) c
  | ⟨8, _⟩ => fun c => dat8 (V9 m ρ) c
  | ⟨9, _⟩ => fun c => dat9 (V10 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
abbrev Tₙ (c : Dev nD) : sProp 𝕄 := iprop(StableHlo.held (c : Thread nD τ) (Pipeline.ucRefs τ sig) (W12 m ρ c) ∗ ∃ r, prngReg c r)

set_option backward.isDefEq.respectTransparency.types false

/-- One region as a segment of the run, from how its arrays split off the contents before it and join the contents after it, and its invariant's two ends. -/
def segOf (p : Fin 10) (win : Pipeline.WinFacts₀ (pcfgs (F := F) p).spec)
    (block_pos : ∀ w : Fin (Pipeline.pin (pcfgs (F := F)) adm p).W, 0 < ((Pipeline.pin (pcfgs (F := F)) adm p).spec w).block.numel)
    (stage_whole : ∀ (w : Fin (Pipeline.pin (pcfgs (F := F)) adm p).W) (s : Fin ((Pipeline.pin (pcfgs (F := F)) adm p).spec w).nbuf), (((Pipeline.pin (pcfgs (F := F)) adm p).spec w).stage s).IsWhole)
    (hbody : ∀ c, BodyObligation (pdats m ρ p c) (defs₀ (F := F)) 𝒱₀ () Set.univ)
    (h0 : ∀ c t, (pdats m ρ p c).owed t = 0) (hr : ∀ c, (pdats m ρ p c).recorded 0 = Set.univ)
    (hK : (pcfgs (F := F) p).pre.K = 0) (W W' : Dev nD → Valuation τ sig (Elt F))
    (hsplit : ∀ c, (unscopedBufs c (fun b => W c b) : sProp 𝕄)
      ⊢ iprop((pdats m ρ p c).arrays ((pdats m ρ p c).arrAt · 0) ∗ Pipeline.unscopedRest (Pipeline.pin (pcfgs (F := F)) adm p).spec c fun b => W c b))
    (hin : ∀ c, Pipeline.ΦA (Pipeline.pin (pcfgs (F := F)) adm p).spec c ⊢ (pdats m ρ p c).Φ 0)
    (hout : ∀ c, (pdats m ρ p c).Φ (Fin.last (Pipeline.pin (pcfgs (F := F)) adm p).N) ⊢ Pipeline.ΦA (Pipeline.pin (pcfgs (F := F)) adm p).spec c)
    (hjoin : ∀ c, iprop((pdats m ρ p c).arrays ((pdats m ρ p c).arrAt · (Pipeline.pin (pcfgs (F := F)) adm p).N) ∗ Pipeline.unscopedRest (Pipeline.pin (pcfgs (F := F)) adm p).spec c fun b => W c b)
      ⊢ (unscopedBufs c (fun b => W' c b) : sProp 𝕄)) :
    Pipeline.RegionSeg (pcfgs (F := F)) adm (pdats m ρ) () defs₀ 𝒱₀ L lv p where
  win := win
  block_pos := block_pos
  stage_whole := stage_whole
  K := PEmpty
  osem k := k.elim
  ho := Pipeline.OwnSemFacts.none _
  hbody c := (hbody c).loose
  hwaits := Pipeline.hwaits_of_owed_zero _ _ _ _ L lv p h0
  pre c := iprop(StableHlo.held (c : Thread nD τ) (Pipeline.ucRefs τ sig) (W c) ∗ R c)
  post c := iprop(StableHlo.held (c : Thread nD τ) (Pipeline.ucRefs τ sig) (W' c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c fun b => W c b
  hentry c := by
    have hs := hsplit c
    have : IsEmpty (Fin (pcfgs (F := F) p).pre.K) := by rw [hK]; infer_instance
    rw [Pipeline.unscopedBufs_held] at hs
    unfold Pipeline.Dat.owesAt Pipeline.owesWithin Pipeline.prefHeld
    rw [Pipeline.ownSems0_none, h0, Finset.univ_eq_empty, BI.bigSep_empty]
    iintro ⟨⟨Hub, Hp, %O, HO⟩, -, -⟩
    ihave H := hs $$ Hub
    icases H with ⟨Ha, Hrest⟩
    imodintro
    isplitl [Ha]; · iexact Ha
    isplitr; · iempintro
    isplitl [HO]
    · iexists O; isplitr; · ipureintro; exact fun x _ => Or.inl (by rw [hr]; trivial)
      iexact HO
    isplitl [Hp]; · iexact Hp
    iexact Hrest
  hin c := by
    refine .trans ?_ (hin c)
    unfold Pipeline.ΦA
    iintro ⟨Hp, -, Hr⟩
    isplitl [Hr]; · iexact Hr
    iexact Hp
  hout c := by
    rw [Pipeline.ownSems0_none]
    refine (hout c).trans ?_
    unfold Pipeline.ΦA
    iintro ⟨Hr, Hp⟩
    isplitl [Hp]; · iexact Hp
    isplitr; · iempintro
    iexact Hr
  hexit c := by
    have hj := hjoin c
    rw [Pipeline.unscopedBufs_held] at hj
    unfold Pipeline.Dat.owesAt Pipeline.owesWithin
    rw [h0]
    iintro ⟨Ha, ⟨%O, -, HO⟩, HY, Hrest⟩
    imodintro
    isplitl [Ha Hrest]
    · iapply hj; isplitl [Ha] <;> iassumption
    isplitl [HY]; · iexact HY
    iexists O; iexact HO

/-- The same when the region's windows read distinct arrays: the split and the join are the library's. -/
def segOfArrays (p : Fin 10) (win : Pipeline.WinFacts (Pipeline.pin (pcfgs (F := F)) adm p).spec) (harr : ∀ w, ((Pipeline.pin (pcfgs (F := F)) adm p).spec w).arr.IsWhole)
    (block_pos : ∀ w : Fin (Pipeline.pin (pcfgs (F := F)) adm p).W, 0 < ((Pipeline.pin (pcfgs (F := F)) adm p).spec w).block.numel)
    (stage_whole : ∀ (w : Fin (Pipeline.pin (pcfgs (F := F)) adm p).W) (s : Fin ((Pipeline.pin (pcfgs (F := F)) adm p).spec w).nbuf), (((Pipeline.pin (pcfgs (F := F)) adm p).spec w).stage s).IsWhole)
    (hbody : ∀ c, BodyObligation (pdats m ρ p c) (defs₀ (F := F)) 𝒱₀ () Set.univ)
    (h0 : ∀ c t, (pdats m ρ p c).owed t = 0) (hr : ∀ c, (pdats m ρ p c).recorded 0 = Set.univ)
    (hK : (pcfgs (F := F) p).pre.K = 0) (hq : ∀ c w, (pdats m ρ p c).q w = fullShare)
    (W W' : Dev nD → Valuation τ sig (Elt F))
    (hA : ∀ c w, (pdats m ρ p c).A w = W c (Pipeline.arrRef (Pipeline.pin (pcfgs (F := F)) adm p).spec w))
    (hin : ∀ c, Pipeline.ΦA (Pipeline.pin (pcfgs (F := F)) adm p).spec c ⊢ (pdats m ρ p c).Φ 0)
    (hout : ∀ c, (pdats m ρ p c).Φ (Fin.last (Pipeline.pin (pcfgs (F := F)) adm p).N) ⊢ Pipeline.ΦA (Pipeline.pin (pcfgs (F := F)) adm p).spec c)
    (hF : ∀ c w, (pdats m ρ p c).arrAt w (Pipeline.pin (pcfgs (F := F)) adm p).N = W' c (Pipeline.arrRef (Pipeline.pin (pcfgs (F := F)) adm p).spec w))
    (hrest : ∀ c b, b ∉ Finset.univ.image (Pipeline.arrRef (Pipeline.pin (pcfgs (F := F)) adm p).spec) → W' c b = W c b) :
    Pipeline.RegionSeg (pcfgs (F := F)) adm (pdats m ρ) () defs₀ 𝒱₀ L lv p :=
  segOf m ρ p win.to₀ block_pos stage_whole hbody h0 hr hK W W'
    (fun c => Pipeline.arrays_of_unscopedBufs (pcfgs (F := F)) adm (pdats m ρ) win harr c ((pdats m ρ p c).share_full (hq c)) _ (hA c))
    hin hout
    fun c => Pipeline.unscopedBufs_of_arrays (pcfgs (F := F)) adm (Ix := Unit) (Name := ℕ) (U := UR sig nD τ) (Lvl := ℕ) win harr c
      (pdats m ρ) ((pdats m ρ p c).share_full (hq c)) _ _ _ (hF c) (hrest c)

def reg0 : Pipeline.RegionSeg (pcfgs (F := F)) adm (pdats m ρ) () defs₀ 𝒱₀ L lv 0 :=
  segOfArrays m ρ 0 launch0.win launch0.arr_whole launch0.block_pos launch0.stage_whole (body_obligation0 (V1 m ρ))
    (fun _ _ => rfl) (fun _ => rfl) rfl (fun _ _ => rfl) (W1 m ρ) (W2 m ρ)
    (A_eq0 (V1 m ρ)) (hin0 (V1 m ρ)) (hout0 (V1 m ρ)) (hF0 m ρ) (hrest0 m ρ)
def reg1 : Pipeline.RegionSeg (pcfgs (F := F)) adm (pdats m ρ) () defs₀ 𝒱₀ L lv 1 :=
  segOfArrays m ρ 1 launch1.win launch1.arr_whole launch1.block_pos launch1.stage_whole (body_obligation1 (V2 m ρ))
    (fun _ _ => rfl) (fun _ => rfl) rfl (fun _ _ => rfl) (W2 m ρ) (W3 m ρ)
    (A_eq1 (V2 m ρ)) (hin1 (V2 m ρ)) (hout1 (V2 m ρ)) (hF1 m ρ) (hrest1 m ρ)
def reg2 : Pipeline.RegionSeg (pcfgs (F := F)) adm (pdats m ρ) () defs₀ 𝒱₀ L lv 2 :=
  segOfArrays m ρ 2 launch2.win launch2.arr_whole launch2.block_pos launch2.stage_whole (body_obligation2 (V3 m ρ))
    (fun _ _ => rfl) (fun _ => rfl) rfl (fun _ _ => rfl) (W3 m ρ) (W4 m ρ)
    (A_eq2 (V3 m ρ)) (hin2 (V3 m ρ)) (hout2 (V3 m ρ)) (hF2 m ρ) (hrest2 m ρ)
def reg3 : Pipeline.RegionSeg (pcfgs (F := F)) adm (pdats m ρ) () defs₀ 𝒱₀ L lv 3 :=
  segOfArrays m ρ 3 launch3.win launch3.arr_whole launch3.block_pos launch3.stage_whole (body_obligation3 (V4 m ρ))
    (fun _ _ => rfl) (fun _ => rfl) rfl (fun _ _ => rfl) (W4 m ρ) (W5 m ρ)
    (A_eq3 (V4 m ρ)) (hin3 (V4 m ρ)) (hout3 (V4 m ρ)) (hF3 m ρ) (hrest3 m ρ)
def reg4 : Pipeline.RegionSeg (pcfgs (F := F)) adm (pdats m ρ) () defs₀ 𝒱₀ L lv 4 :=
  segOfArrays m ρ 4 launch4.win launch4.arr_whole launch4.block_pos launch4.stage_whole (body_obligation4 (V5 m ρ))
    (fun _ _ => rfl) (fun _ => rfl) rfl (fun _ _ => rfl) (W5 m ρ) (W6 m ρ)
    (A_eq4 (V5 m ρ)) (hin4 (V5 m ρ)) (hout4 (V5 m ρ)) (hF4 m ρ) (hrest4 m ρ)
/-- Two windows of region 5 read one array, so its split and join are proved apart. -/
def reg5 : Pipeline.RegionSeg (pcfgs (F := F)) adm (pdats m ρ) () defs₀ 𝒱₀ L lv 5 :=
  segOf m ρ 5 winFacts₀5 block_pos5 stage_whole5 (body_obligation5 (V6 m ρ)) (fun _ _ => rfl) (fun _ => rfl) rfl (W6 m ρ) (W7 m ρ)
    (fun c => (unscopedBufs_arrays5 (dat5 (V6 m ρ) c) rfl rfl rfl _ _ (A_eq5 (V6 m ρ) c)).1) (hin5 (V6 m ρ)) (hout5 (V6 m ρ))
    fun c => unscopedBufs_of_arrays5 (dat5 (V6 m ρ) c) rfl rfl rfl _ _ _ (hF5 m ρ c) (hrest5 m ρ c)
def reg6 : Pipeline.RegionSeg (pcfgs (F := F)) adm (pdats m ρ) () defs₀ 𝒱₀ L lv 6 :=
  segOfArrays m ρ 6 launch6.win launch6.arr_whole launch6.block_pos launch6.stage_whole (body_obligation6 (V7 m ρ))
    (fun _ _ => rfl) (fun _ => rfl) rfl (fun _ _ => rfl) (W7 m ρ) (W8 m ρ)
    (A_eq6 (V7 m ρ)) (hin6 (V7 m ρ)) (hout6 (V7 m ρ)) (hF6 m ρ) (hrest6 m ρ)
def reg7 : Pipeline.RegionSeg (pcfgs (F := F)) adm (pdats m ρ) () defs₀ 𝒱₀ L lv 7 :=
  segOfArrays m ρ 7 launch7.win launch7.arr_whole launch7.block_pos launch7.stage_whole (body_obligation7 (V8 m ρ))
    (fun _ _ => rfl) (fun _ => rfl) rfl (fun _ _ => rfl) (W8 m ρ) (W9 m ρ)
    (A_eq7 (V8 m ρ)) (hin7 (V8 m ρ)) (hout7 (V8 m ρ)) (hF7 m ρ) (hrest7 m ρ)
def reg8 : Pipeline.RegionSeg (pcfgs (F := F)) adm (pdats m ρ) () defs₀ 𝒱₀ L lv 8 :=
  segOfArrays m ρ 8 launch8.win launch8.arr_whole launch8.block_pos launch8.stage_whole (body_obligation8 (V9 m ρ))
    (fun _ _ => rfl) (fun _ => rfl) rfl (fun _ _ => rfl) (W9 m ρ) (W10 m ρ)
    (A_eq8 (V9 m ρ)) (hin8 (V9 m ρ)) (hout8 (V9 m ρ)) (hF8 m ρ) (hrest8 m ρ)
def reg9 : Pipeline.RegionSeg (pcfgs (F := F)) adm (pdats m ρ) () defs₀ 𝒱₀ L lv 9 :=
  segOfArrays m ρ 9 launch9.win launch9.arr_whole launch9.block_pos launch9.stage_whole (body_obligation9 (V10 m ρ))
    (fun _ _ => rfl) (fun _ => rfl) rfl (fun _ _ => rfl) (W10 m ρ) (W11 m ρ)
    (A_eq9 (V10 m ρ)) (hin9 (V10 m ρ)) (hout9 (V10 m ρ)) (hF9 m ρ) (hrest9 m ρ)

end Cert.KernelIdeal.Hand
end
-- ==== Proof.KiRun.lean ====
import proofs.«120173_j18854906429546_1_alg».proof.Proof.KiSegs
import proofs.«120173_j18854906429546_1_alg».proof.Proof.Gen.KernelIdeal.Launch
import proofs.«120173_j18854906429546_1_alg».proof.Proof.Gen.KernelIdeal.Skeleton
import proofs.«120173_j18854906429546_1_alg».proof.Proof.Gen.KernelIdeal.Points
import proofs.«120173_j18854906429546_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (m : (ℓ : Loc nD τ sig) → Buf (Elt F) ℓ) (ρ : Dev nD → PrngReg)

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .region (reg3 m ρ),
    .region (reg4 m ρ),
    .region (reg5 m ρ),
    .region (reg6 m ρ),
    .region (reg7 m ρ),
    .region (reg8 m ρ),
    .region (reg9 m ρ),
    .host (hseg hostOps10 hostOps10_sub hostOps10_fresh (W11 m ρ)) ]
theorem main_run (c : Dev nD) : main (F := F) c = Pipeline.Seg.run (segs m ρ) := (main_chain c).trans (by chain_rfl)

set_option backward.isDefEq.respectTransparency.types false in
theorem run : θ_run defs (onTc (τ := τ) (main (F := F))) ⟨m, fun _ => 0, ρ⟩
    (fun r => ∀ c : Dev nD, ∀ b ∈ Pipeline.ucRefs τ sig, r.2.mem ((c : Thread nD τ).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun c =>
        show iprop(StableHlo.held (c : Thread nD τ) (Pipeline.ucRefs τ sig) (W12 m ρ c) ∗ R c)
            ⊢ iprop(Tₙ m ρ c ∗ ∃ W, owes (c : Thread nD τ) (0 : CellTallies nD τ sig Unit) W) from by
          iintro ⟨Hh, Hp, HO⟩
          isplitl [Hh Hp]
          · isplitl [Hh]; · iexact Hh
            iexact Hp
          iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨
    (h c _ (mem_uc main_arg0 (by decide))).trans (W12_main_arg0 m ρ c),
    (h c _ (mem_uc main_arg1 (by decide))).trans (W12_main_arg1 m ρ c),
    (h c _ (mem_uc main_arg2 (by decide))).trans (W12_main_arg2 m ρ c),
    (h c _ (mem_uc main_arg3 (by decide))).trans (W12_main_arg3 m ρ c),
    (h c _ (mem_uc main_arg4 (by decide))).trans (W12_main_arg4 m ρ c),
    (h c _ (mem_uc main_arg5 (by decide))).trans (W12_main_arg5 m ρ c),
    (h c _ (mem_uc main_arg6 (by decide))).trans (W12_main_arg6 m ρ c),
    (h c _ (mem_uc main_arg7 (by decide))).trans (W12_main_arg7 m ρ c),
    (h c _ (mem_uc main_arg8 (by decide))).trans (W12_main_arg8 m ρ c),
    (h c _ (mem_uc main_arg9 (by decide))).trans (W12_main_arg9 m ρ c),
    (h c _ (mem_uc main_arg10 (by decide))).trans (W12_main_arg10 m ρ c),
    (h c _ (mem_uc main_arg11 (by decide))).trans (W12_main_arg11 m ρ c),
    (h c _ (mem_uc main_arg12 (by decide))).trans (W12_main_arg12 m ρ c)⟩) (run m ρ)

end Cert.KernelIdeal.Hand
end
-- ==== Proof.Spec.lean ====
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

abbrev Mat (r c : ℕ) : Type := (⟨2, ![r, c]⟩ : Shape).Idx → EReal

def mm {M K N : ℕ} (A : Mat M K) (B : Mat K N) : Mat M N :=
  fun j => ∑ k : Fin K, A (ix2 (j 0) k) * B (ix2 k (j 1))

def gate (pe : Mat 8192 128) (w : Mat 128 128) (b : Mat 1 128) : Mat 8192 128 :=
  fun j => pe j * Ideal.logistic (mm pe w j + b (ix2 0 (j 1)))

def addm {r c : ℕ} (x y : Mat r c) : Mat r c := fun j => x j + y j

def axpy {r c : ℕ} (s : EReal) (x y : Mat r c) : Mat r c := fun j => x j + s * y j

def mmBelow {M K N : ℕ} (T : ℕ) (A : Mat M K) (B : Mat K N) : Mat M N :=
  fun j => ∑ k : Fin K, if k.val < T then A (ix2 (j 0) k) * B (ix2 k (j 1)) else 0

theorem mm_apply {M K N : ℕ} (A : Mat M K) (B : Mat K N) (p : Fin M) (q : Fin N) :
    mm A B (ix2 p q) = ∑ k : Fin K, A (ix2 p k) * B (ix2 k q) := rfl

theorem gate_apply (pe : Mat 8192 128) (w : Mat 128 128) (b : Mat 1 128) (p : Fin 8192) (q : Fin 128) :
    gate pe w b (ix2 p q)
      = pe (ix2 p q) * Ideal.logistic ((∑ k : Fin 128, pe (ix2 p k) * w (ix2 k q)) + b (ix2 0 q)) := rfl

theorem addm_apply {r c : ℕ} (x y : Mat r c) (j : (⟨2, ![r, c]⟩ : Shape).Idx) : addm x y j = x j + y j := rfl

theorem axpy_apply {r c : ℕ} (s : EReal) (x y : Mat r c) (j : (⟨2, ![r, c]⟩ : Shape).Idx) :
    axpy s x y j = x j + s * y j := rfl

theorem sum_blocks {α : Type*} [AddCommMonoid α] (n b : ℕ) (f : Fin (n * b) → α) :
    ∑ k, f k = ∑ t : Fin n, ∑ i : Fin b, f ⟨t.val * b + i.val, by
      have ht := t.isLt; have hi := i.isLt
      calc t.val * b + i.val < t.val * b + b := by omega
        _ = (t.val + 1) * b := by ring
        _ ≤ n * b := Nat.mul_le_mul_right b ht⟩ := by
  rw [← Equiv.sum_comp finProdFinEquiv f, Fintype.sum_prod_type]
  refine Finset.sum_congr rfl fun t _ => Finset.sum_congr rfl fun i _ => congrArg f (Fin.ext ?_)
  show i.val + b * t.val = t.val * b + i.val
  ring

theorem mmBelow_zero {M K N : ℕ} (A : Mat M K) (B : Mat K N) (j : (⟨2, ![M, N]⟩ : Shape).Idx) :
    mmBelow 0 A B j = 0 := by
  unfold mmBelow
  exact Finset.sum_eq_zero fun k _ => if_neg (Nat.not_lt_zero _)

theorem mmBelow_full {M K N : ℕ} (T : ℕ) (hT : K ≤ T) (A : Mat M K) (B : Mat K N) :
    mmBelow T A B = mm A B := by
  funext j
  unfold mmBelow mm
  exact Finset.sum_congr rfl fun k _ => if_pos (lt_of_lt_of_le k.isLt hT)

theorem mmBelow_add_block {M K N : ℕ} (T b : ℕ) (hTb : T + b ≤ K) (A : Mat M K) (B : Mat K N)
    (j : (⟨2, ![M, N]⟩ : Shape).Idx) :
    mmBelow (T + b) A B j
      = mmBelow T A B j
        + ∑ i : Fin b, A (ix2 (j 0) (⟨T + i.val, by have := i.isLt; omega⟩ : Fin K))
            * B (ix2 (⟨T + i.val, by have := i.isLt; omega⟩ : Fin K) (j 1)) := by
  unfold mmBelow
  generalize hg : (fun k : Fin K => A (ix2 (j 0) k) * B (ix2 k (j 1))) = g
  have hg' : ∀ k, A (ix2 (j 0) k) * B (ix2 k (j 1)) = g k := fun k => congrFun hg k
  simp only [hg']
  have hsplit : ∀ k : Fin K, (if k.val < T + b then g k else 0)
      = (if k.val < T then g k else 0) + (if T ≤ k.val ∧ k.val < T + b then g k else 0) := by
    intro k
    by_cases h1 : k.val < T
    · rw [if_pos h1, if_pos (by omega), if_neg (by omega), add_zero]
    · by_cases h2 : k.val < T + b
      · rw [if_neg h1, if_pos h2, if_pos ⟨by omega, h2⟩, zero_add]
      · rw [if_neg h1, if_neg h2, if_neg (fun h => h2 h.2), add_zero]
  rw [Finset.sum_congr rfl fun k _ => hsplit k, Finset.sum_add_distrib]
  congr 1
  rw [← Finset.sum_filter]
  symm
  refine Finset.sum_bij (fun (i : Fin b) _ => (⟨T + i.val, by have := i.isLt; omega⟩ : Fin K)) ?_ ?_ ?_ ?_
  · intro i _
    have := i.isLt
    exact Finset.mem_filter.mpr ⟨Finset.mem_univ _, by show T ≤ T + i.val; omega, by show T + i.val < T + b; omega⟩
  · intro i _ i' _ h
    have h' : T + i.val = T + i'.val := congrArg Fin.val h
    exact Fin.ext (by omega)
  · intro k hk
    have hk' := (Finset.mem_filter.mp hk).2
    exact ⟨⟨k.val - T, by omega⟩, Finset.mem_univ _, Fin.ext (by show T + (k.val - T) = k.val; omega)⟩
  · intro i _
    rfl

theorem mul_add_of_nonneg {s : EReal} (hs : 0 ≤ s) (hs' : s ≠ ⊤) (a b : EReal) : s * (a + b) = s * a + s * b :=
  EReal.left_distrib_of_nonneg_of_ne_top hs hs' a b

theorem mul_sum_of_nonneg {ι : Type*} {s : EReal} (hs : 0 ≤ s) (hs' : s ≠ ⊤) (S : Finset ι) (f : ι → EReal) :
    s * ∑ i ∈ S, f i = ∑ i ∈ S, s * f i := by
  classical
  induction S using Finset.induction_on with
  | empty => simp
  | insert a S ha ih =>
    rw [Finset.sum_insert ha, Finset.sum_insert ha, EReal.left_distrib_of_nonneg_of_ne_top hs hs', ih]

theorem sub_add_cancel_real (m : EReal) (r : ℝ) : (m - (r : EReal)) + (r : EReal) = m := EReal.sub_add_cancel

theorem sub_add_cancel_of_eq_coe (m x : EReal) (r : ℝ) (hx : x = (r : EReal)) : (m - x) + x = m := by
  subst hx; exact EReal.sub_add_cancel

theorem logistic_real (y : EReal) : ∃ r : ℝ, Ideal.logistic y = (r : EReal) := by
  induction y using EReal.rec with
  | bot => exact ⟨0, by rw [Ideal.logistic_bot, EReal.coe_zero]⟩
  | top => exact ⟨1, by rw [Ideal.logistic_top, EReal.coe_one]⟩
  | coe r => exact ⟨_, Ideal.logistic_coe r⟩

theorem gate_real (pe : Mat 8192 128) (w : Mat 128 128) (b : Mat 1 128) (j : (⟨2, ![8192, 128]⟩ : Shape).Idx)
    (r : ℝ) (hr : pe j = (r : EReal)) : ∃ g : ℝ, gate pe w b j = (g : EReal) := by
  obtain ⟨l, hl⟩ := logistic_real (mm pe w j + b (ix2 0 (j 1)))
  refine ⟨r * l, ?_⟩
  show pe j * Ideal.logistic (mm pe w j + b (ix2 0 (j 1))) = _
  rw [hr, hl, EReal.coe_mul]

theorem ofBits_one : Ideal.ofBits .f32 0x3F800000#32 = 1 := by
  simp [Ideal.ofBits, Ideal.ieee, -EReal.coe_mul]; norm_num

theorem ofBits_scale : Ideal.ofBits .f32 0x3ECCCCCD#32 = (((13421773 : ℝ) / 33554432 : ℝ) : EReal) := by
  simp [Ideal.ofBits, Ideal.ieee, -EReal.coe_mul]; norm_num

theorem ofBits_scale_nonneg : 0 ≤ Ideal.ofBits .f32 0x3ECCCCCD#32 := by
  rw [ofBits_scale]; exact EReal.coe_nonneg.mpr (by norm_num)

theorem ofBits_scale_ne_top : Ideal.ofBits .f32 0x3ECCCCCD#32 ≠ ⊤ := by
  rw [ofBits_scale]; exact EReal.coe_ne_top _

end Cert.Spec

end
-- ==== Proof.RefSide.lean ====
import proofs.«120173_j18854906429546_1_alg».proof.Defs
import proofs.«120173_j18854906429546_1_alg».proof.Proof.Gen.ReferenceIdeal.Run
import proofs.«120173_j18854906429546_1_alg».proof.Proof.Gen.ReferenceIdeal.Read
import proofs.«120173_j18854906429546_1_alg».proof.Proof.Spec

noncomputable section

open scoped BigOperators

namespace Cert.ReferenceIdeal.RefSide

open Cert.ReferenceIdeal Cert.ReferenceIdeal.Gen Idealize.ShloMosaic Idealize.ShloMosaic.TcCoe Idealize.SL.Sem
open Idealize.ShloMosaic.ValueIdx

def oneR : FVec Ideal S8192x128 .f32 :=
  broadcastInDim S8192x128 ![] bcast_S_S8192x128 (constant (F := Ideal) S_ .f32 0x3F800000#32)

def scaleR : FVec Ideal S8192x128 .f32 :=
  broadcastInDim S8192x128 ![] bcast_S_S8192x128 (constant (F := Ideal) S_ .f32 0x3ECCCCCD#32)

def sliceR (a0 : FVec Ideal S8193x128 .f32) : FVec Ideal S8192x128 .f32 :=
  extractStridedSlice S8192x128 ![0, 0] a0 slices_S8193x128_S8192x128_0_0

def mmPW (pe : FVec Ideal S8192x128 .f32) (w : FVec Ideal S128x128 .f32) : FVec Ideal S8192x128 .f32 :=
  Host.dotGeneral (F := Ideal) dot_S8192x128_S128x128_S8192x128_1_0_0_1_n_n none pe w

def gateR (pe : FVec Ideal S8192x128 .f32) (w : FVec Ideal S128x128 .f32) (b : FVec Ideal S1x128 .f32) :
    FVec Ideal S8192x128 .f32 :=
  mulf pe (Host.divf (F := Ideal) oneR (addf oneR (Host.exp (F := Ideal) (Host.negf (F := Ideal)
    (addf (mmPW pe w)
      (broadcastInDim S8192x128 ![0, 1] bcast_S1x128_S8192x128_0_1 b))))))

def mmUP (a : FVec Ideal S4096x8192 .f32) (x : FVec Ideal S8192x128 .f32) : FVec Ideal S4096x128 .f32 :=
  Host.dotGeneral (F := Ideal) dot_S4096x8192_S8192x128_S4096x128_1_0_0_1_n_n none a x

def mmPU (a : FVec Ideal S8192x4096 .f32) (x : FVec Ideal S4096x128 .f32) : FVec Ideal S8192x128 .f32 :=
  Host.dotGeneral (F := Ideal) dot_S8192x4096_S4096x128_S8192x128_1_0_0_1_n_n none a x

def mmPP (a : FVec Ideal S8192x8192 .f32) (x : FVec Ideal S8192x128 .f32) : FVec Ideal S8192x128 .f32 :=
  Host.dotGeneral (F := Ideal) dot_S8192x8192_S8192x128_S8192x128_1_0_0_1_n_n none a x

def eulerR (x M : FVec Ideal S8192x128 .f32) : FVec Ideal S8192x128 .f32 :=
  addf x (mulf oneR (addf (subf M x) x))

def tailR (hg geo tr : FVec Ideal S8192x128 .f32) (u1 u2 : FVec Ideal S4096x128 .f32) (idx : IVec S1024 32) :
    FVec Ideal S26624x128 .f32 :=
  concatenate S26624x128 0
    [⟨S8192x128, hg⟩, ⟨S8192x128, geo⟩, ⟨S8192x128, tr⟩,
     ⟨S1024x128, Host.gather gather_S4096x128_S1024x1_S1024x128_1_0_n_n_0_1_1128 u1
        (broadcastInDim S1024x1 ![0] bcast_S1024_S1024x1_0
          (select (cmpi .slt idx (broadcastInDim S1024 ![] bcast_S_S1024 (constantI S_ 32 0#32)))
            (addi idx (broadcastInDim S1024 ![] bcast_S_S1024 (constantI S_ 32 4096#32))) idx))⟩,
     ⟨S1024x128, Host.gather gather_S4096x128_S1024x1_S1024x128_1_0_n_n_0_1_1128 u2
        (broadcastInDim S1024x1 ![0] bcast_S1024_S1024x1_0
          (select (cmpi .slt idx (broadcastInDim S1024 ![] bcast_S_S1024 (constantI S_ 32 0#32)))
            (addi idx (broadcastInDim S1024 ![] bcast_S_S1024 (constantI S_ 32 4096#32))) idx))⟩]
    concatenates_S8192x128_S8192x128_S8192x128_S1024x128_S1024x128_S26624x128_d0

def stagedR (a0 : FVec Ideal S8193x128 .f32) (a1 : FVec Ideal S128x128 .f32) (a2 : FVec Ideal S1x128 .f32)
    (a3 : FVec Ideal S128x128 .f32) (a4 : FVec Ideal S1x128 .f32) (a5 : FVec Ideal S128x128 .f32)
    (a6 : FVec Ideal S1x128 .f32) (a7 : FVec Ideal S4096x8192 .f32) (a8 : FVec Ideal S8192x4096 .f32)
    (a9 : FVec Ideal S8192x4096 .f32) (a10 : FVec Ideal S4096x8192 .f32) (a11 : FVec Ideal S8192x8192 .f32)
    (idx : IVec S1024 32) : FVec Ideal S26624x128 .f32 :=
  tailR (eulerR (gateR (sliceR a0) a5 a6) (mmPU a8 (mmUP a7 (gateR (sliceR a0) a5 a6))))
    (eulerR (gateR (sliceR a0) a1 a2) (mulf scaleR (mmPP a11 (gateR (sliceR a0) a1 a2))))
    (eulerR (gateR (sliceR a0) a3 a4) (mmPU a9 (mmUP a10 (gateR (sliceR a0) a3 a4))))
    (mmUP a7 (eulerR (gateR (sliceR a0) a5 a6) (mmPU a8 (mmUP a7 (gateR (sliceR a0) a5 a6)))))
    (mmUP a7 (eulerR (gateR (sliceR a0) a1 a2) (mulf scaleR (mmPP a11 (gateR (sliceR a0) a1 a2)))))
    idx

set_option maxRecDepth 8192 in
theorem res_staged (m : (ℓ : Loc nD τ sig) → Buf (Elt Ideal) ℓ) (c : Dev nD) :
    Value.res_out0 (F := Ideal) m c
      = stagedR (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) := by
  show Value.res_main_v69 (F := Ideal) m c = _
  unfold Value.res_main_v69 stagedR tailR eulerR gateR mmPW mmUP mmPU mmPP sliceR oneR scaleR
  rfl

theorem oneR_apply (j : S8192x128.Idx) : oneR j = 1 := Cert.Spec.ofBits_one

theorem scaleR_apply (j : S8192x128.Idx) : scaleR j = Ideal.ofBits .f32 0x3ECCCCCD#32 := rfl

theorem sliceR_apply (a0 : FVec Ideal S8193x128 .f32) (j : S8192x128.Idx) :
    sliceR a0 j = a0 (ix2 (⟨(j 0).val, by have := idx2_lt0 j; omega⟩ : Fin 8193) (j 1)) :=
  extractStridedSlice_apply ![0, 0] a0 slices_S8193x128_S8192x128_0_0 j _ (fun a => match a with
    | ⟨0, _⟩ => by show (j 0).val = 0 + (j 0).val; omega
    | ⟨1, _⟩ => by show (j 1).val = 0 + (j 1).val; omega)

/-- At an axis that is neither batched nor contracted, the left index reads the result index at that axis's place. -/
theorem lhsIdx_val_free {sl sr so : Shape} (d : DotDims sl sr so) {a : Fin sl.rank} (hb : a ∉ d.lhsBatch)
    (hn : a ∈ d.lhsNonContracting) (j : so.Idx) (k : d.contr.Idx) (b : Fin so.rank)
    (hp : d.lhsBatch.length + d.lhsNonContracting.idxOf a = b.val) : (d.lhsIdx j k a).val = (j b).val := by
  unfold DotDims.lhsIdx
  rw [dif_neg hb, dif_pos hn]
  obtain ⟨_, _⟩ := b
  subst hp
  rfl

theorem rhsIdx_val_free {sl sr so : Shape} (d : DotDims sl sr so) {a : Fin sr.rank} (hb : a ∉ d.rhsBatch)
    (hn : a ∈ d.rhsNonContracting) (j : so.Idx) (k : d.contr.Idx) (b : Fin so.rank)
    (hp : d.lhsBatch.length + d.lhsNonContracting.length + d.rhsNonContracting.idxOf a = b.val) :
    (d.rhsIdx j k a).val = (j b).val := by
  unfold DotDims.rhsIdx
  rw [dif_neg hb, dif_pos hn]
  obtain ⟨_, _⟩ := b
  subst hp
  rfl

/-- A product that contracts the left operand's second axis with the right operand's first, no batch axis, is the matrix product. -/
theorem dot_eq_mm {M K N : ℕ} (d : DotDims ⟨2, ![M, K]⟩ ⟨2, ![K, N]⟩ ⟨2, ![M, N]⟩) (hc : d.contr.rank = 1)
    (hs : d.contr.size ⟨0, by rw [hc]; exact Nat.one_pos⟩ = K) (hl : d.lhsContracting = [1]) (hr : d.rhsContracting = [0])
    (hln : d.lhsNonContracting = [0]) (hrn : d.rhsNonContracting = [1]) (hlb : d.lhsBatch = []) (hrb : d.rhsBatch = [])
    (a : FVec Ideal ⟨2, ![M, K]⟩ .f32) (x : FVec Ideal ⟨2, ![K, N]⟩ .f32) :
    Host.dotGeneral (F := Ideal) d none a x = Cert.Spec.mm a x := by
  funext j
  simp only [Host.dotGeneral]
  rw [Ideal.dotGeneral_apply, ← Equiv.sum_comp (ValueIdx.contrEquiv1 d K hc hs).symm]
  refine Finset.sum_congr rfl fun k _ => ?_
  have hk := ValueIdx.contrEquiv1_symm_val d K hc hs k
  have el : d.lhsIdx j ((ValueIdx.contrEquiv1 d K hc hs).symm k) = ix2 (j 0) k := funext fun a => Fin.ext (by
    match a with
    | ⟨0, _⟩ => exact lhsIdx_val_free d (a := 0) (by rw [hlb]; exact List.not_mem_nil) (by rw [hln]; exact List.mem_singleton.mpr rfl) _ _ 0 (by rw [hlb, hln]; rfl)
    | ⟨1, _⟩ => exact (d.lhsIdx_val_of_single hl _ _).trans hk)
  have er : d.rhsIdx j ((ValueIdx.contrEquiv1 d K hc hs).symm k) = ix2 k (j 1) := funext fun a => Fin.ext (by
    match a with
    | ⟨0, _⟩ => exact (d.rhsIdx_val_of_single hr _ _).trans hk
    | ⟨1, _⟩ => exact rhsIdx_val_free d (a := 1) (by rw [hrb]; exact List.not_mem_nil) (by rw [hrn]; exact List.mem_singleton.mpr rfl) _ _ 1 (by rw [hlb, hln, hrn]; rfl))
  rw [el, er]
  rfl

theorem mmPW_eq (a : FVec Ideal S8192x128 .f32) (x : FVec Ideal S128x128 .f32) :
    mmPW a x = Cert.Spec.mm (M := 8192) (K := 128) (N := 128) a x :=
  dot_eq_mm _ rfl rfl rfl rfl rfl rfl rfl rfl a x

theorem mmUP_eq (a : FVec Ideal S4096x8192 .f32) (x : FVec Ideal S8192x128 .f32) :
    mmUP a x = Cert.Spec.mm (M := 4096) (K := 8192) (N := 128) a x :=
  dot_eq_mm _ rfl rfl rfl rfl rfl rfl rfl rfl a x

theorem mmPU_eq (a : FVec Ideal S8192x4096 .f32) (x : FVec Ideal S4096x128 .f32) :
    mmPU a x = Cert.Spec.mm (M := 8192) (K := 4096) (N := 128) a x :=
  dot_eq_mm _ rfl rfl rfl rfl rfl rfl rfl rfl a x

theorem mmPP_eq (a : FVec Ideal S8192x8192 .f32) (x : FVec Ideal S8192x128 .f32) :
    mmPP a x = Cert.Spec.mm (M := 8192) (K := 8192) (N := 128) a x :=
  dot_eq_mm _ rfl rfl rfl rfl rfl rfl rfl rfl a x

theorem bias_apply (b : FVec Ideal S1x128 .f32) (j : S8192x128.Idx) :
    broadcastInDim S8192x128 ![0, 1] bcast_S1x128_S8192x128_0_1 b j = b (ix2 0 (j 1)) :=
  broadcastInDim_apply _ bcast_S1x128_S8192x128_0_1 b j (ix2 0 (j 1)) (fun a => match a with
    | ⟨0, _⟩ => by show 0 = if (1 : Nat) = 1 then 0 else (j 0).val; rw [if_pos rfl]
    | ⟨1, _⟩ => by show (j 1).val = if (128 : Nat) = 1 then 0 else (j 1).val; rw [if_neg (by decide)])

theorem gateR_eq (pe : FVec Ideal S8192x128 .f32) (w : FVec Ideal S128x128 .f32) (b : FVec Ideal S1x128 .f32) :
    gateR pe w b = Cert.Spec.gate pe w b := by
  funext j
  show pe j * Ideal.div (oneR j) (oneR j + Ideal.exp (-(mmPW pe w j
      + broadcastInDim S8192x128 ![0, 1] bcast_S1x128_S8192x128_0_1 b j))) = _
  rw [oneR_apply, mmPW_eq, bias_apply]
  rfl

theorem eulerR_eq (x M : FVec Ideal S8192x128 .f32) (hx : ∀ j, ∃ r : ℝ, x j = (r : EReal)) :
    eulerR x M = Cert.Spec.addm x M := by
  funext j
  obtain ⟨r, hr⟩ := hx j
  show x j + oneR j * ((M j - x j) + x j) = x j + M j
  rw [oneR_apply, one_mul, Cert.Spec.sub_add_cancel_of_eq_coe _ _ r hr]

theorem eulerR_scale_eq (x M : FVec Ideal S8192x128 .f32) (hx : ∀ j, ∃ r : ℝ, x j = (r : EReal)) :
    eulerR x (mulf scaleR M) = Cert.Spec.axpy (Ideal.ofBits .f32 0x3ECCCCCD#32) x M := by
  rw [eulerR_eq x _ hx]
  rfl

abbrev hgS (pe : FVec Ideal S8192x128 .f32) (a5 : FVec Ideal S128x128 .f32) (a6 : FVec Ideal S1x128 .f32)
    (a7 : FVec Ideal S4096x8192 .f32) (a8 : FVec Ideal S8192x4096 .f32) : FVec Ideal S8192x128 .f32 :=
  Cert.Spec.addm (Cert.Spec.gate pe a5 a6) (Cert.Spec.mm a8 (Cert.Spec.mm a7 (Cert.Spec.gate pe a5 a6)))
abbrev geoS (pe : FVec Ideal S8192x128 .f32) (a1 : FVec Ideal S128x128 .f32) (a2 : FVec Ideal S1x128 .f32)
    (a11 : FVec Ideal S8192x8192 .f32) : FVec Ideal S8192x128 .f32 :=
  Cert.Spec.axpy (Ideal.ofBits .f32 0x3ECCCCCD#32) (Cert.Spec.gate pe a1 a2) (Cert.Spec.mm a11 (Cert.Spec.gate pe a1 a2))
abbrev trS (pe : FVec Ideal S8192x128 .f32) (a3 : FVec Ideal S128x128 .f32) (a4 : FVec Ideal S1x128 .f32)
    (a9 : FVec Ideal S8192x4096 .f32) (a10 : FVec Ideal S4096x8192 .f32) : FVec Ideal S8192x128 .f32 :=
  Cert.Spec.addm (Cert.Spec.gate pe a3 a4) (Cert.Spec.mm a9 (Cert.Spec.mm a10 (Cert.Spec.gate pe a3 a4)))

theorem stagedR_eq (a0 : FVec Ideal S8193x128 .f32) (a1 : FVec Ideal S128x128 .f32) (a2 : FVec Ideal S1x128 .f32)
    (a3 : FVec Ideal S128x128 .f32) (a4 : FVec Ideal S1x128 .f32) (a5 : FVec Ideal S128x128 .f32)
    (a6 : FVec Ideal S1x128 .f32) (a7 : FVec Ideal S4096x8192 .f32) (a8 : FVec Ideal S8192x4096 .f32)
    (a9 : FVec Ideal S8192x4096 .f32) (a10 : FVec Ideal S4096x8192 .f32) (a11 : FVec Ideal S8192x8192 .f32)
    (idx : IVec S1024 32) (hpe : ∀ j, ∃ r : ℝ, sliceR a0 j = (r : EReal)) :
    stagedR a0 a1 a2 a3 a4 a5 a6 a7 a8 a9 a10 a11 idx
      = tailR (hgS (sliceR a0) a5 a6 a7 a8) (geoS (sliceR a0) a1 a2 a11) (trS (sliceR a0) a3 a4 a9 a10)
          (Cert.Spec.mm a7 (hgS (sliceR a0) a5 a6 a7 a8)) (Cert.Spec.mm a7 (geoS (sliceR a0) a1 a2 a11)) idx := by
  unfold stagedR
  generalize sliceR a0 = pe at hpe ⊢
  have h1 := fun j => Cert.Spec.gate_real pe a1 a2 j _ (hpe j).choose_spec
  have h2 := fun j => Cert.Spec.gate_real pe a3 a4 j _ (hpe j).choose_spec
  have h3 := fun j => Cert.Spec.gate_real pe a5 a6 j _ (hpe j).choose_spec
  simp only [gateR_eq, mmUP_eq, mmPU_eq, mmPP_eq]
  rw [eulerR_eq _ _ h3, eulerR_eq _ _ h2, eulerR_scale_eq _ _ h1]

theorem ref_result (m : (ℓ : Loc nD τ sig) → Buf (Elt Ideal) ℓ) (c : Dev nD)
    (hpe : ∀ j, ∃ r : ℝ, sliceR (m ((c.tc : Thread nD τ).loc main_arg0)) j = (r : EReal)) :
    Value.res_out0 (F := Ideal) m c
      = tailR
          (hgS (sliceR (m ((c.tc : Thread nD τ).loc main_arg0))) (m ((c.tc : Thread nD τ).loc main_arg5))
            (m ((c.tc : Thread nD τ).loc main_arg6)) (m ((c.tc : Thread nD τ).loc main_arg7)) (m ((c.tc : Thread nD τ).loc main_arg8)))
          (geoS (sliceR (m ((c.tc : Thread nD τ).loc main_arg0))) (m ((c.tc : Thread nD τ).loc main_arg1))
            (m ((c.tc : Thread nD τ).loc main_arg2)) (m ((c.tc : Thread nD τ).loc main_arg11)))
          (trS (sliceR (m ((c.tc : Thread nD τ).loc main_arg0))) (m ((c.tc : Thread nD τ).loc main_arg3))
            (m ((c.tc : Thread nD τ).loc main_arg4)) (m ((c.tc : Thread nD τ).loc main_arg9)) (m ((c.tc : Thread nD τ).loc main_arg10)))
          (Cert.Spec.mm (m ((c.tc : Thread nD τ).loc main_arg7))
            (hgS (sliceR (m ((c.tc : Thread nD τ).loc main_arg0))) (m ((c.tc : Thread nD τ).loc main_arg5))
              (m ((c.tc : Thread nD τ).loc main_arg6)) (m ((c.tc : Thread nD τ).loc main_arg7)) (m ((c.tc : Thread nD τ).loc main_arg8))))
          (Cert.Spec.mm (m ((c.tc : Thread nD τ).loc main_arg7))
            (geoS (sliceR (m ((c.tc : Thread nD τ).loc main_arg0))) (m ((c.tc : Thread nD τ).loc main_arg1))
              (m ((c.tc : Thread nD τ).loc main_arg2)) (m ((c.tc : Thread nD τ).loc main_arg11))))
          (m ((c.tc : Thread nD τ).loc main_arg12)) :=
  (res_staged m c).trans (stagedR_eq _ _ _ _ _ _ _ _ _ _ _ _ _ hpe)

end Cert.ReferenceIdeal.RefSide

end
-- ==== Proof.KiHost.lean ====
import proofs.«120173_j18854906429546_1_alg».proof.Proof.Gen.KernelIdeal.Launch
import proofs.«120173_j18854906429546_1_alg».proof.Proof.RefSide
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

def sliceK (a0 : FVec Ideal S8193x128 .f32) : FVec Ideal S8192x128 .f32 :=
  extractStridedSlice S8192x128 ![0, 0] a0 slices_S8193x128_S8192x128_0_0

def tailK (hg geo tr : FVec Ideal S8192x128 .f32) (u1 u2 : FVec Ideal S4096x128 .f32) (idx : IVec S1024 32) :
    FVec Ideal S26624x128 .f32 :=
  concatenate S26624x128 0
    [⟨S8192x128, hg⟩, ⟨S8192x128, geo⟩, ⟨S8192x128, tr⟩,
     ⟨S1024x128, Host.gather gather_S4096x128_S1024x1_S1024x128_1_0_n_n_0_1_1128 u1
        (broadcastInDim S1024x1 ![0] bcast_S1024_S1024x1_0
          (select (cmpi .slt idx (broadcastInDim S1024 ![] bcast_S_S1024 (constantI S_ 32 0#32)))
            (addi idx (broadcastInDim S1024 ![] bcast_S_S1024 (constantI S_ 32 4096#32))) idx))⟩,
     ⟨S1024x128, Host.gather gather_S4096x128_S1024x1_S1024x128_1_0_n_n_0_1_1128 u2
        (broadcastInDim S1024x1 ![0] bcast_S1024_S1024x1_0
          (select (cmpi .slt idx (broadcastInDim S1024 ![] bcast_S_S1024 (constantI S_ 32 0#32)))
            (addi idx (broadcastInDim S1024 ![] bcast_S_S1024 (constantI S_ 32 4096#32))) idx))⟩]
    concatenates_S8192x128_S8192x128_S8192x128_S1024x128_S1024x128_S26624x128_d0

theorem after_head_slice (W : Valuation τ sig (Elt Ideal)) :
    StableHlo.after (hostOps0 (F := Ideal)) W (Proc.devRef .tc main_v0) = sliceK (W (Proc.devRef .tc main_arg0)) := by
  after_results
  rfl

theorem after_head_of_ne (W : Valuation τ sig (Elt Ideal)) (b : Ref sig .tc) (hb : b ≠ main_v0) :
    StableHlo.after (hostOps0 (F := Ideal)) W (Proc.devRef .tc b) = W (Proc.devRef .tc b) := by
  simp only [after_cons, after_nil]
  rw [unary_result_ne]
  exact hb

theorem after_tail (W : Valuation τ sig (Elt Ideal)) :
    StableHlo.after (hostOps10 (F := Ideal)) W (Proc.devRef .tc main_v25)
      = tailK (W (Proc.devRef .tc main_v5)) (W (Proc.devRef .tc main_v6)) (W (Proc.devRef .tc main_v8))
          (W (Proc.devRef .tc main_v9)) (W (Proc.devRef .tc main_v10)) (W (Proc.devRef .tc main_arg12)) := by
  after_results_simp <;> rfl

theorem slice_eq : sliceK = Cert.ReferenceIdeal.RefSide.sliceR := rfl

theorem tail_eq : tailK = Cert.ReferenceIdeal.RefSide.tailR := rfl

end Cert.KernelIdeal.Hand

end
-- ==== Proof.PayGate.lean ====
import proofs.«120173_j18854906429546_1_alg».proof.Proof.KiGateBody
import Idealize.ShloMosaic.PureOps.Ideal.Laws
import Idealize.ShloMosaic.Lib.ValueIdx
import Idealize.ShloMosaic.Lib.ValueLayout
noncomputable section
open scoped BigOperators
namespace Cert.KernelIdeal.Pay
open Cert.KernelIdeal Cert.KernelIdeal.Gen Cert.KernelIdeal.Hand
open Idealize.ShloMosaic Idealize.ShloMosaic.ValueIdx

/-- The block product into the zero accumulator, at `(p, q)`: the sum over `k` of `x (p, k) * w (k, q)`. -/
theorem matmul_gate_apply (x : FVec Ideal S1024x128 .f32) (w : FVec Ideal S128x128 .f32) (p : Fin 1024) (q : Fin 128) :
    matmul dot_S1024x128_S128x128_S1024x128_1_0_0_1_n_n none x w (constant S1024x128 .f32 0x00000000#32) (ix2 p q) = ∑ k : Fin 128, x (ix2 p k) * w (ix2 k q) := by
  simp only [matmul]
  rw [Ideal.matmul_constant_zero_apply, ← Equiv.sum_comp (contrEquiv1 dot_S1024x128_S128x128_S1024x128_1_0_0_1_n_n 128 rfl rfl).symm]
  refine Finset.sum_congr rfl fun k _ => ?_
  have hk := contrEquiv1_symm_val dot_S1024x128_S128x128_S1024x128_1_0_0_1_n_n 128 rfl rfl k
  have el : dot_S1024x128_S128x128_S1024x128_1_0_0_1_n_n.lhsIdx (ix2 p q) ((contrEquiv1 dot_S1024x128_S128x128_S1024x128_1_0_0_1_n_n 128 rfl rfl).symm k) = ix2 p k :=
    funext fun a => Fin.ext (by match a with | ⟨0, _⟩ => rfl | ⟨1, _⟩ => exact hk)
  have er : dot_S1024x128_S128x128_S1024x128_1_0_0_1_n_n.rhsIdx (ix2 p q) ((contrEquiv1 dot_S1024x128_S128x128_S1024x128_1_0_0_1_n_n 128 rfl rfl).symm k) = ix2 k q :=
    funext fun a => Fin.ext (by match a with | ⟨0, _⟩ => exact hk | ⟨1, _⟩ => rfl)
  rw [el, er]

/-- The stored block at `(p, q)`: the entry of x times the sigmoid of row `p` of x against column `q` of W, plus b's entry `q`. -/
theorem gateOut_apply (x : Vec Ideal S1024x128 .f32) (w : Vec Ideal S128x128 .f32) (b : Vec Ideal S1x128 .f32) (p : Fin 1024) (q : Fin 128) :
    gateOut x w b (ix2 p q) = x (ix2 p q) * Ideal.logistic ((∑ k : Fin 128, x (ix2 p k) * w (ix2 k q)) + b (ix2 0 q)) := by
  unfold gateOut Gen.k0_pay1
  rw [shapeCast_self]
  show x (ix2 p q) * Ideal.logistic (matmul (F := Ideal) dot_S1024x128_S128x128_S1024x128_1_0_0_1_n_n none x w (constant S1024x128 .f32 0x00000000#32) (ix2 p q)
      + broadcastTo S1024x128 b broadcasts_S1x128_S1024x128 (ix2 p q)) = _
  rw [matmul_gate_apply, broadcastTo_1b_ab_apply]

end Cert.KernelIdeal.Pay
-- ==== Proof.ValGate.lean ====
import proofs.«120173_j18854906429546_1_alg».proof.Proof.KiGate0
import proofs.«120173_j18854906429546_1_alg».proof.Proof.KiGate1
import proofs.«120173_j18854906429546_1_alg».proof.Proof.KiGate2
import proofs.«120173_j18854906429546_1_alg».proof.Proof.Spec
import proofs.«120173_j18854906429546_1_alg».proof.Proof.PayGate
noncomputable section
open scoped BigOperators
namespace Cert.KernelIdeal.Hand
open Cert.KernelIdeal Cert.KernelIdeal.Gen
open Idealize.ShloMosaic Idealize.ShloMosaic.TcCoe Idealize.ShloMosaic.ValueIdx Idealize.SL.Sem
open Idealize.ShloMosaic.Pipeline (Dat)
variable (V : (c : Dev nD) → (b : Ref sig .tc) → Buf (Elt Ideal) ((c : Thread nD τ).loc b))
variable (X : Spec.Mat 8192 128) (W : Spec.Mat 128 128) (B : Spec.Mat 1 128)

/-- If `x` is the block of 1024 rows of `X` from row `r · 1024`, the gate of `x` at `y` is the gate of `X` at row `r · 1024 + y₀`: a row of the gate reads that row only. -/
theorem gate_rowBlock (x : Vec Ideal S1024x128 .f32) (r : ℕ)
    (hx : ∀ (p : Fin 1024) (q : Fin 128) (P : Fin 8192), P.val = r * 1024 + p.val → x (ix2 p q) = X (ix2 P q))
    (y : S1024x128.Idx) (i : S8192x128.Idx) (hi0 : (i 0).val = r * 1024 + (y 0).val) (hi1 : (i 1).val = (y 1).val) :
    gateOut x W B y = Spec.gate X W B i := by
  have hq : (i 1 : Fin 128) = y 1 := Fin.ext hi1
  have hrow : ∀ k : Fin 128, x (ix2 (y 0) k) = X (ix2 (i 0) k) := fun k => hx (y 0) k (i 0) hi0
  rw [(congrArg (Spec.gate X W B) (eq_ix2 i)).trans (Spec.gate_apply X W B (i 0) (i 1)),
    (congrArg (gateOut x W B) (eq_ix2 y)).trans (Pay.gateOut_apply x W B (y 0) (y 1)), hq]
  simp only [hrow]
  rw [hrow (y 1)]

/-- The windows' block indices at a point: x and the output move with the point along the rows; W and b stay. -/
theorem gateIdx : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The gate of a point's blocks is that point's block of the gate of the whole arrays; W's and b's blocks are all of W and b. -/
theorem gate_flushed (t : Fin cfg0.N) :
    gateOut (((cfg0.win 0).blk t).view.read (Elt Ideal) X) (((cfg0.win 1).blk t).view.read (Elt Ideal) W)
        (((cfg0.win 2).blk t).view.read (Elt Ideal) B)
      = ((cfg0.win 3).blk t).view.read (Elt Ideal) (Spec.gate X W B) := by
  obtain ⟨e00, e01, e10, e11, e20, e21, e30, e31⟩ := gateIdx t
  have hw : ((cfg0.win 1).blk t).view.read (Elt Ideal) W = W := funext fun z => by
    show W (((cfg0.win 1).blk t).view.emb z) = W z
    refine congrArg W (funext fun a => Fin.ext ?_)
    match a with
    | ⟨0, _⟩ => show win0_1.index t (0 : Fin 2) * 128 + 1 * (z 0).val = (z 0).val; omega
    | ⟨1, _⟩ => show win0_1.index t (1 : Fin 2) * 128 + 1 * (z 1).val = (z 1).val; omega
  have hb : ((cfg0.win 2).blk t).view.read (Elt Ideal) B = B := funext fun z => by
    show B (((cfg0.win 2).blk t).view.emb z) = B z
    refine congrArg B (funext fun a => Fin.ext ?_)
    match a with
    | ⟨0, _⟩ => show win0_2.index t (0 : Fin 2) * 1 + 1 * (z 0).val = (z 0).val; omega
    | ⟨1, _⟩ => show win0_2.index t (1 : Fin 2) * 128 + 1 * (z 1).val = (z 1).val; omega
  rw [hw, hb]
  funext y
  show _ = Spec.gate X W B (((cfg0.win 3).blk t).view.emb y)
  refine gate_rowBlock X W B _ t.val (fun p q P hP => ?_) y _ ?_ ?_
  · show X (((cfg0.win 0).blk t).view.emb (ix2 p q)) = X (ix2 P q)
    refine congrArg X (funext fun a => Fin.ext ?_)
    match a with
    | ⟨0, _⟩ => show win0_0.index t (0 : Fin 2) * 1024 + 1 * p.val = P.val; omega
    | ⟨1, _⟩ => show win0_0.index t (1 : Fin 2) * 128 + 1 * q.val = q.val; omega
  · show win0_3.index t (0 : Fin 2) * 1024 + 1 * (y 0).val = t.val * 1024 + (y 0).val; omega
  · show win0_3.index t (1 : Fin 2) * 128 + 1 * (y 1).val = (y 1).val; omega

/-- Every entry of the output array is in some point's block: row `ρ` is entry `ρ % 1024` of the block of point `ρ / 1024`. -/
theorem gate_covered (i : S8192x128.Idx) :
    ∃ t : Fin cfg0.N, (cfg0.win 3).flush t = true ∧ i ∈ ((cfg0.win 3).blk t).view.set := by
  have hi0 : (i 0).val < 8192 := (i 0).isLt
  have hN : (i 0).val / 1024 < grid0.N := by rw [N_0]; omega
  obtain ⟨-, -, -, -, -, -, e30, e31⟩ := gateIdx ⟨(i 0).val / 1024, hN⟩
  have e30' : win0_3.index ⟨(i 0).val / 1024, hN⟩ (0 : Fin 2) = (i 0).val / 1024 := e30
  have h := ((cfg0.win 3).blk ⟨(i 0).val / 1024, hN⟩).view.emb_mem_set (ix2 ⟨(i 0).val % 1024, Nat.mod_lt _ (by decide)⟩ (i 1))
  rw [show ((cfg0.win 3).blk ⟨(i 0).val / 1024, hN⟩).view.emb (ix2 ⟨(i 0).val % 1024, Nat.mod_lt _ (by decide)⟩ (i 1)) = i from
    funext fun a => Fin.ext (by
      match a with
      | ⟨0, _⟩ => show win0_3.index ⟨(i 0).val / 1024, hN⟩ (0 : Fin 2) * 1024 + 1 * ((i 0).val % 1024) = (i 0).val; omega
      | ⟨1, _⟩ => show win0_3.index ⟨(i 0).val / 1024, hN⟩ (1 : Fin 2) * 128 + 1 * (i 1).val = (i 1).val; omega)] at h
  exact ⟨_, flush0_3 _, h⟩

/-- After each gate region its output array is the gate of its three input arrays. -/
theorem out_eq0 (c : Dev nD) : (dat0 V c).arrAt 3 cfg0.N = Spec.gate (V c main_v0) (V c main_arg1) (V c main_arg2) :=
  (dat0 V c).arrAt_eq_of_cover 3 _ (fun t _ => gate_flushed _ _ _ t) gate_covered
theorem out_eq1 (c : Dev nD) : (dat1 V c).arrAt 3 cfg1.N = Spec.gate (V c main_v0) (V c main_arg3) (V c main_arg4) :=
  (dat1 V c).arrAt_eq_of_cover 3 _ (fun t _ => gate_flushed _ _ _ t) gate_covered
theorem out_eq2 (c : Dev nD) : (dat2 V c).arrAt 3 cfg2.N = Spec.gate (V c main_v0) (V c main_arg5) (V c main_arg6) :=
  (dat2 V c).arrAt_eq_of_cover 3 _ (fun t _ => gate_flushed _ _ _ t) gate_covered

end Cert.KernelIdeal.Hand
-- ==== Proof.PayMm.lean ====
import proofs.«120173_j18854906429546_1_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

open scoped BigOperators

namespace Cert.KernelIdeal.Pay

open Cert.KernelIdeal Cert.KernelIdeal.Gen
open Idealize.ShloMosaic Idealize.ShloMosaic.ValueIdx

theorem lhs_blk_0 (i : S1024x128.Idx) (c : dot_S1024x1024_S1024x128_S1024x128_1_0_0_1_n_n.contr.Idx) :
    (dot_S1024x1024_S1024x128_S1024x128_1_0_0_1_n_n.lhsIdx i c 0).val = (i 0).val := by
  unfold DotDims.lhsIdx
  rw [dif_neg (show ¬(0 : Fin S1024x1024.rank) ∈ dot_S1024x1024_S1024x128_S1024x128_1_0_0_1_n_n.lhsBatch by decide),
    dif_pos (show (0 : Fin S1024x1024.rank) ∈ dot_S1024x1024_S1024x128_S1024x128_1_0_0_1_n_n.lhsNonContracting by decide)]
  rfl

theorem lhs_blk_1 (i : S1024x128.Idx) (c : dot_S1024x1024_S1024x128_S1024x128_1_0_0_1_n_n.contr.Idx) :
    (dot_S1024x1024_S1024x128_S1024x128_1_0_0_1_n_n.lhsIdx i c 1).val = (c ⟨0, by decide⟩).val :=
  dot_S1024x1024_S1024x128_S1024x128_1_0_0_1_n_n.lhsIdx_val_of_single rfl i c

theorem rhs_blk_0 (i : S1024x128.Idx) (c : dot_S1024x1024_S1024x128_S1024x128_1_0_0_1_n_n.contr.Idx) :
    (dot_S1024x1024_S1024x128_S1024x128_1_0_0_1_n_n.rhsIdx i c 0).val = (c ⟨0, by decide⟩).val :=
  dot_S1024x1024_S1024x128_S1024x128_1_0_0_1_n_n.rhsIdx_val_of_single rfl i c

theorem rhs_blk_1 (i : S1024x128.Idx) (c : dot_S1024x1024_S1024x128_S1024x128_1_0_0_1_n_n.contr.Idx) :
    (dot_S1024x1024_S1024x128_S1024x128_1_0_0_1_n_n.rhsIdx i c 1).val = (i 1).val := by
  unfold DotDims.rhsIdx
  rw [dif_neg (show ¬(1 : Fin S1024x128.rank) ∈ dot_S1024x1024_S1024x128_S1024x128_1_0_0_1_n_n.rhsBatch by decide),
    dif_pos (show (1 : Fin S1024x128.rank) ∈ dot_S1024x1024_S1024x128_S1024x128_1_0_0_1_n_n.rhsNonContracting by decide)]
  rfl

/-- The product of a 1024 × 1024 block and a 1024 × 128 block, at an index, is the sum over the contracted coordinate. -/
theorem matmul_blk_apply (a : FVec Ideal S1024x1024 .f32) (b : FVec Ideal S1024x128 .f32) (p : Fin 1024) (q : Fin 128) :
    matmul dot_S1024x1024_S1024x128_S1024x128_1_0_0_1_n_n none a b (constant S1024x128 .f32 0x00000000#32) (ix2 p q)
      = ∑ k : Fin 1024, a (ix2 p k) * b (ix2 k q) := by
  simp only [matmul]
  rw [Ideal.matmul_constant_zero_apply,
    ← Equiv.sum_comp (contrEquiv1 dot_S1024x1024_S1024x128_S1024x128_1_0_0_1_n_n 1024 rfl rfl).symm]
  refine Finset.sum_congr rfl fun k _ => ?_
  have hk := contrEquiv1_symm_val dot_S1024x1024_S1024x128_S1024x128_1_0_0_1_n_n 1024 rfl rfl k
  have el : dot_S1024x1024_S1024x128_S1024x128_1_0_0_1_n_n.lhsIdx (ix2 p q)
      ((contrEquiv1 dot_S1024x1024_S1024x128_S1024x128_1_0_0_1_n_n 1024 rfl rfl).symm k) = ix2 p k :=
    funext fun x => Fin.ext (by
      match x with
      | ⟨0, _⟩ => exact lhs_blk_0 _ _
      | ⟨1, _⟩ => exact (lhs_blk_1 _ _).trans hk)
  have er : dot_S1024x1024_S1024x128_S1024x128_1_0_0_1_n_n.rhsIdx (ix2 p q)
      ((contrEquiv1 dot_S1024x1024_S1024x128_S1024x128_1_0_0_1_n_n 1024 rfl rfl).symm k) = ix2 k q :=
    funext fun x => Fin.ext (by
      match x with
      | ⟨0, _⟩ => exact (rhs_blk_0 _ _).trans hk
      | ⟨1, _⟩ => exact rhs_blk_1 _ _)
  rw [el, er]

theorem k3_pay1_apply (p : Fin 1024) (q : Fin 128) : (Gen.k3_pay1 (F := Ideal)) (ix2 p q) = 0 := by
  unfold Gen.k3_pay1
  rw [shapeCast_self]
  exact Ideal.ofBits_zero_f32

/-- A step's stored value at `(p, q)`: the partial sum plus the blocks' product there. -/
theorem k3_pay2_apply (acc : Vec Ideal S1024x128 .f32) (a : Vec Ideal S1024x1024 .f32) (b : Vec Ideal S1024x128 .f32)
    (p : Fin 1024) (q : Fin 128) :
    Gen.k3_pay2 acc a b (ix2 p q) = acc (ix2 p q) + ∑ k : Fin 1024, a (ix2 p k) * b (ix2 k q) := by
  unfold Gen.k3_pay2
  rw [shapeCast_self, shapeCast_self]
  show acc (ix2 p q) + matmul (F := Ideal) dot_S1024x1024_S1024x128_S1024x128_1_0_0_1_n_n none a b (constant S1024x128 .f32 0x00000000#32) (ix2 p q) = _
  rw [matmul_blk_apply]

end Cert.KernelIdeal.Pay

end
-- ==== Proof.ValMm.lean ====
import proofs.«120173_j18854906429546_1_alg».proof.Proof.KiMm3
import proofs.«120173_j18854906429546_1_alg».proof.Proof.KiMm6
import proofs.«120173_j18854906429546_1_alg».proof.Proof.KiMm8
import proofs.«120173_j18854906429546_1_alg».proof.Proof.KiMm9
import proofs.«120173_j18854906429546_1_alg».proof.Proof.Spec
import proofs.«120173_j18854906429546_1_alg».proof.Proof.PayMm
import Idealize.ShloMosaic.Lib.Pipeline.Value
import Idealize.ShloMosaic.Lib.ValueIdx
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-- `a` is the 1024 × 1024 block of `A` at row `R`, column `T`; `b` the 1024 × 128 block of `B` at row `T`; `acc` the 1024 rows from `R` of `A · B` with the contraction cut off below `T`. -/
def IsLhsBlock (A : Spec.Mat 4096 8192) (R T : ℕ) (a : Vec Ideal S1024x1024 .f32) : Prop :=
  ∀ (p j : Fin 1024) (P : Fin 4096) (J : Fin 8192), P.val = R + p.val → J.val = T + j.val → a (ix2 p j) = A (ix2 P J)

def IsRhsBlock (B : Spec.Mat 8192 128) (T : ℕ) (b : Vec Ideal S1024x128 .f32) : Prop :=
  ∀ (j : Fin 1024) (q : Fin 128) (J : Fin 8192), J.val = T + j.val → b (ix2 j q) = B (ix2 J q)

def IsPartial (A : Spec.Mat 4096 8192) (B : Spec.Mat 8192 128) (R T : ℕ) (acc : Vec Ideal S1024x128 .f32) : Prop :=
  ∀ (p : Fin 1024) (q : Fin 128) (P : Fin 4096), P.val = R + p.val → acc (ix2 p q) = Spec.mmBelow T A B (ix2 P q)

theorem partial_zero (A : Spec.Mat 4096 8192) (B : Spec.Mat 8192 128) (R : ℕ) (z : Vec Ideal S1024x128 .f32)
    (hz : ∀ (p : Fin 1024) (q : Fin 128), z (ix2 p q) = 0) : IsPartial A B R 0 z := by
  intro p q P hP
  rw [hz p q, Spec.mmBelow_zero]

theorem partial_step
    (pay : Vec Ideal S1024x128 .f32 → Vec Ideal S1024x1024 .f32 → Vec Ideal S1024x128 .f32 → FVec Ideal S1024x128 .f32)
    (hpay : ∀ (acc : Vec Ideal S1024x128 .f32) (a : Vec Ideal S1024x1024 .f32) (b : Vec Ideal S1024x128 .f32) (p : Fin 1024) (q : Fin 128),
      pay acc a b (ix2 p q) = acc (ix2 p q) + ∑ k : Fin 1024, a (ix2 p k) * b (ix2 k q))
    (A : Spec.Mat 4096 8192) (B : Spec.Mat 8192 128) (R T : ℕ) (hT : T + 1024 ≤ 8192)
    (acc : Vec Ideal S1024x128 .f32) (a : Vec Ideal S1024x1024 .f32) (b : Vec Ideal S1024x128 .f32)
    (hacc : IsPartial A B R T acc) (ha : IsLhsBlock A R T a) (hb : IsRhsBlock B T b) :
    IsPartial A B R (T + 1024) (pay acc a b) := by
  intro p q P hP
  rw [hpay acc a b p q, hacc p q P hP, Spec.mmBelow_add_block T 1024 hT A B (ix2 P q)]
  congr 1
  refine Finset.sum_congr rfl fun k _ => ?_
  have hk := k.isLt
  exact congrArg₂ (· * ·) (ha p k P ⟨T + k.val, by omega⟩ hP rfl) (hb k q ⟨T + k.val, by omega⟩ rfl)

theorem partial_full (A : Spec.Mat 4096 8192) (B : Spec.Mat 8192 128) (R T : ℕ) (hT : 8192 ≤ T)
    (acc : Vec Ideal S1024x128 .f32) (hacc : IsPartial A B R T acc)
    (y : S1024x128.Idx) (i : S4096x128.Idx) (hi0 : (i 0).val = R + (y 0).val) (hi1 : (i 1).val = (y 1).val) :
    acc y = Spec.mm A B i := by
  have hq : (i 1 : Fin 128) = y 1 := Fin.ext hi1
  have e : acc y = acc (ix2 (y 0) (y 1)) := congrArg acc (eq_ix2 y)
  have e' : Spec.mm A B i = Spec.mm A B (ix2 (i 0) (y 1)) :=
    (congrArg (Spec.mm A B) (eq_ix2 i)).trans (congrArg (fun z : Fin 128 => Spec.mm A B (ix2 (i 0) z)) hq)
  rw [e, e', hacc (y 0) (y 1) (i 0) hi0, Spec.mmBelow_full T hT A B]

/-- The accumulation after point `n` is the rows of block `n / 8` of the product, cut off below `1024 · (n % 8 + 1)`. -/
theorem partial_acc (Am : Spec.Mat 4096 8192) (Bm : Spec.Mat 8192 128)
    (A : (n : ℕ) → n < grid3.N → Vec Ideal S1024x1024 .f32) (B : (n : ℕ) → n < grid3.N → Vec Ideal S1024x128 .f32)
    (hA : ∀ n hn, IsLhsBlock Am (1024 * (n / 8)) (1024 * (n % 8)) (A n hn)) (hB : ∀ n hn, IsRhsBlock Bm (1024 * (n % 8)) (B n hn)) :
    ∀ (n : ℕ) (h : n < grid3.N), IsPartial Am Bm (1024 * (n / 8)) (1024 * (n % 8) + 1024) (mmAcc A B n h)
  | 0, h => by
    have e : mmAcc A B 0 h = k3_pay2 k3_pay1 (A 0 h) (B 0 h) := by
      show mmStep (grid3.coords ⟨0, h⟩) (A 0 h) (B 0 h) (B 0 h) = _
      unfold mmStep; rw [if_pos ((mmFirst_iff ⟨0, h⟩).mpr rfl)]
    rw [e]
    exact partial_step k3_pay2 Pay.k3_pay2_apply Am Bm (1024 * (0 / 8)) (1024 * (0 % 8)) (by omega) (k3_pay1 (F := Ideal)) _ _
      (partial_zero Am Bm _ _ Pay.k3_pay1_apply) (hA 0 h) (hB 0 h)
  | n + 1, h => by
    have hN : grid3.N = 32 := N_3
    have e : mmAcc A B (n + 1) h = mmStep (grid3.coords ⟨n + 1, h⟩) (A (n + 1) h) (B (n + 1) h) (mmAcc A B n (Nat.lt_of_succ_lt h)) := rfl
    rw [e]; unfold mmStep
    by_cases h0 : (n + 1) % 8 = 0
    · rw [if_pos ((mmFirst_iff ⟨n + 1, h⟩).mpr h0)]
      exact partial_step k3_pay2 Pay.k3_pay2_apply Am Bm (1024 * ((n + 1) / 8)) (1024 * ((n + 1) % 8)) (by omega) (k3_pay1 (F := Ideal)) _ _
        (by rw [h0]; exact partial_zero Am Bm _ _ Pay.k3_pay1_apply) (hA _ h) (hB _ h)
    · rw [if_neg (fun hf => h0 ((mmFirst_iff ⟨n + 1, h⟩).mp hf))]
      have hR : 1024 * ((n + 1) / 8) = 1024 * (n / 8) := by omega
      have hT : 1024 * ((n + 1) % 8) = 1024 * (n % 8) + 1024 := by omega
      exact partial_step k3_pay2 Pay.k3_pay2_apply Am Bm (1024 * ((n + 1) / 8)) (1024 * ((n + 1) % 8)) (by omega) _ _ _
        (by rw [hR, hT]; exact partial_acc Am Bm A B hA hB n (Nat.lt_of_succ_lt h)) (hA _ h) (hB _ h)

variable (Am : Spec.Mat 4096 8192) (Bm : Spec.Mat 8192 128)

/-- The windows' block indices at point `t`: row block `t / 8`, block `t % 8` of the contracted axis. -/
theorem mmIdx : ∀ t : Fin cfg3.N,
    win3_0.index t (0 : Fin 2) = t.val / 8 ∧ win3_0.index t (1 : Fin 2) = t.val % 8
    ∧ win3_1.index t (0 : Fin 2) = t.val % 8 ∧ win3_1.index t (1 : Fin 2) = 0
    ∧ win3_2.index t (0 : Fin 2) = t.val / 8 ∧ win3_2.index t (1 : Fin 2) = 0 :=
  (by decide +kernel : ∀ t : Fin grid3.N, _)

theorem lhsBlock (t : Fin cfg3.N) : IsLhsBlock Am (1024 * (t.val / 8)) (1024 * (t.val % 8)) (((cfg3.win 0).blk t).view.read (Elt Ideal) Am) := by
  obtain ⟨e00, e01, -, -, -, -⟩ := mmIdx t
  intro p j P J hP hJ
  show Am (((cfg3.win 0).blk t).view.emb (ix2 p j)) = Am (ix2 P J)
  refine congrArg _ ?_
  funext a; apply Fin.ext
  match a with
  | ⟨0, _⟩ => show win3_0.index t (0 : Fin 2) * 1024 + 1 * p.val = P.val; omega
  | ⟨1, _⟩ => show win3_0.index t (1 : Fin 2) * 1024 + 1 * j.val = J.val; omega

theorem rhsBlock (t : Fin cfg3.N) : IsRhsBlock Bm (1024 * (t.val % 8)) (((cfg3.win 1).blk t).view.read (Elt Ideal) Bm) := by
  obtain ⟨-, -, e10, e11, -, -⟩ := mmIdx t
  intro j q J hJ
  show Bm (((cfg3.win 1).blk t).view.emb (ix2 j q)) = Bm (ix2 J q)
  refine congrArg _ ?_
  funext a; apply Fin.ext
  match a with
  | ⟨0, _⟩ => show win3_1.index t (0 : Fin 2) * 1024 + 1 * j.val = J.val; omega
  | ⟨1, _⟩ => show win3_1.index t (1 : Fin 2) * 128 + 1 * q.val = q.val; omega

/-- At the last block of the contraction the accumulation of a point's blocks is that point's block of the product of the whole arrays. -/
theorem mm_flushed (t : Fin cfg3.N) (hf : (cfg3.win 2).flush t = true) :
    mmAcc (fun n hn => ((cfg3.win 0).blk ⟨n, hn⟩).view.read (Elt Ideal) Am) (fun n hn => ((cfg3.win 1).blk ⟨n, hn⟩).view.read (Elt Ideal) Bm) t.val t.isLt
      = ((cfg3.win 2).blk t).view.read (Elt Ideal) (Spec.mm Am Bm) := by
  have h7 : t.val % 8 = 7 := (flush3_2 t).mp hf
  obtain ⟨-, -, -, -, e20, e21⟩ := mmIdx t
  funext y
  show _ = Spec.mm Am Bm (((cfg3.win 2).blk t).view.emb y)
  refine partial_full Am Bm (1024 * (t.val / 8)) (1024 * (t.val % 8) + 1024) (by omega) _
    (partial_acc Am Bm _ _ (fun n hn => lhsBlock Am ⟨n, hn⟩) (fun n hn => rhsBlock Bm ⟨n, hn⟩) t.val t.isLt) y _ ?_ ?_
  · show win3_2.index t (0 : Fin 2) * 1024 + 1 * (y 0).val = 1024 * (t.val / 8) + (y 0).val; omega
  · show win3_2.index t (1 : Fin 2) * 128 + 1 * (y 1).val = (y 1).val; omega

omit Am Bm in
/-- Every entry of the output array, in row `ρ`, is in the block of point `8 · (ρ / 1024) + 7`, the last of its row block's contraction. -/
theorem mm_covered (i : S4096x128.Idx) :
    ∃ t : Fin cfg3.N, (cfg3.win 2).flush t = true ∧ i ∈ ((cfg3.win 2).blk t).view.set := by
  have hi0 : (i 0).val < 4096 := (i 0).isLt
  have hN : 8 * ((i 0).val / 1024) + 7 < grid3.N := by rw [N_3]; omega
  obtain ⟨-, -, -, -, e20, e21⟩ := mmIdx ⟨8 * ((i 0).val / 1024) + 7, hN⟩
  have e20' : win3_2.index ⟨8 * ((i 0).val / 1024) + 7, hN⟩ (0 : Fin 2) = (8 * ((i 0).val / 1024) + 7) / 8 := e20
  have h := ((cfg3.win 2).blk ⟨8 * ((i 0).val / 1024) + 7, hN⟩).view.emb_mem_set (ix2 ⟨(i 0).val % 1024, Nat.mod_lt _ (by decide)⟩ (i 1))
  rw [show ((cfg3.win 2).blk ⟨8 * ((i 0).val / 1024) + 7, hN⟩).view.emb (ix2 ⟨(i 0).val % 1024, Nat.mod_lt _ (by decide)⟩ (i 1)) = i from
    funext fun a => Fin.ext (by
      match a with
      | ⟨0, _⟩ => show win3_2.index ⟨8 * ((i 0).val / 1024) + 7, hN⟩ (0 : Fin 2) * 1024 + 1 * ((i 0).val % 1024) = (i 0).val; omega
      | ⟨1, _⟩ => show win3_2.index ⟨8 * ((i 0).val / 1024) + 7, hN⟩ (1 : Fin 2) * 128 + 1 * (i 1).val = (i 1).val; omega)] at h
  exact ⟨_, (flush3_2 _).mpr (by show (8 * ((i 0).val / 1024) + 7) % 8 = 7; omega), h⟩

omit Am Bm
variable (V : (c : Dev nD) → (b : Ref sig .tc) → Buf (Elt Ideal) ((c : Thread nD τ).loc b))

/-- After each product region its output array is the product of its two input arrays. -/
theorem out_eq3 (c : Dev nD) : (dat3 V c).arrAt 2 cfg3.N = Spec.mm (V c main_arg7) (V c main_v3) :=
  (dat3 V c).arrAt_eq_of_cover 2 _ (fun t hf => mm_flushed (V c main_arg7) (V c main_v3) t hf) mm_covered
theorem out_eq6 (c : Dev nD) : (dat6 V c).arrAt 2 cfg6.N = Spec.mm (V c main_arg10) (V c main_v2) :=
  (dat6 V c).arrAt_eq_of_cover 2 _ (fun t hf => mm_flushed (V c main_arg10) (V c main_v2) t hf) mm_covered
theorem out_eq8 (c : Dev nD) : (dat8 V c).arrAt 2 cfg8.N = Spec.mm (V c main_arg7) (V c main_v5) :=
  (dat8 V c).arrAt_eq_of_cover 2 _ (fun t hf => mm_flushed (V c main_arg7) (V c main_v5) t hf) mm_covered
theorem out_eq9 (c : Dev nD) : (dat9 V c).arrAt 2 cfg9.N = Spec.mm (V c main_arg7) (V c main_v6) :=
  (dat9 V c).arrAt_eq_of_cover 2 _ (fun t hf => mm_flushed (V c main_arg7) (V c main_v6) t hf) mm_covered

end Cert.KernelIdeal.Hand
end
-- ==== Proof.PayRes.lean ====
import proofs.«120173_j18854906429546_1_alg».proof.Proof.KiRes5Body
import proofs.«120173_j18854906429546_1_alg».proof.Proof.PayMm
import proofs.«120173_j18854906429546_1_alg».proof.Proof.Spec
import Idealize.ShloMosaic.PureOps.Ideal.Laws
import Idealize.ShloMosaic.Lib.ValueIdx
import Idealize.ShloMosaic.Lib.Pipeline.Value
import Idealize.ShloMosaic.Lib.ValueLayout
set_option maxRecDepth 16384
noncomputable section
open scoped BigOperators
namespace Cert.KernelIdeal.Pay
open Cert.KernelIdeal Cert.KernelIdeal.Gen Cert.KernelIdeal.Hand
open Idealize.ShloMosaic Idealize.ShloMosaic.ValueIdx Cert.Spec

/-- The value stored at a fresh start, at an entry: the residual block's. -/
theorem k4_pay1_apply (v : Vec Ideal S1024x128 .f32) (p : Fin 1024) (q : Fin 128) :
    Gen.k4_pay1 v (ix2 p q) = v (ix2 p q) := by
  unfold Gen.k4_pay1
  rw [shapeCast_self, shapeCast_self]

/-- The accumulation step at an entry: the left block's row against the right block's column, added; the factor the kernel spells is 1. -/
theorem k4_pay2_apply (acc : Vec Ideal S1024x128 .f32) (a : Vec Ideal S1024x1024 .f32) (b : Vec Ideal S1024x128 .f32)
    (p : Fin 1024) (q : Fin 128) :
    Gen.k4_pay2 acc a b (ix2 p q) = acc (ix2 p q) + ∑ k : Fin 1024, a (ix2 p k) * b (ix2 k q) := by
  unfold Gen.k4_pay2
  rw [shapeCast_self, shapeCast_self]
  show acc (ix2 p q) + Ideal.ofBits .f32 0x3F800000#32
      * matmul (F := Ideal) dot_S1024x1024_S1024x128_S1024x128_1_0_0_1_n_n none a b (constant S1024x128 .f32 0x00000000#32) (ix2 p q) = _
  rw [matmul_blk_apply, ofBits_one, one_mul]

theorem k5_pay1_apply (v : Vec Ideal S1024x128 .f32) (p : Fin 1024) (q : Fin 128) :
    Gen.k5_pay1 v (ix2 p q) = v (ix2 p q) := by
  unfold Gen.k5_pay1
  rw [shapeCast_self, shapeCast_self]

theorem k5_pay2_apply (acc : Vec Ideal S1024x128 .f32) (a : Vec Ideal S1024x1024 .f32) (b : Vec Ideal S1024x128 .f32)
    (p : Fin 1024) (q : Fin 128) :
    Gen.k5_pay2 acc a b (ix2 p q)
      = acc (ix2 p q) + Ideal.ofBits .f32 0x3ECCCCCD#32 * ∑ k : Fin 1024, a (ix2 p k) * b (ix2 k q) := by
  unfold Gen.k5_pay2
  rw [shapeCast_self, shapeCast_self]
  show acc (ix2 p q) + Ideal.ofBits .f32 0x3ECCCCCD#32
      * matmul (F := Ideal) dot_S1024x1024_S1024x128_S1024x128_1_0_0_1_n_n none a b (constant S1024x128 .f32 0x00000000#32) (ix2 p q) = _
  rw [matmul_blk_apply]

/-- The body's step at an entry: the entering accumulator's entry, the residual block's at a fresh start, plus the blocks' product there. -/
theorem resAcc_apply (i : grid4.Coords) (xA : Vec Ideal S1024x1024 .f32) (xB xR xS : Vec Ideal S1024x128 .f32) (p : Fin 1024) (q : Fin 128) :
    resAcc i xA xB xR xS (ix2 p q) = (if resFirst i then xR else xS) (ix2 p q) + ∑ k : Fin 1024, xA (ix2 p k) * xB (ix2 k q) := by
  unfold resAcc; rw [k4_pay2_apply]
  by_cases h : resFirst i
  · rw [if_pos h, if_pos h, k4_pay1_apply]
  · rw [if_neg h, if_neg h]

/-- Row `p` of point `n`'s blocks is row `1024 (n / 4) + p` of the arrays; its contracted coordinate `k` is `1024 (n % 4) + k`. -/
abbrev resRow (n : ℕ) (hn : n < grid4.N) (p : Fin 1024) : Fin 8192 := ⟨1024 * (n / 4) + p.val, by have : grid4.N = 32 := N_4; omega⟩
abbrev resCol (n : ℕ) (k : Fin 1024) : Fin 4096 := ⟨1024 * (n % 4) + k.val, by omega⟩

section Four
variable (A : Mat 8192 4096) (B : Mat 4096 128) (R : Mat 8192 128)
  (bA : (n : ℕ) → n < grid4.N → Vec Ideal S1024x1024 .f32) (bB bR : (n : ℕ) → n < grid4.N → Vec Ideal S1024x128 .f32)
  (hA : ∀ n hn p k, bA n hn (ix2 p k) = A (ix2 (resRow n hn p) (resCol n k)))
  (hB : ∀ n hn k q, bB n hn (ix2 k q) = B (ix2 (resCol n k) q))
  (hR : ∀ n hn p q, bR n hn (ix2 p q) = R (ix2 (resRow n hn p) q))
include hA hB

/-- One step moves the cut of the contraction on by a block: from below the step's first coordinate to below the next step's. -/
theorem resStep (n : ℕ) (hn : n < grid4.N) (p : Fin 1024) (q : Fin 128) (acc : EReal)
    (hacc : acc = R (ix2 (resRow n hn p) q) + mmBelow (1024 * (n % 4)) A B (ix2 (resRow n hn p) q)) :
    acc + ∑ k : Fin 1024, bA n hn (ix2 p k) * bB n hn (ix2 k q)
      = R (ix2 (resRow n hn p) q) + mmBelow (1024 * (n % 4) + 1024) A B (ix2 (resRow n hn p) q) := by
  rw [hacc, mmBelow_add_block (1024 * (n % 4)) 1024 (by omega), add_assoc]
  exact congrArg _ (congrArg _ (Finset.sum_congr rfl fun k _ => by rw [hA, hB]))

include hR
/-- After point `n` the accumulator's entry is the residual's plus the product cut off below the next step's first coordinate. -/
theorem resAccAt_apply : ∀ (n : ℕ) (hn : n < grid4.N) (p : Fin 1024) (q : Fin 128),
    resAccAt bA bB bR n hn (ix2 p q)
      = R (ix2 (resRow n hn p) q) + mmBelow (1024 * (n % 4) + 1024) A B (ix2 (resRow n hn p) q)
  | 0, hn, p, q => by
    show resAcc _ _ _ _ _ (ix2 p q) = _
    rw [resAcc_apply, if_pos ((resFirst_iff ⟨0, hn⟩).mpr rfl)]
    exact resStep A B R bA bB hA hB 0 hn p q _ (by rw [hR, Nat.zero_mod, Nat.mul_zero, mmBelow_zero, add_zero])
  | n + 1, hn, p, q => by
    show resAcc _ _ _ _ (resAccAt bA bB bR n _) (ix2 p q) = _
    rw [resAcc_apply]
    by_cases h0 : (n + 1) % 4 = 0
    · rw [if_pos ((resFirst_iff ⟨n + 1, hn⟩).mpr h0)]
      exact resStep A B R bA bB hA hB (n + 1) hn p q _ (by rw [hR, h0, Nat.mul_zero, mmBelow_zero, add_zero])
    · rw [if_neg fun h => h0 ((resFirst_iff ⟨n + 1, hn⟩).mp h)]
      refine resStep A B R bA bB hA hB (n + 1) hn p q _ ?_
      have hT : 1024 * (n % 4) + 1024 = 1024 * ((n + 1) % 4) := by omega
      have hrow : resRow n (Nat.lt_of_succ_lt hn) p = resRow (n + 1) hn p :=
        Fin.ext (by show 1024 * (n / 4) + p.val = 1024 * ((n + 1) / 4) + p.val; omega)
      rw [resAccAt_apply n (Nat.lt_of_succ_lt hn) p q, hT, hrow]
end Four

/-- Region 5's step at an entry: the same with the factor the kernel spells on the product. -/
theorem resAcc5_apply (i : grid5.Coords) (xA : Vec Ideal S1024x1024 .f32) (xB xR xS : Vec Ideal S1024x128 .f32) (p : Fin 1024) (q : Fin 128) :
    resAcc5 i xA xB xR xS (ix2 p q)
      = (if resFirst5 i then xR else xS) (ix2 p q) + Ideal.ofBits .f32 0x3ECCCCCD#32 * ∑ k : Fin 1024, xA (ix2 p k) * xB (ix2 k q) := by
  unfold resAcc5; rw [k5_pay2_apply]
  by_cases h : resFirst5 i
  · rw [if_pos h, if_pos h, k5_pay1_apply]
  · rw [if_neg h, if_neg h]

/-- Region 5 has eight steps: row `1024 (n / 8) + p`, contracted coordinate `1024 (n % 8) + k`. -/
abbrev resRow5 (n : ℕ) (hn : n < grid5.N) (p : Fin 1024) : Fin 8192 := ⟨1024 * (n / 8) + p.val, by have : grid5.N = 64 := N_5; omega⟩
abbrev resCol5 (n : ℕ) (k : Fin 1024) : Fin 8192 := ⟨1024 * (n % 8) + k.val, by omega⟩

section Five
variable (A : Mat 8192 8192) (B R : Mat 8192 128)
  (bA : (n : ℕ) → n < grid5.N → Vec Ideal S1024x1024 .f32) (bB bR : (n : ℕ) → n < grid5.N → Vec Ideal S1024x128 .f32)
  (hA : ∀ n hn p k, bA n hn (ix2 p k) = A (ix2 (resRow5 n hn p) (resCol5 n k)))
  (hB : ∀ n hn k q, bB n hn (ix2 k q) = B (ix2 (resCol5 n k) q))
  (hR : ∀ n hn p q, bR n hn (ix2 p q) = R (ix2 (resRow5 n hn p) q))
include hA hB

/-- One step moves the cut on by a block; the factor, nonnegative and finite, distributes over the sum. -/
theorem resStep5 (n : ℕ) (hn : n < grid5.N) (p : Fin 1024) (q : Fin 128) (acc : EReal)
    (hacc : acc = R (ix2 (resRow5 n hn p) q) + Ideal.ofBits .f32 0x3ECCCCCD#32 * mmBelow (1024 * (n % 8)) A B (ix2 (resRow5 n hn p) q)) :
    acc + Ideal.ofBits .f32 0x3ECCCCCD#32 * ∑ k : Fin 1024, bA n hn (ix2 p k) * bB n hn (ix2 k q)
      = R (ix2 (resRow5 n hn p) q) + Ideal.ofBits .f32 0x3ECCCCCD#32 * mmBelow (1024 * (n % 8) + 1024) A B (ix2 (resRow5 n hn p) q) := by
  rw [hacc, mmBelow_add_block (1024 * (n % 8)) 1024 (by omega), mul_add_of_nonneg ofBits_scale_nonneg ofBits_scale_ne_top, add_assoc]
  exact congrArg _ (congrArg _ (congrArg _ (Finset.sum_congr rfl fun k _ => by rw [hA, hB])))

include hR
/-- After point `n` the accumulator's entry is the residual's plus the factor times the product cut off below the next step. -/
theorem resAccAt5_apply : ∀ (n : ℕ) (hn : n < grid5.N) (p : Fin 1024) (q : Fin 128),
    resAccAt5 bA bB bR n hn (ix2 p q)
      = R (ix2 (resRow5 n hn p) q) + Ideal.ofBits .f32 0x3ECCCCCD#32 * mmBelow (1024 * (n % 8) + 1024) A B (ix2 (resRow5 n hn p) q)
  | 0, hn, p, q => by
    show resAcc5 _ _ _ _ _ (ix2 p q) = _
    rw [resAcc5_apply, if_pos ((resFirst5_iff ⟨0, hn⟩).mpr rfl)]
    exact resStep5 A B R bA bB hA hB 0 hn p q _ (by rw [hR, Nat.zero_mod, Nat.mul_zero, mmBelow_zero, mul_zero, add_zero])
  | n + 1, hn, p, q => by
    show resAcc5 _ _ _ _ (resAccAt5 bA bB bR n _) (ix2 p q) = _
    rw [resAcc5_apply]
    by_cases h0 : (n + 1) % 8 = 0
    · rw [if_pos ((resFirst5_iff ⟨n + 1, hn⟩).mpr h0)]
      exact resStep5 A B R bA bB hA hB (n + 1) hn p q _ (by rw [hR, h0, Nat.mul_zero, mmBelow_zero, mul_zero, add_zero])
    · rw [if_neg fun h => h0 ((resFirst5_iff ⟨n + 1, hn⟩).mp h)]
      refine resStep5 A B R bA bB hA hB (n + 1) hn p q _ ?_
      have hT : 1024 * (n % 8) + 1024 = 1024 * ((n + 1) % 8) := by omega
      have hrow : resRow5 n (Nat.lt_of_succ_lt hn) p = resRow5 (n + 1) hn p :=
        Fin.ext (by show 1024 * (n / 8) + p.val = 1024 * ((n + 1) / 8) + p.val; omega)
      rw [resAccAt5_apply n (Nat.lt_of_succ_lt hn) p q, hT, hrow]
end Five

end Cert.KernelIdeal.Pay
end
-- ==== Proof.ValRes4.lean ====
import proofs.«120173_j18854906429546_1_alg».proof.Proof.KiRes4
import proofs.«120173_j18854906429546_1_alg».proof.Proof.PayRes
set_option maxRecDepth 16384
noncomputable section
namespace Cert.KernelIdeal.Hand
open Cert.KernelIdeal Cert.KernelIdeal.Gen Cert.KernelIdeal.Pay
open Idealize.ShloMosaic Idealize.ShloMosaic.TcCoe Idealize.ShloMosaic.Tactic Idealize.SL.Sem
open Idealize.ShloMosaic.Pipeline (Dat)
open Cert.Spec Idealize.ShloMosaic.ValueIdx
open scoped BigOperators
variable (V : (c : Dev nD) → (b : Ref sig .tc) → Buf (Elt Ideal) ((c : Thread nD τ).loc b))

/-- The block indices of the four windows at a point: row block `t / 4`, step `t % 4`. -/
theorem blockIdx4 : ∀ t : Fin cfg4.N,
    win4_0.index t 0 = t.val / 4 ∧ win4_0.index t 1 = t.val % 4 ∧ win4_1.index t 0 = t.val % 4 ∧ win4_1.index t 1 = 0
      ∧ win4_2.index t 0 = t.val / 4 ∧ win4_2.index t 1 = 0 ∧ win4_3.index t 0 = t.val / 4 ∧ win4_3.index t 1 = 0 :=
  (by decide +kernel : ∀ t : Fin grid4.N,
    win4_0.index t 0 = t.val / 4 ∧ win4_0.index t 1 = t.val % 4 ∧ win4_1.index t 0 = t.val % 4 ∧ win4_1.index t 1 = 0
      ∧ win4_2.index t 0 = t.val / 4 ∧ win4_2.index t 1 = 0 ∧ win4_3.index t 0 = t.val / 4 ∧ win4_3.index t 1 = 0)

/-- The three blocks of a point, read off the arrays. -/
theorem blkA4_apply (c : Dev nD) (t : Fin cfg4.N) (p k : Fin 1024) :
    (iblk4 V c 0 t : Vec Ideal S1024x1024 .f32) (ix2 p k) = (V c main_arg8 : Mat 8192 4096) (ix2 (resRow t.val t.isLt p) (resCol t.val k)) := by
  show V c main_arg8 (((cfg4.win 0).blk t).view.emb (ix2 p k)) = V c main_arg8 _
  congr 1
  funext a
  apply Fin.ext
  match a with
  | ⟨0, _⟩ => show win4_0.index t 0 * 1024 + 1 * p.val = 1024 * (t.val / 4) + p.val; rw [(blockIdx4 t).1]; omega
  | ⟨1, _⟩ => show win4_0.index t 1 * 1024 + 1 * k.val = 1024 * (t.val % 4) + k.val; rw [(blockIdx4 t).2.1]; omega

theorem blkB4_apply (c : Dev nD) (t : Fin cfg4.N) (k : Fin 1024) (q : Fin 128) :
    (iblk4 V c 1 t : Vec Ideal S1024x128 .f32) (ix2 k q) = (V c main_v4 : Mat 4096 128) (ix2 (resCol t.val k) q) := by
  show V c main_v4 (((cfg4.win 1).blk t).view.emb (ix2 k q)) = V c main_v4 _
  congr 1
  funext a
  apply Fin.ext
  match a with
  | ⟨0, _⟩ => show win4_1.index t 0 * 1024 + 1 * k.val = 1024 * (t.val % 4) + k.val; rw [(blockIdx4 t).2.2.1]; omega
  | ⟨1, _⟩ => show win4_1.index t 1 * 128 + 1 * q.val = q.val; rw [(blockIdx4 t).2.2.2.1]; omega

theorem blkR4_apply (c : Dev nD) (t : Fin cfg4.N) (p : Fin 1024) (q : Fin 128) :
    (iblk4 V c 2 t : Vec Ideal S1024x128 .f32) (ix2 p q) = (V c main_v3 : Mat 8192 128) (ix2 (resRow t.val t.isLt p) q) := by
  show V c main_v3 (((cfg4.win 2).blk t).view.emb (ix2 p q)) = V c main_v3 _
  congr 1
  funext a
  apply Fin.ext
  match a with
  | ⟨0, _⟩ => show win4_2.index t 0 * 1024 + 1 * p.val = 1024 * (t.val / 4) + p.val; rw [(blockIdx4 t).2.2.2.2.1]; omega
  | ⟨1, _⟩ => show win4_2.index t 1 * 128 + 1 * q.val = q.val; rw [(blockIdx4 t).2.2.2.2.2.1]; omega

/-- The result: the residual plus the product. -/
abbrev result4 (c : Dev nD) : Mat 8192 128 := addm (V c main_v3) (mm (V c main_arg8) (V c main_v4))

/-- At step 3 the accumulator is the result's row block: the cut is then the whole contraction. -/
theorem flushed4 (c : Dev nD) (t : Fin cfg4.N) (hf : (cfg4.win 3).flush t = true) :
    (dat4 V c).flushed 3 t = ((cfg4.win 3).blk t).view.read (Elt Ideal) (result4 V c) := by
  have h3 : t.val % 4 = 3 := (flush4_3 t).mp hf
  show (cfg4.win 3).cut (grid4.coords t) ((dat4 V c).after 3 t) = _
  rw [after4_3]
  funext y
  obtain ⟨p, q, rfl⟩ : ∃ (p : Fin 1024) (q : Fin 128), y = ix2 p q := ⟨y 0, y 1, eq_ix2 y⟩
  show acc4 V c t.val t.isLt (ix2 p q) = result4 V c (((cfg4.win 3).blk t).view.emb (ix2 p q))
  have hfull : 1024 * (t.val % 4) + 1024 = 4096 := by omega
  rw [show acc4 V c t.val t.isLt (ix2 p q) = _ from
      resAccAt_apply (V c main_arg8) (V c main_v4) (V c main_v3) _ _ _ (fun n hn => blkA4_apply V c ⟨n, hn⟩) (fun n hn => blkB4_apply V c ⟨n, hn⟩) (fun n hn => blkR4_apply V c ⟨n, hn⟩) t.val t.isLt p q,
    hfull, mmBelow_full 4096 (le_refl _)]
  show result4 V c (ix2 (resRow t.val t.isLt p) q) = result4 V c _
  congr 1
  funext a
  apply Fin.ext
  match a with
  | ⟨0, _⟩ => show 1024 * (t.val / 4) + p.val = win4_3.index t 0 * 1024 + 1 * p.val; rw [(blockIdx4 t).2.2.2.2.2.2.1]; omega
  | ⟨1, _⟩ => show q.val = win4_3.index t 1 * 128 + 1 * q.val; rw [(blockIdx4 t).2.2.2.2.2.2.2]; omega

/-- Every row of the result array lies in the row block of a point at step 3. -/
theorem cover4 (c : Dev nD) (i : ((cfg4.win 3).arr.view.loc (c.tc : Thread nD τ)).2.ty.Idx) :
    ∃ t : Fin cfg4.N, (cfg4.win 3).flush t = true ∧ i ∈ ((cfg4.win 3).blk t).view.set := by
  have hi0 : (i 0 : Nat) < 8192 := (i 0).isLt
  have hi1 : (i 1 : Nat) < 128 := (i 1).isLt
  refine ⟨⟨4 * ((i 0 : Nat) / 1024) + 3, by have : cfg4.N = 32 := N_4; omega⟩, (flush4_3 _).mpr (by show (4 * ((i 0 : Nat) / 1024) + 3) % 4 = 3; omega), ?_⟩
  have key : ∀ t : Fin cfg4.N, t.val = 4 * ((i 0 : Nat) / 1024) + 3 → i ∈ ((cfg4.win 3).blk t).view.set := by
    intro t ht
    show i ∈ ((View.whole main_v5).slice (win4_3.rect t)).set
    rw [View.set_slice_whole, Rect.mem_set_unit]
    intro a
    match a with
    | ⟨0, _⟩ =>
      show win4_3.index t 0 * 1024 ≤ (i 0 : Nat) ∧ (i 0 : Nat) < win4_3.index t 0 * 1024 + 1024
      rw [(blockIdx4 t).2.2.2.2.2.2.1]; omega
    | ⟨1, _⟩ =>
      show win4_3.index t 1 * 128 ≤ (i 1 : Nat) ∧ (i 1 : Nat) < win4_3.index t 1 * 128 + 128
      rw [(blockIdx4 t).2.2.2.2.2.2.2]; omega
  exact key _ rfl

/-- The region leaves in its result array the residual plus the product of the two matrices. -/
theorem out_eq4 (c : Dev nD) :
    (dat4 V c).arrAt 3 cfg4.N = Spec.addm (V c main_v3) (Spec.mm (V c main_arg8) (V c main_v4)) :=
  (dat4 V c).arrAt_eq_of_cover 3 (result4 V c) (flushed4 V c) (cover4 c)

end Cert.KernelIdeal.Hand
end
-- ==== Proof.ValRes7.lean ====
import proofs.«120173_j18854906429546_1_alg».proof.Proof.KiRes7
import proofs.«120173_j18854906429546_1_alg».proof.Proof.PayRes
set_option maxRecDepth 16384
noncomputable section
namespace Cert.KernelIdeal.Hand
open Cert.KernelIdeal Cert.KernelIdeal.Gen Cert.KernelIdeal.Pay
open Idealize.ShloMosaic Idealize.ShloMosaic.TcCoe Idealize.ShloMosaic.Tactic Idealize.SL.Sem
open Idealize.ShloMosaic.Pipeline (Dat)
open Cert.Spec Idealize.ShloMosaic.ValueIdx
open scoped BigOperators
variable (V : (c : Dev nD) → (b : Ref sig .tc) → Buf (Elt Ideal) ((c : Thread nD τ).loc b))

/-- The block indices of the four windows at a point: row block `t / 4`, step `t % 4`. -/
theorem blockIdx7 : ∀ t : Fin cfg7.N,
    win7_0.index t 0 = t.val / 4 ∧ win7_0.index t 1 = t.val % 4 ∧ win7_1.index t 0 = t.val % 4 ∧ win7_1.index t 1 = 0
      ∧ win7_2.index t 0 = t.val / 4 ∧ win7_2.index t 1 = 0 ∧ win7_3.index t 0 = t.val / 4 ∧ win7_3.index t 1 = 0 :=
  (by decide +kernel : ∀ t : Fin grid7.N,
    win7_0.index t 0 = t.val / 4 ∧ win7_0.index t 1 = t.val % 4 ∧ win7_1.index t 0 = t.val % 4 ∧ win7_1.index t 1 = 0
      ∧ win7_2.index t 0 = t.val / 4 ∧ win7_2.index t 1 = 0 ∧ win7_3.index t 0 = t.val / 4 ∧ win7_3.index t 1 = 0)

/-- The three blocks of a point, read off the arrays. -/
theorem blkA7_apply (c : Dev nD) (t : Fin cfg7.N) (p k : Fin 1024) :
    (iblk7 V c 0 t : Vec Ideal S1024x1024 .f32) (ix2 p k) = (V c main_arg9 : Mat 8192 4096) (ix2 (resRow t.val t.isLt p) (resCol t.val k)) := by
  show V c main_arg9 (((cfg7.win 0).blk t).view.emb (ix2 p k)) = V c main_arg9 _
  congr 1
  funext a
  apply Fin.ext
  match a with
  | ⟨0, _⟩ => show win7_0.index t 0 * 1024 + 1 * p.val = 1024 * (t.val / 4) + p.val; rw [(blockIdx7 t).1]; omega
  | ⟨1, _⟩ => show win7_0.index t 1 * 1024 + 1 * k.val = 1024 * (t.val % 4) + k.val; rw [(blockIdx7 t).2.1]; omega

theorem blkB7_apply (c : Dev nD) (t : Fin cfg7.N) (k : Fin 1024) (q : Fin 128) :
    (iblk7 V c 1 t : Vec Ideal S1024x128 .f32) (ix2 k q) = (V c main_v7 : Mat 4096 128) (ix2 (resCol t.val k) q) := by
  show V c main_v7 (((cfg7.win 1).blk t).view.emb (ix2 k q)) = V c main_v7 _
  congr 1
  funext a
  apply Fin.ext
  match a with
  | ⟨0, _⟩ => show win7_1.index t 0 * 1024 + 1 * k.val = 1024 * (t.val % 4) + k.val; rw [(blockIdx7 t).2.2.1]; omega
  | ⟨1, _⟩ => show win7_1.index t 1 * 128 + 1 * q.val = q.val; rw [(blockIdx7 t).2.2.2.1]; omega

theorem blkR7_apply (c : Dev nD) (t : Fin cfg7.N) (p : Fin 1024) (q : Fin 128) :
    (iblk7 V c 2 t : Vec Ideal S1024x128 .f32) (ix2 p q) = (V c main_v2 : Mat 8192 128) (ix2 (resRow t.val t.isLt p) q) := by
  show V c main_v2 (((cfg7.win 2).blk t).view.emb (ix2 p q)) = V c main_v2 _
  congr 1
  funext a
  apply Fin.ext
  match a with
  | ⟨0, _⟩ => show win7_2.index t 0 * 1024 + 1 * p.val = 1024 * (t.val / 4) + p.val; rw [(blockIdx7 t).2.2.2.2.1]; omega
  | ⟨1, _⟩ => show win7_2.index t 1 * 128 + 1 * q.val = q.val; rw [(blockIdx7 t).2.2.2.2.2.1]; omega

/-- The result: the residual plus the product. -/
abbrev result7 (c : Dev nD) : Mat 8192 128 := addm (V c main_v2) (mm (V c main_arg9) (V c main_v7))

/-- At step 3 the accumulator is the result's row block: the cut is then the whole contraction. -/
theorem flushed7 (c : Dev nD) (t : Fin cfg7.N) (hf : (cfg7.win 3).flush t = true) :
    (dat7 V c).flushed 3 t = ((cfg7.win 3).blk t).view.read (Elt Ideal) (result7 V c) := by
  have h3 : t.val % 4 = 3 := (flush7_3 t).mp hf
  show (cfg7.win 3).cut (grid7.coords t) ((dat7 V c).after 3 t) = _
  rw [after7_3]
  funext y
  obtain ⟨p, q, rfl⟩ : ∃ (p : Fin 1024) (q : Fin 128), y = ix2 p q := ⟨y 0, y 1, eq_ix2 y⟩
  show acc7 V c t.val t.isLt (ix2 p q) = result7 V c (((cfg7.win 3).blk t).view.emb (ix2 p q))
  have hfull : 1024 * (t.val % 4) + 1024 = 4096 := by omega
  rw [show acc7 V c t.val t.isLt (ix2 p q) = _ from
      resAccAt_apply (V c main_arg9) (V c main_v7) (V c main_v2) _ _ _ (fun n hn => blkA7_apply V c ⟨n, hn⟩) (fun n hn => blkB7_apply V c ⟨n, hn⟩) (fun n hn => blkR7_apply V c ⟨n, hn⟩) t.val t.isLt p q,
    hfull, mmBelow_full 4096 (le_refl _)]
  show result7 V c (ix2 (resRow t.val t.isLt p) q) = result7 V c _
  congr 1
  funext a
  apply Fin.ext
  match a with
  | ⟨0, _⟩ => show 1024 * (t.val / 4) + p.val = win7_3.index t 0 * 1024 + 1 * p.val; rw [(blockIdx7 t).2.2.2.2.2.2.1]; omega
  | ⟨1, _⟩ => show q.val = win7_3.index t 1 * 128 + 1 * q.val; rw [(blockIdx7 t).2.2.2.2.2.2.2]; omega

/-- Every row of the result array lies in the row block of a point at step 3. -/
theorem cover7 (c : Dev nD) (i : ((cfg7.win 3).arr.view.loc (c.tc : Thread nD τ)).2.ty.Idx) :
    ∃ t : Fin cfg7.N, (cfg7.win 3).flush t = true ∧ i ∈ ((cfg7.win 3).blk t).view.set := by
  have hi0 : (i 0 : Nat) < 8192 := (i 0).isLt
  have hi1 : (i 1 : Nat) < 128 := (i 1).isLt
  refine ⟨⟨4 * ((i 0 : Nat) / 1024) + 3, by have : cfg7.N = 32 := N_7; omega⟩, (flush7_3 _).mpr (by show (4 * ((i 0 : Nat) / 1024) + 3) % 4 = 3; omega), ?_⟩
  have key : ∀ t : Fin cfg7.N, t.val = 4 * ((i 0 : Nat) / 1024) + 3 → i ∈ ((cfg7.win 3).blk t).view.set := by
    intro t ht
    show i ∈ ((View.whole main_v8).slice (win7_3.rect t)).set
    rw [View.set_slice_whole, Rect.mem_set_unit]
    intro a
    match a with
    | ⟨0, _⟩ =>
      show win7_3.index t 0 * 1024 ≤ (i 0 : Nat) ∧ (i 0 : Nat) < win7_3.index t 0 * 1024 + 1024
      rw [(blockIdx7 t).2.2.2.2.2.2.1]; omega
    | ⟨1, _⟩ =>
      show win7_3.index t 1 * 128 ≤ (i 1 : Nat) ∧ (i 1 : Nat) < win7_3.index t 1 * 128 + 128
      rw [(blockIdx7 t).2.2.2.2.2.2.2]; omega
  exact key _ rfl

/-- The region leaves in its result array the residual plus the product of the two matrices. -/
theorem out_eq7 (c : Dev nD) :
    (dat7 V c).arrAt 3 cfg7.N = Spec.addm (V c main_v2) (Spec.mm (V c main_arg9) (V c main_v7)) :=
  (dat7 V c).arrAt_eq_of_cover 3 (result7 V c) (flushed7 V c) (cover7 c)

end Cert.KernelIdeal.Hand
end
-- ==== Proof.ValRes5.lean ====
import proofs.«120173_j18854906429546_1_alg».proof.Proof.KiRes5
import proofs.«120173_j18854906429546_1_alg».proof.Proof.PayRes
set_option maxRecDepth 16384
noncomputable section
namespace Cert.KernelIdeal.Hand
open Cert.KernelIdeal Cert.KernelIdeal.Gen Cert.KernelIdeal.Pay
open Idealize.ShloMosaic Idealize.ShloMosaic.TcCoe Idealize.ShloMosaic.Tactic Idealize.SL.Sem
open Idealize.ShloMosaic.Pipeline (Dat)
open Cert.Spec Idealize.ShloMosaic.ValueIdx
open scoped BigOperators
variable (V : (c : Dev nD) → (b : Ref sig .tc) → Buf (Elt Ideal) ((c : Thread nD τ).loc b))

/-- The block indices of the four windows at a point: row block `t / 8`, step `t % 8`. -/
theorem blockIdx5 : ∀ t : Fin cfg5.N,
    win5_0.index t 0 = t.val / 8 ∧ win5_0.index t 1 = t.val % 8 ∧ win5_1.index t 0 = t.val % 8 ∧ win5_1.index t 1 = 0
      ∧ win5_2.index t 0 = t.val / 8 ∧ win5_2.index t 1 = 0 ∧ win5_3.index t 0 = t.val / 8 ∧ win5_3.index t 1 = 0 :=
  (by decide +kernel : ∀ t : Fin grid5.N,
    win5_0.index t 0 = t.val / 8 ∧ win5_0.index t 1 = t.val % 8 ∧ win5_1.index t 0 = t.val % 8 ∧ win5_1.index t 1 = 0
      ∧ win5_2.index t 0 = t.val / 8 ∧ win5_2.index t 1 = 0 ∧ win5_3.index t 0 = t.val / 8 ∧ win5_3.index t 1 = 0)

/-- The three blocks of a point, read off the arrays. -/
theorem blkA5_apply (c : Dev nD) (t : Fin cfg5.N) (p k : Fin 1024) :
    (iblk5 V c 0 t : Vec Ideal S1024x1024 .f32) (ix2 p k) = (V c main_arg11 : Mat 8192 8192) (ix2 (resRow5 t.val t.isLt p) (resCol5 t.val k)) := by
  show V c main_arg11 (((cfg5.win 0).blk t).view.emb (ix2 p k)) = V c main_arg11 _
  congr 1
  funext a
  apply Fin.ext
  match a with
  | ⟨0, _⟩ => show win5_0.index t 0 * 1024 + 1 * p.val = 1024 * (t.val / 8) + p.val; rw [(blockIdx5 t).1]; omega
  | ⟨1, _⟩ => show win5_0.index t 1 * 1024 + 1 * k.val = 1024 * (t.val % 8) + k.val; rw [(blockIdx5 t).2.1]; omega

theorem blkB5_apply (c : Dev nD) (t : Fin cfg5.N) (k : Fin 1024) (q : Fin 128) :
    (iblk5 V c 1 t : Vec Ideal S1024x128 .f32) (ix2 k q) = (V c main_v1 : Mat 8192 128) (ix2 (resCol5 t.val k) q) := by
  show V c main_v1 (((cfg5.win 1).blk t).view.emb (ix2 k q)) = V c main_v1 _
  congr 1
  funext a
  apply Fin.ext
  match a with
  | ⟨0, _⟩ => show win5_1.index t 0 * 1024 + 1 * k.val = 1024 * (t.val % 8) + k.val; rw [(blockIdx5 t).2.2.1]; omega
  | ⟨1, _⟩ => show win5_1.index t 1 * 128 + 1 * q.val = q.val; rw [(blockIdx5 t).2.2.2.1]; omega

theorem blkR5_apply (c : Dev nD) (t : Fin cfg5.N) (p : Fin 1024) (q : Fin 128) :
    (iblk5 V c 2 t : Vec Ideal S1024x128 .f32) (ix2 p q) = (V c main_v1 : Mat 8192 128) (ix2 (resRow5 t.val t.isLt p) q) := by
  show V c main_v1 (((cfg5.win 2).blk t).view.emb (ix2 p q)) = V c main_v1 _
  congr 1
  funext a
  apply Fin.ext
  match a with
  | ⟨0, _⟩ => show win5_2.index t 0 * 1024 + 1 * p.val = 1024 * (t.val / 8) + p.val; rw [(blockIdx5 t).2.2.2.2.1]; omega
  | ⟨1, _⟩ => show win5_2.index t 1 * 128 + 1 * q.val = q.val; rw [(blockIdx5 t).2.2.2.2.2.1]; omega

/-- The result: the residual plus the factor times the product. -/
abbrev result5 (c : Dev nD) : Mat 8192 128 := axpy (Ideal.ofBits .f32 0x3ECCCCCD#32) (V c main_v1) (mm (V c main_arg11) (V c main_v1))

/-- At step 7 the accumulator is the result's row block: the cut is then the whole contraction. -/
theorem flushed5 (c : Dev nD) (t : Fin cfg5.N) (hf : (cfg5.win 3).flush t = true) :
    (dat5 V c).flushed 3 t = ((cfg5.win 3).blk t).view.read (Elt Ideal) (result5 V c) := by
  have h3 : t.val % 8 = 7 := (flush5_3 t).mp hf
  show (cfg5.win 3).cut (grid5.coords t) ((dat5 V c).after 3 t) = _
  rw [after5_3]
  funext y
  obtain ⟨p, q, rfl⟩ : ∃ (p : Fin 1024) (q : Fin 128), y = ix2 p q := ⟨y 0, y 1, eq_ix2 y⟩
  show acc5 V c t.val t.isLt (ix2 p q) = result5 V c (((cfg5.win 3).blk t).view.emb (ix2 p q))
  have hfull : 1024 * (t.val % 8) + 1024 = 8192 := by omega
  rw [show acc5 V c t.val t.isLt (ix2 p q) = _ from
      resAccAt5_apply (V c main_arg11) (V c main_v1) (V c main_v1) _ _ _ (fun n hn => blkA5_apply V c ⟨n, hn⟩) (fun n hn => blkB5_apply V c ⟨n, hn⟩) (fun n hn => blkR5_apply V c ⟨n, hn⟩) t.val t.isLt p q,
    hfull, mmBelow_full 8192 (le_refl _)]
  show result5 V c (ix2 (resRow5 t.val t.isLt p) q) = result5 V c _
  congr 1
  funext a
  apply Fin.ext
  match a with
  | ⟨0, _⟩ => show 1024 * (t.val / 8) + p.val = win5_3.index t 0 * 1024 + 1 * p.val; rw [(blockIdx5 t).2.2.2.2.2.2.1]; omega
  | ⟨1, _⟩ => show q.val = win5_3.index t 1 * 128 + 1 * q.val; rw [(blockIdx5 t).2.2.2.2.2.2.2]; omega

/-- Every row of the result array lies in the row block of a point at step 7. -/
theorem cover5 (c : Dev nD) (i : ((cfg5.win 3).arr.view.loc (c.tc : Thread nD τ)).2.ty.Idx) :
    ∃ t : Fin cfg5.N, (cfg5.win 3).flush t = true ∧ i ∈ ((cfg5.win 3).blk t).view.set := by
  have hi0 : (i 0 : Nat) < 8192 := (i 0).isLt
  have hi1 : (i 1 : Nat) < 128 := (i 1).isLt
  refine ⟨⟨8 * ((i 0 : Nat) / 1024) + 7, by have : cfg5.N = 64 := N_5; omega⟩, (flush5_3 _).mpr (by show (8 * ((i 0 : Nat) / 1024) + 7) % 8 = 7; omega), ?_⟩
  have key : ∀ t : Fin cfg5.N, t.val = 8 * ((i 0 : Nat) / 1024) + 7 → i ∈ ((cfg5.win 3).blk t).view.set := by
    intro t ht
    show i ∈ ((View.whole main_v6).slice (win5_3.rect t)).set
    rw [View.set_slice_whole, Rect.mem_set_unit]
    intro a
    match a with
    | ⟨0, _⟩ =>
      show win5_3.index t 0 * 1024 ≤ (i 0 : Nat) ∧ (i 0 : Nat) < win5_3.index t 0 * 1024 + 1024
      rw [(blockIdx5 t).2.2.2.2.2.2.1]; omega
    | ⟨1, _⟩ =>
      show win5_3.index t 1 * 128 ≤ (i 1 : Nat) ∧ (i 1 : Nat) < win5_3.index t 1 * 128 + 128
      rw [(blockIdx5 t).2.2.2.2.2.2.2]; omega
  exact key _ rfl

/-- The region leaves in its result array the residual plus the factor times the product of the two matrices. -/
theorem out_eq5 (c : Dev nD) :
    (dat5 V c).arrAt 3 cfg5.N = Spec.axpy (Ideal.ofBits .f32 0x3ECCCCCD#32) (V c main_v1) (Spec.mm (V c main_arg11) (V c main_v1)) :=
  (dat5 V c).arrAt_eq_of_cover 3 (result5 V c) (flushed5 V c) (cover5 c)

end Cert.KernelIdeal.Hand
end
-- ==== Proof.ValRes.lean ====
import proofs.«120173_j18854906429546_1_alg».proof.Proof.ValRes4
import proofs.«120173_j18854906429546_1_alg».proof.Proof.ValRes7
import proofs.«120173_j18854906429546_1_alg».proof.Proof.ValRes5
-- ==== Proof.KiResult.lean ====
import proofs.«120173_j18854906429546_1_alg».proof.Proof.KiHost
import proofs.«120173_j18854906429546_1_alg».proof.Proof.KiFold
import proofs.«120173_j18854906429546_1_alg».proof.Proof.ValGate
import proofs.«120173_j18854906429546_1_alg».proof.Proof.ValMm
import proofs.«120173_j18854906429546_1_alg».proof.Proof.ValRes
import proofs.«120173_j18854906429546_1_alg».proof.Proof.Spec

noncomputable section

namespace Cert.KernelIdeal.Hand

open Cert.KernelIdeal Cert.KernelIdeal.Gen
open Idealize.ShloMosaic Idealize.ShloMosaic.TcCoe Idealize.SL.Sem Idealize.ShloMosaic.StableHlo

open Cert.ReferenceIdeal.RefSide (hgS geoS trS sliceR tailR)

variable (m : (ℓ : Loc nD τ sig) → Buf (Elt Ideal) ℓ) (ρ : Dev nD → PrngReg) (c : Dev nD)

theorem ne_of_notMem {b o : Ref sig .tc} {l : List (Ref sig .tc)} (hb : b ∉ l) (ho : o ∈ l) : b ≠ o :=
  fun e => hb (e ▸ ho)

theorem fwd10 (b : Ref sig .tc) (hb : b ∉ [main_v10]) :
    W11 m ρ c (Proc.devRef .tc b) = W10 m ρ c (Proc.devRef .tc b) :=
  W11_keep m ρ c b (ne_of_notMem hb (by decide))

theorem fwd9 (b : Ref sig .tc) (hb : b ∉ [main_v9, main_v10]) :
    W11 m ρ c (Proc.devRef .tc b) = W9 m ρ c (Proc.devRef .tc b) :=
  (fwd10 m ρ c b fun h => hb (List.mem_cons_of_mem _ h)).trans (W10_keep m ρ c b (ne_of_notMem hb (by decide)))

theorem fwd8 (b : Ref sig .tc) (hb : b ∉ [main_v8, main_v9, main_v10]) :
    W11 m ρ c (Proc.devRef .tc b) = W8 m ρ c (Proc.devRef .tc b) :=
  (fwd9 m ρ c b fun h => hb (List.mem_cons_of_mem _ h)).trans (W9_keep m ρ c b (ne_of_notMem hb (by decide)))

theorem fwd7 (b : Ref sig .tc) (hb : b ∉ [main_v7, main_v8, main_v9, main_v10]) :
    W11 m ρ c (Proc.devRef .tc b) = W7 m ρ c (Proc.devRef .tc b) :=
  (fwd8 m ρ c b fun h => hb (List.mem_cons_of_mem _ h)).trans (W8_keep m ρ c b (ne_of_notMem hb (by decide)))

theorem fwd6 (b : Ref sig .tc) (hb : b ∉ [main_v6, main_v7, main_v8, main_v9, main_v10]) :
    W11 m ρ c (Proc.devRef .tc b) = W6 m ρ c (Proc.devRef .tc b) :=
  (fwd7 m ρ c b fun h => hb (List.mem_cons_of_mem _ h)).trans (W7_keep m ρ c b (ne_of_notMem hb (by decide)))

theorem fwd5 (b : Ref sig .tc) (hb : b ∉ [main_v5, main_v6, main_v7, main_v8, main_v9, main_v10]) :
    W11 m ρ c (Proc.devRef .tc b) = W5 m ρ c (Proc.devRef .tc b) :=
  (fwd6 m ρ c b fun h => hb (List.mem_cons_of_mem _ h)).trans (W6_keep m ρ c b (ne_of_notMem hb (by decide)))

theorem fwd4 (b : Ref sig .tc) (hb : b ∉ [main_v4, main_v5, main_v6, main_v7, main_v8, main_v9, main_v10]) :
    W11 m ρ c (Proc.devRef .tc b) = W4 m ρ c (Proc.devRef .tc b) :=
  (fwd5 m ρ c b fun h => hb (List.mem_cons_of_mem _ h)).trans (W5_keep m ρ c b (ne_of_notMem hb (by decide)))

theorem fwd3 (b : Ref sig .tc) (hb : b ∉ [main_v3, main_v4, main_v5, main_v6, main_v7, main_v8, main_v9, main_v10]) :
    W11 m ρ c (Proc.devRef .tc b) = W3 m ρ c (Proc.devRef .tc b) :=
  (fwd4 m ρ c b fun h => hb (List.mem_cons_of_mem _ h)).trans (W4_keep m ρ c b (ne_of_notMem hb (by decide)))

theorem fwd2 (b : Ref sig .tc) (hb : b ∉ [main_v2, main_v3, main_v4, main_v5, main_v6, main_v7, main_v8, main_v9, main_v10]) :
    W11 m ρ c (Proc.devRef .tc b) = W2 m ρ c (Proc.devRef .tc b) :=
  (fwd3 m ρ c b fun h => hb (List.mem_cons_of_mem _ h)).trans (W3_keep m ρ c b (ne_of_notMem hb (by decide)))

theorem fwd1 (b : Ref sig .tc) (hb : b ∉ [main_v1, main_v2, main_v3, main_v4, main_v5, main_v6, main_v7, main_v8, main_v9, main_v10]) :
    W11 m ρ c (Proc.devRef .tc b) = W1 m ρ c (Proc.devRef .tc b) :=
  (fwd2 m ρ c b fun h => hb (List.mem_cons_of_mem _ h)).trans (W2_keep m ρ c b (ne_of_notMem hb (by decide)))

theorem final_arg (b : Ref sig .tc) (hb : b ∉ [main_v0, main_v1, main_v2, main_v3, main_v4, main_v5, main_v6, main_v7, main_v8, main_v9, main_v10]) :
    W11 m ρ c (Proc.devRef .tc b) = m ((c.tc : Thread nD τ).loc b) :=
  (fwd1 m ρ c b fun h => hb (List.mem_cons_of_mem _ h)).trans
    (after_head_of_ne (W0 m ρ c) b (ne_of_notMem hb (by decide)))

theorem final_v0 : W11 m ρ c (Proc.devRef .tc main_v0) = (sliceK (m ((c.tc : Thread nD τ).loc main_arg0))) :=
  (fwd1 m ρ c main_v0 (by decide)).trans (after_head_slice (W0 m ρ c))

theorem final_v1 : W11 m ρ c (Proc.devRef .tc main_v1) = Spec.gate (W11 m ρ c (Proc.devRef .tc main_v0)) (W11 m ρ c (Proc.devRef .tc main_arg1)) (W11 m ρ c (Proc.devRef .tc main_arg2)) := by
  rw [fwd2 m ρ c main_v1 (by decide), fwd1 m ρ c main_v0 (by decide), fwd1 m ρ c main_arg1 (by decide), fwd1 m ρ c main_arg2 (by decide)]
  exact (W2_out m ρ c).trans (out_eq0 (V1 m ρ) c)

theorem final_v2 : W11 m ρ c (Proc.devRef .tc main_v2) = Spec.gate (W11 m ρ c (Proc.devRef .tc main_v0)) (W11 m ρ c (Proc.devRef .tc main_arg3)) (W11 m ρ c (Proc.devRef .tc main_arg4)) := by
  rw [fwd3 m ρ c main_v2 (by decide), fwd2 m ρ c main_v0 (by decide), fwd2 m ρ c main_arg3 (by decide), fwd2 m ρ c main_arg4 (by decide)]
  exact (W3_out m ρ c).trans (out_eq1 (V2 m ρ) c)

theorem final_v3 : W11 m ρ c (Proc.devRef .tc main_v3) = Spec.gate (W11 m ρ c (Proc.devRef .tc main_v0)) (W11 m ρ c (Proc.devRef .tc main_arg5)) (W11 m ρ c (Proc.devRef .tc main_arg6)) := by
  rw [fwd4 m ρ c main_v3 (by decide), fwd3 m ρ c main_v0 (by decide), fwd3 m ρ c main_arg5 (by decide), fwd3 m ρ c main_arg6 (by decide)]
  exact (W4_out m ρ c).trans (out_eq2 (V3 m ρ) c)

theorem final_v4 : W11 m ρ c (Proc.devRef .tc main_v4) = Spec.mm (W11 m ρ c (Proc.devRef .tc main_arg7)) (W11 m ρ c (Proc.devRef .tc main_v3)) := by
  rw [fwd5 m ρ c main_v4 (by decide), fwd4 m ρ c main_arg7 (by decide), fwd4 m ρ c main_v3 (by decide)]
  exact (W5_out m ρ c).trans (out_eq3 (V4 m ρ) c)

theorem final_v5 : W11 m ρ c (Proc.devRef .tc main_v5) = Spec.addm (W11 m ρ c (Proc.devRef .tc main_v3)) (Spec.mm (W11 m ρ c (Proc.devRef .tc main_arg8)) (W11 m ρ c (Proc.devRef .tc main_v4))) := by
  rw [fwd6 m ρ c main_v5 (by decide), fwd5 m ρ c main_v3 (by decide), fwd5 m ρ c main_arg8 (by decide), fwd5 m ρ c main_v4 (by decide)]
  exact (W6_out m ρ c).trans (out_eq4 (V5 m ρ) c)

theorem final_v6 : W11 m ρ c (Proc.devRef .tc main_v6) = Spec.axpy (Ideal.ofBits .f32 0x3ECCCCCD#32) (W11 m ρ c (Proc.devRef .tc main_v1)) (Spec.mm (W11 m ρ c (Proc.devRef .tc main_arg11)) (W11 m ρ c (Proc.devRef .tc main_v1))) := by
  rw [fwd7 m ρ c main_v6 (by decide), fwd6 m ρ c main_v1 (by decide), fwd6 m ρ c main_arg11 (by decide)]
  exact (W7_out m ρ c).trans (out_eq5 (V6 m ρ) c)

theorem final_v7 : W11 m ρ c (Proc.devRef .tc main_v7) = Spec.mm (W11 m ρ c (Proc.devRef .tc main_arg10)) (W11 m ρ c (Proc.devRef .tc main_v2)) := by
  rw [fwd8 m ρ c main_v7 (by decide), fwd7 m ρ c main_arg10 (by decide), fwd7 m ρ c main_v2 (by decide)]
  exact (W8_out m ρ c).trans (out_eq6 (V7 m ρ) c)

theorem final_v8 : W11 m ρ c (Proc.devRef .tc main_v8) = Spec.addm (W11 m ρ c (Proc.devRef .tc main_v2)) (Spec.mm (W11 m ρ c (Proc.devRef .tc main_arg9)) (W11 m ρ c (Proc.devRef .tc main_v7))) := by
  rw [fwd9 m ρ c main_v8 (by decide), fwd8 m ρ c main_v2 (by decide), fwd8 m ρ c main_arg9 (by decide), fwd8 m ρ c main_v7 (by decide)]
  exact (W9_out m ρ c).trans (out_eq7 (V8 m ρ) c)

theorem final_v9 : W11 m ρ c (Proc.devRef .tc main_v9) = Spec.mm (W11 m ρ c (Proc.devRef .tc main_arg7)) (W11 m ρ c (Proc.devRef .tc main_v5)) := by
  rw [fwd10 m ρ c main_v9 (by decide), fwd9 m ρ c main_arg7 (by decide), fwd9 m ρ c main_v5 (by decide)]
  exact (W10_out m ρ c).trans (out_eq8 (V9 m ρ) c)

theorem final_v10 : W11 m ρ c (Proc.devRef .tc main_v10) = Spec.mm (W11 m ρ c (Proc.devRef .tc main_arg7)) (W11 m ρ c (Proc.devRef .tc main_v6)) := by
  rw [fwd10 m ρ c main_arg7 (by decide), fwd10 m ρ c main_v6 (by decide)]
  exact (W11_out m ρ c).trans (out_eq9 (V10 m ρ) c)

theorem kernel_result_ref :
    W12 m ρ c (Proc.devRef .tc main_v25)
      = tailR (hgS (sliceR (m ((c.tc : Thread nD τ).loc main_arg0))) (m ((c.tc : Thread nD τ).loc main_arg5)) (m ((c.tc : Thread nD τ).loc main_arg6)) (m ((c.tc : Thread nD τ).loc main_arg7)) (m ((c.tc : Thread nD τ).loc main_arg8))) (geoS (sliceR (m ((c.tc : Thread nD τ).loc main_arg0))) (m ((c.tc : Thread nD τ).loc main_arg1)) (m ((c.tc : Thread nD τ).loc main_arg2)) (m ((c.tc : Thread nD τ).loc main_arg11)))
          (trS (sliceR (m ((c.tc : Thread nD τ).loc main_arg0))) (m ((c.tc : Thread nD τ).loc main_arg3)) (m ((c.tc : Thread nD τ).loc main_arg4)) (m ((c.tc : Thread nD τ).loc main_arg9)) (m ((c.tc : Thread nD τ).loc main_arg10)))
          (Spec.mm (m ((c.tc : Thread nD τ).loc main_arg7)) (hgS (sliceR (m ((c.tc : Thread nD τ).loc main_arg0))) (m ((c.tc : Thread nD τ).loc main_arg5)) (m ((c.tc : Thread nD τ).loc main_arg6)) (m ((c.tc : Thread nD τ).loc main_arg7)) (m ((c.tc : Thread nD τ).loc main_arg8))))
          (Spec.mm (m ((c.tc : Thread nD τ).loc main_arg7)) (geoS (sliceR (m ((c.tc : Thread nD τ).loc main_arg0))) (m ((c.tc : Thread nD τ).loc main_arg1)) (m ((c.tc : Thread nD τ).loc main_arg2)) (m ((c.tc : Thread nD τ).loc main_arg11)))) (m ((c.tc : Thread nD τ).loc main_arg12)) := by
  show StableHlo.after (hostOps10 (F := Ideal)) (W11 m ρ c) (Proc.devRef .tc main_v25) = _
  rw [after_tail, final_v9 m ρ c, final_v10 m ρ c, final_v5 m ρ c, final_v6 m ρ c, final_v8 m ρ c, final_v4 m ρ c,
    final_v7 m ρ c, final_v3 m ρ c, final_v2 m ρ c, final_v1 m ρ c, final_v0 m ρ c, final_arg m ρ c main_arg1 (by decide), final_arg m ρ c main_arg2 (by decide), final_arg m ρ c main_arg3 (by decide), final_arg m ρ c main_arg4 (by decide), final_arg m ρ c main_arg5 (by decide), final_arg m ρ c main_arg6 (by decide), final_arg m ρ c main_arg7 (by decide), final_arg m ρ c main_arg8 (by decide), final_arg m ρ c main_arg9 (by decide), final_arg m ρ c main_arg10 (by decide), final_arg m ρ c main_arg11 (by decide), final_arg m ρ c main_arg12 (by decide), tail_eq, slice_eq]

end Cert.KernelIdeal.Hand

end
-- ==== Proof.Finite.lean ====
import proofs.«120173_j18854906429546_1_alg».proof.Defs
import proofs.«120173_j18854906429546_1_alg».proof.Proof.Gen.Pre_finite_inputs
import proofs.«120173_j18854906429546_1_alg».proof.Proof.RefSide
import Idealize.ShloMosaic.Lib.ReduceAll
import Idealize.ShloMosaic.Lib.ValueIdx
import Idealize.ShloMosaic.PureOps.Ideal.Laws

noncomputable section

namespace Cert.Finite

open Idealize.ShloMosaic Idealize.ShloMosaic.TcCoe Idealize.SL.Sem
open Idealize.ShloMosaic.ValueIdx

instance : Subsingleton Cert.Pre_finite_inputs.S_.Idx := ⟨fun a b => funext fun d => d.elim0⟩

theorem ofBits_inf : Ideal.ofBits .f32 0x7F800000#32 = ⊤ := by
  simp [Ideal.ofBits, Ideal.ieee]

theorem real_of_abs_lt_inf (x : EReal) (h : Ideal.cmp .olt (max x (-x)) (Ideal.ofBits .f32 0x7F800000#32) = 1#1) :
    ∃ r : ℝ, x = (r : EReal) := by
  rw [ofBits_inf] at h
  induction x using EReal.rec with
  | bot => exact absurd h (by simp [Ideal.cmp])
  | coe r => exact ⟨r, rfl⟩
  | top => exact absurd h (by simp [Ideal.cmp])

theorem arg0_real (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S8193x128.Idx) :
    ∃ r : ℝ, m ((c.tc : Thread Cert.KernelIdeal.nD Cert.KernelIdeal.τ).loc Cert.KernelIdeal.main_arg0) i = (r : EReal) := by
  have h0 := congrFun (h c) ix0
  dsimp only [Cert.Pre_finite_inputs.fn, Cert.Pre_finite_inputs.fn_part1, Cert.Pre_finite_inputs.fn_part2,
    Cert.Pre_finite_inputs.fn_part3] at h0
  have h3 := (IntOp.andi_eq_one.1 (IntOp.andi_eq_one.1 (IntOp.andi_eq_one.1 (IntOp.andi_eq_one.1 (IntOp.andi_eq_one.1
    (IntOp.andi_eq_one.1 (IntOp.andi_eq_one.1 (IntOp.andi_eq_one.1 (IntOp.andi_eq_one.1 (IntOp.andi_eq_one.1
    (IntOp.andi_eq_one.1 h0).1).1).1).1).1).1).1).1).1).1).1
  exact real_of_abs_lt_inf _ (Host.reduce_andi_all _ _ _ _ _ h3 i)

theorem pe_real (m : (ℓ : Loc Cert.KernelIdeal.nD Cert.KernelIdeal.τ Cert.KernelIdeal.sig) → Buf (Elt Ideal) ℓ)
    (h : Cert.Pre_KernelIdeal m) (c : Dev Cert.KernelIdeal.nD) :
    ∀ j, ∃ r : ℝ, Cert.ReferenceIdeal.RefSide.sliceR
      (m ((c.tc : Thread Cert.KernelIdeal.nD Cert.KernelIdeal.τ).loc Cert.KernelIdeal.main_arg0)) j = (r : EReal) := by
  intro j
  rw [Cert.ReferenceIdeal.RefSide.sliceR_apply]
  exact arg0_real m h c _

end Cert.Finite

end
-- ==== Proof.lean ====
import proofs.«120173_j18854906429546_1_alg».proof.Defs
import proofs.«120173_j18854906429546_1_alg».proof.Proof.Gen.Kernel
import proofs.«120173_j18854906429546_1_alg».proof.Proof.Gen.KernelIdeal
import proofs.«120173_j18854906429546_1_alg».proof.Proof.Gen.ReferenceIdeal
import proofs.«120173_j18854906429546_1_alg».proof.Proof.Gen.Pre_finite_inputs
import proofs.«120173_j18854906429546_1_alg».proof.Proof.KbRun
import proofs.«120173_j18854906429546_1_alg».proof.Proof.KiRun
import proofs.«120173_j18854906429546_1_alg».proof.Proof.KiResult
import proofs.«120173_j18854906429546_1_alg».proof.Proof.RefSide
import proofs.«120173_j18854906429546_1_alg».proof.Proof.Finite
import Idealize.ShloMosaic.Adequacy
import Idealize.ShloMosaic.Init

noncomputable section

namespace Cert.Proof

open Idealize.ShloMosaic Idealize.SL.Sem Cert.Kernel

theorem algebraic : Cert.algebraic_KernelIdeal_ReferenceIdeal := fun m ρ m' ρ' hpre hagree =>
  ⟨fun c => Cert.KernelIdeal.Hand.W12 (F := Ideal) m ρ c (Proc.devRef .tc Cert.KernelIdeal.main_v25),
    (θ_run Cert.KernelIdeal.defs _ _).mono (fun r h c =>
      ⟨h c _ (Cert.KernelIdeal.Hand.mem_uc Cert.KernelIdeal.main_v25 (by decide)),
        (h c _ (Cert.KernelIdeal.Hand.mem_uc Cert.KernelIdeal.main_arg0 (by decide))).trans (Cert.KernelIdeal.Hand.W12_main_arg0 m ρ c),
        (h c _ (Cert.KernelIdeal.Hand.mem_uc Cert.KernelIdeal.main_arg1 (by decide))).trans (Cert.KernelIdeal.Hand.W12_main_arg1 m ρ c),
        (h c _ (Cert.KernelIdeal.Hand.mem_uc Cert.KernelIdeal.main_arg2 (by decide))).trans (Cert.KernelIdeal.Hand.W12_main_arg2 m ρ c),
        (h c _ (Cert.KernelIdeal.Hand.mem_uc Cert.KernelIdeal.main_arg3 (by decide))).trans (Cert.KernelIdeal.Hand.W12_main_arg3 m ρ c),
        (h c _ (Cert.KernelIdeal.Hand.mem_uc Cert.KernelIdeal.main_arg4 (by decide))).trans (Cert.KernelIdeal.Hand.W12_main_arg4 m ρ c),
        (h c _ (Cert.KernelIdeal.Hand.mem_uc Cert.KernelIdeal.main_arg5 (by decide))).trans (Cert.KernelIdeal.Hand.W12_main_arg5 m ρ c),
        (h c _ (Cert.KernelIdeal.Hand.mem_uc Cert.KernelIdeal.main_arg6 (by decide))).trans (Cert.KernelIdeal.Hand.W12_main_arg6 m ρ c),
        (h c _ (Cert.KernelIdeal.Hand.mem_uc Cert.KernelIdeal.main_arg7 (by decide))).trans (Cert.KernelIdeal.Hand.W12_main_arg7 m ρ c),
        (h c _ (Cert.KernelIdeal.Hand.mem_uc Cert.KernelIdeal.main_arg8 (by decide))).trans (Cert.KernelIdeal.Hand.W12_main_arg8 m ρ c),
        (h c _ (Cert.KernelIdeal.Hand.mem_uc Cert.KernelIdeal.main_arg9 (by decide))).trans (Cert.KernelIdeal.Hand.W12_main_arg9 m ρ c),
        (h c _ (Cert.KernelIdeal.Hand.mem_uc Cert.KernelIdeal.main_arg10 (by decide))).trans (Cert.KernelIdeal.Hand.W12_main_arg10 m ρ c),
        (h c _ (Cert.KernelIdeal.Hand.mem_uc Cert.KernelIdeal.main_arg11 (by decide))).trans (Cert.KernelIdeal.Hand.W12_main_arg11 m ρ c),
        (h c _ (Cert.KernelIdeal.Hand.mem_uc Cert.KernelIdeal.main_arg12 (by decide))).trans (Cert.KernelIdeal.Hand.W12_main_arg12 m ρ c)⟩)
      (Cert.KernelIdeal.Hand.run (F := Ideal) m ρ),
    (θ_run Cert.ReferenceIdeal.defs _ _).mono (fun r h c =>
      ⟨(h c).1.trans (by
          have hpe : ∀ j, ∃ x : ℝ, Cert.ReferenceIdeal.RefSide.sliceR
              (m' ((c.tc : Thread Cert.ReferenceIdeal.nD Cert.ReferenceIdeal.τ).loc Cert.ReferenceIdeal.main_arg0)) j = (x : EReal) := by
            rw [(hagree c).1]; exact Cert.Finite.pe_real m hpre c
          refine (Cert.ReferenceIdeal.RefSide.ref_result m' c hpe).trans ?_
          rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]
          exact (Cert.KernelIdeal.Hand.kernel_result_ref m ρ c).symm),
        (h c).2⟩)
      (Cert.ReferenceIdeal.Value.run (F := Ideal) m' ρ')⟩

theorem claim : Cert.Claim := ⟨Cert.Kernel.Gen.facts, Cert.KernelIdeal.Gen.facts, Cert.ReferenceIdeal.Gen.facts, Cert.Pre_finite_inputs.Gen.facts,
  fun m ρ _ => Cert.Kernel.Hand.frame (F := Bits) m ρ,
  fun m ρ _ => Cert.KernelIdeal.Hand.frame (F := Ideal) m ρ,
  fun m ρ _ => (θ_run Cert.ReferenceIdeal.defs _ _).mono (fun _ h c => (h c).2) (Cert.ReferenceIdeal.Value.run (F := Ideal) m ρ),
  trivial,
  algebraic⟩

end Cert.Proof

end
